-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)) (v2 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x2048 : Shape := ⟨3, ![1, 1, 2048]⟩
abbrev S100x2048 : Shape := ⟨2, ![100, 2048]⟩
abbrev S50257x2048 : Shape := ⟨2, ![50257, 2048]⟩
abbrev S4096x100 : Shape := ⟨2, ![4096, 100]⟩
abbrev S100 : Shape := ⟨1, ![100]⟩
abbrev S4096x2048 : Shape := ⟨2, ![4096, 2048]⟩
abbrev S2048 : Shape := ⟨1, ![2048]⟩
abbrev S6144x2048 : Shape := ⟨2, ![6144, 2048]⟩
abbrev S6144 : Shape := ⟨1, ![6144]⟩
abbrev S2048x50257 : Shape := ⟨2, ![2048, 50257]⟩
abbrev S50257 : Shape := ⟨1, ![50257]⟩
abbrev S_ : Shape := ⟨0, ![]⟩

class Facts : Prop where
  bcast_S_S1x1x2048 : S_.BroadcastsInDim S1x1x2048 (![] : Fin 0 → Fin S1x1x2048.rank)
  reducesTo_S1x1x2048_S_d0_1_2 : S1x1x2048.ReducesTo [0, 1, 2] S_
  h_S_ : 0 < S_.numel
  bcast_S_S100x2048 : S_.BroadcastsInDim S100x2048 (![] : Fin 0 → Fin S100x2048.rank)
  reducesTo_S100x2048_S_d0_1 : S100x2048.ReducesTo [0, 1] S_
  bcast_S_S50257x2048 : S_.BroadcastsInDim S50257x2048 (![] : Fin 0 → Fin S50257x2048.rank)
  reducesTo_S50257x2048_S_d0_1 : S50257x2048.ReducesTo [0, 1] S_
  bcast_S_S4096x100 : S_.BroadcastsInDim S4096x100 (![] : Fin 0 → Fin S4096x100.rank)
  reducesTo_S4096x100_S_d0_1 : S4096x100.ReducesTo [0, 1] S_
  bcast_S_S100 : S_.BroadcastsInDim S100 (![] : Fin 0 → Fin S100.rank)
  reducesTo_S100_S_d0 : S100.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S2048x50257 : S_.BroadcastsInDim S2048x50257 (![] : Fin 0 → Fin S2048x50257.rank)
  reducesTo_S2048x50257_S_d0_1 : S2048x50257.ReducesTo [0, 1] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S2048x50257 .f32) (main_arg13 : FVec F S50257 .f32) (main_v48 : IVec S_ 1) (main_v49 : FVec F S6144 .f32) (main_v50 : FVec F S6144 .f32) : IVec S_ 1 :=
  let main_v51 : IVec S6144 1 := cmpf .olt main_v49 main_v50
  let main_c_19 : IVec S_ 1 := constantI S_ 1 1#1
  let main_v52 : IVec S_ 1 := (fun x v => Host.reduce IntOp.andi x v reducesTo_S6144_S_d0 h_S_) main_v51 main_c_19
  let main_v53 : IVec S_ 1 := andi main_v48 main_v52
  let main_v54 : FVec F S2048x50257 .f32 := Host.absf main_arg12
  let main_cst_20 : FVec F S_ .f32 := constant S_ .f32 0x7F800000#32
  let main_v55 : FVec F S2048x50257 .f32 := broadcastInDim S2048x50257 ![] bcast_S_S2048x50257 main_cst_20
  let main_v56 : IVec S2048x50257 1 := cmpf .olt main_v54 main_v55
  let main_c_21 : IVec S_ 1 := constantI S_ 1 1#1
  let main_v57 : IVec S_ 1 := (fun x v => Host.reduce IntOp.andi x v reducesTo_S2048x50257_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S6144x2048 .f32) (main_arg9 : FVec F S6144 .f32) (main_arg10 : FVec F S6144x2048 .f32) (main_arg11 : FVec F S6144 .f32) (main_arg12 : FVec F S2048x50257 .f32) (main_arg13 : FVec F S50257 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg9
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144x2048 .f32 := Host.absf main_arg10
  let main_cst_16 : FVec F S_ .f32 := constant S_ .f32 0x7F800000#32
  let main_v45 : FVec F S6144x2048 .f32 := broadcastInDim S6144x2048 ![] bcast_S_S6144x2048 main_cst_16
  let main_v46 : IVec S6144x2048 1 := cmpf .olt main_v44 main_v45
  let main_c_17 : IVec S_ 1 := constantI S_ 1 1#1
  let main_v47 : IVec S_ 1 := (fun x v => Host.reduce IntOp.andi x v reducesTo_S6144x2048_S_d0_1 h_S_) main_v46 main_c_17
  let main_v48 : IVec S_ 1 := andi main_v43 main_v47
  let main_v49 : FVec F S6144 .f32 := Host.absf main_arg11
  let main_cst_18 : FVec F S_ .f32 := constant S_ .f32 0x7F800000#32
  let main_v50 : FVec F S6144 .f32 := broadcastInDim S6144 ![] bcast_S_S6144 main_cst_18
  fn_part3 (F := F) main_arg12 main_arg13 main_v48 main_v49 main_v50

def fn_part1 {F : FTy → Type} [FloatOps F] (main_arg5 : FVec F S100 .f32) (main_arg6 : FVec F S4096x2048 .f32) (main_arg7 : FVec F S2048 .f32) (main_arg8 : FVec F S6144x2048 .f32) (main_arg9 : FVec F S6144 .f32) (main_arg10 : FVec F S6144x2048 .f32) (main_arg11 : FVec F S6144 .f32) (main_arg12 : FVec F S2048x50257 .f32) (main_arg13 : FVec F S50257 .f32) (main_v13 : IVec S_ 1) (main_v16 : IVec S4096x100 1) : IVec S_ 1 :=
  let main_c_5 : IVec S_ 1 := constantI S_ 1 1#1
  let main_v17 : IVec S_ 1 := (fun x v => Host.reduce IntOp.andi x v reducesTo_S4096x100_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S4096x2048 .f32 := Host.absf main_arg6
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x2048 .f32) (main_arg2 : FVec F S100x2048 .f32) (main_arg3 : FVec F S50257x2048 .f32) (main_arg4 : FVec F S4096x100 .f32) (main_arg5 : FVec F S100 .f32) (main_arg6 : FVec F S4096x2048 .f32) (main_arg7 : FVec F S2048 .f32) (main_arg8 : FVec F S6144x2048 .f32) (main_arg9 : FVec F S6144 .f32) (main_arg10 : FVec F S6144x2048 .f32) (main_arg11 : FVec F S6144 .f32) (main_arg12 : FVec F S2048x50257 .f32) (main_arg13 : FVec F S50257 .f32) : IVec S_ 1 :=
  let main_v0 : FVec F S1x1x2048 .f32 := Host.absf main_arg1
  let main_cst : FVec F S_ .f32 := constant S_ .f32 0x7F800000#32
  let main_v1 : FVec F S1x1x2048 .f32 := broadcastInDim S1x1x2048 ![] bcast_S_S1x1x2048 main_cst
  let main_v2 : IVec S1x1x2048 1 := cmpf .olt main_v0 main_v1
  let main_c : IVec S_ 1 := constantI S_ 1 1#1
  let main_v3 : IVec S_ 1 := (fun x v => Host.reduce IntOp.andi x v reducesTo_S1x1x2048_S_d0_1_2 h_S_) main_v2 main_c
  let main_v4 : FVec F S100x2048 .f32 := Host.absf main_arg2
  let main_cst_0 : FVec F S_ .f32 := constant S_ .f32 0x7F800000#32
  let main_v5 : FVec F S100x2048 .f32 := broadcastInDim S100x2048 ![] bcast_S_S100x2048 main_cst_0
  let main_v6 : IVec S100x2048 1 := cmpf .olt main_v4 main_v5
  let main_c_1 : IVec S_ 1 := constantI S_ 1 1#1
  let main_v7 : IVec S_ 1 := (fun x v => Host.reduce IntOp.andi x v reducesTo_S100x2048_S_d0_1 h_S_) main_v6 main_c_1
  let main_v8 : IVec S_ 1 := andi main_v3 main_v7
  let main_v9 : FVec F S50257x2048 .f32 := Host.absf main_arg3
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_v14 : FVec F S4096x100 .f32 := Host.absf main_arg4
  let main_cst_4 : FVec F S_ .f32 := constant S_ .f32 0x7F800000#32
  let main_v15 : FVec F S4096x100 .f32 := broadcastInDim S4096x100 ![] bcast_S_S4096x100 main_cst_4
  let main_v16 : IVec S4096x100 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x2048 : Shape := ⟨3, ![1, 1, 2048]⟩
abbrev S100x2048 : Shape := ⟨2, ![100, 2048]⟩
abbrev S50257x2048 : Shape := ⟨2, ![50257, 2048]⟩
abbrev S4096x100 : Shape := ⟨2, ![4096, 100]⟩
abbrev S100 : Shape := ⟨1, ![100]⟩
abbrev S4096x2048 : Shape := ⟨2, ![4096, 2048]⟩
abbrev S2048 : Shape := ⟨1, ![2048]⟩
abbrev S6144x2048 : Shape := ⟨2, ![6144, 2048]⟩
abbrev S6144 : Shape := ⟨1, ![6144]⟩
abbrev S2048x50257 : Shape := ⟨2, ![2048, 50257]⟩
abbrev S50257 : Shape := ⟨1, ![50257]⟩
abbrev S_ : Shape := ⟨0, ![]⟩
abbrev S1x1 : Shape := ⟨2, ![1, 1]⟩
abbrev S1x2048 : Shape := ⟨2, ![1, 2048]⟩
abbrev S1x100 : Shape := ⟨2, ![1, 100]⟩
abbrev S1x4096 : Shape := ⟨2, ![1, 4096]⟩
abbrev S1x512 : Shape := ⟨2, ![1, 512]⟩
abbrev S512x2048 : Shape := ⟨2, ![512, 2048]⟩
abbrev S1x6144 : Shape := ⟨2, ![1, 6144]⟩
abbrev S1024x2048 : Shape := ⟨2, ![1024, 2048]⟩
abbrev S1x1024 : Shape := ⟨2, ![1, 1024]⟩
abbrev S1x50257 : Shape := ⟨2, ![1, 50257]⟩
abbrev S512x8192 : Shape := ⟨2, ![512, 8192]⟩
abbrev S1x8192 : Shape := ⟨2, ![1, 8192]⟩

abbrev nBuf : Space → Nat
  | .hbm => 86
  | .vmem => 36
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S100x2048, .f32⟩
  | .hbm, ⟨3, _⟩ => ⟨S50257x2048, .f32⟩
  | .hbm, ⟨4, _⟩ => ⟨S4096x100, .f32⟩
  | .hbm, ⟨5, _⟩ => ⟨S100, .f32⟩
  | .hbm, ⟨6, _⟩ => ⟨S4096x2048, .f32⟩
  | .hbm, ⟨7, _⟩ => ⟨S2048, .f32⟩
  | .hbm, ⟨8, _⟩ => ⟨S6144x2048, .f32⟩
  | .hbm, ⟨9, _⟩ => ⟨S6144, .f32⟩
  | .hbm, ⟨10, _⟩ => ⟨S6144x2048, .f32⟩
  | .hbm, ⟨11, _⟩ => ⟨S6144, .f32⟩
  | .hbm, ⟨12, _⟩ => ⟨S2048x50257, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x2048, .f32⟩
  | .hbm, ⟨23, _⟩ => ⟨S1x2048, .f32⟩
  | .hbm, ⟨24, _⟩ => ⟨S1x100, .f32⟩
  | .hbm, ⟨25, _⟩ => ⟨S1x4096, .f32⟩
  | .hbm, ⟨26, _⟩ => ⟨S1x2048, .f32⟩
  | .hbm, ⟨27, _⟩ => ⟨S1x100, .f32⟩
  | .hbm, ⟨28, _⟩ => ⟨S1x2048, .f32⟩
  | .hbm, ⟨29, _⟩ => ⟨S1x4096, .f32⟩
  | .hbm, ⟨30, _⟩ => ⟨S1x2048, .f32⟩
  | .hbm, ⟨31, _⟩ => ⟨S1x6144, .f32⟩
  | .hbm, ⟨32, _⟩ => ⟨S1x6144, .f32⟩
  | .hbm, ⟨33, _⟩ => ⟨S1x6144, .f32⟩
  | .hbm, ⟨34, _⟩ => ⟨S1x6144, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S_, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S_, .f32⟩
  | .hbm, ⟨54, _⟩ => ⟨S1x2048, .f32⟩
  | .hbm, ⟨55, _⟩ => ⟨S1x2048, .f32⟩
  | .hbm, ⟨56, _⟩ => ⟨S_, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S1x2048, .f32⟩
  | .hbm, ⟨62, _⟩ => ⟨S_, .f32⟩
  | .hbm, ⟨63, _⟩ => ⟨S1x2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x50257, .f32⟩
  | .hbm, ⟨69, _⟩ => ⟨S1x50257, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S1, .f32⟩
  | .hbm, ⟨74, _⟩ => ⟨S1, .f32⟩
  | .hbm, ⟨75, _⟩ => ⟨S1x1, .f32⟩
  | .hbm, ⟨76, _⟩ => ⟨S1x50257, .f32⟩
  | .hbm, ⟨77, _⟩ => ⟨S1x50257, .f32⟩
  | .hbm, ⟨78, _⟩ => ⟨S1x50257, .f32⟩
  | .hbm, ⟨79, _⟩ => ⟨S_, .f32⟩
  | .hbm, ⟨80, _⟩ => ⟨S1, .f32⟩
  | .hbm, ⟨81, _⟩ => ⟨S1x1, .f32⟩
  | .hbm, ⟨82, _⟩ => ⟨S1x1, .f32⟩
  | .hbm, ⟨83, _⟩ => ⟨S1x50257, .f32⟩
  | .hbm, ⟨84, _⟩ => ⟨S1x50257, .f32⟩
  | .hbm, ⟨85, _⟩ => ⟨S1x1x2048, .f32⟩
  | .local _ .vmem, ⟨0, _⟩ => ⟨S1x4096, .f32⟩
  | .local _ .vmem, ⟨1, _⟩ => ⟨S4096x100, .f32⟩
  | .local _ .vmem, ⟨2, _⟩ => ⟨S1x100, .f32⟩
  | .local _ .vmem, ⟨3, _⟩ => ⟨S100x2048, .f32⟩
  | .local _ .vmem, ⟨4, _⟩ => ⟨S1x2048, .f32⟩
  | .local _ .vmem, ⟨5, _⟩ => ⟨S1x100, .f32⟩
  | .local _ .vmem, ⟨6, _⟩ => ⟨S1x512, .f32⟩
  | .local _ .vmem, ⟨7, _⟩ => ⟨S1x512, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x2048, .f32⟩
  | .local _ .vmem, ⟨21, _⟩ => ⟨S1024x2048, .f32⟩
  | .local _ .vmem, ⟨22, _⟩ => ⟨S1024x2048, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x512, .f32⟩
  | .local _ .vmem, ⟨28, _⟩ => ⟨S1x512, .f32⟩
  | .local _ .vmem, ⟨29, _⟩ => ⟨S512x8192, .f32⟩
  | .local _ .vmem, ⟨30, _⟩ => ⟨S512x8192, .f32⟩
  | .local _ .vmem, ⟨31, _⟩ => ⟨S1x8192, .f32⟩
  | .local _ .vmem, ⟨32, _⟩ => ⟨S1x8192, .f32⟩
  | .local _ .vmem, ⟨33, _⟩ => ⟨S1x8192, .f32⟩
  | .local _ .vmem, ⟨34, _⟩ => ⟨S1x8192, .f32⟩
  | .local _ .vmem, ⟨35, _⟩ => ⟨S1x8192, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_call0_cst_0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_cst_1 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_v48 : Ref sig .tc := ⟨.hbm, 84, rfl⟩
abbrev main_v49 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v14 : BitVec 1 := Scalar.cmpi .eq arg0 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![7, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S512x8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x8192 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x8192 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  shapeCasts_S100_S1x100 : S100.ShapeCasts S1x100
  concatenates_S1x2048_S1x2048_S1x4096_d1 : Shape.Concatenates [S1x2048, S1x2048] S1x4096 1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S4096x100_S4096x100_0_0 : ∀ a, (![0, 0] : Fin 2 → Nat) a + S4096x100.size a ≤ S4096x100.size a
  h_S4096x100 : 0 < S4096x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  reduces_S1x100_S1 : S1x100.Reduces [1] S1
  shapeCasts_S1_S1x1 : S1.ShapeCasts S1x1
  broadcasts_S1x1_S1x100 : S1x1.Broadcasts S1x100
  inb_S100x2048_S100x2048_0_0 : ∀ a, (![0, 0] : Fin 2 → Nat) a + S100x2048.size a ≤ S100x2048.size a
  h_S100x2048 : 0 < S100x2048.numel
  inb_S1x2048_S1x2048_0_0 : ∀ a, (![0, 0] : Fin 2 → Nat) a + S1x2048.size a ≤ S1x2048.size a
  h_S1x2048 : 0 < S1x2048.numel
  shapeCasts_S2048_S1x2048 : S2048.ShapeCasts S1x2048
  shapeCasts_S1x2048_S1x2048 : S1x2048.ShapeCasts S1x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x2048_S512x2048_0_0 : ∀ a, (![0, 0] : Fin 2 → Nat) a + S512x2048.size a ≤ S512x2048.size a
  h_S512x2048 : 0 < S512x2048.numel
  shapeCasts_S6144_S1x6144 : S6144.ShapeCasts S1x6144
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  shapeCasts_S50257_S1x50257 : S50257.ShapeCasts S1x50257
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x8192_S512x8192_0_0 : ∀ a, (![0, 0] : Fin 2 → Nat) a + S512x8192.size a ≤ S512x8192.size a
  h_S512x8192 : 0 < S512x8192.numel
  reducesTo_S1x50257_S1_d1 : S1x50257.ReducesTo [1] S1
  h_S_ : 0 < S_.numel
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x100_S1x100_1_0_0_1_n_n_wf : DotDims.WF S1x4096 S4096x100 S1x100 [1] [0] [0] [1] [] []
  dot_S1x100_S100x2048_S1x2048_1_0_0_1_n_n_wf : DotDims.WF S1x100 S100x2048 S1x2048 [1] [0] [0] [1] [] []
  dot_S1x512_S512x2048_S1x2048_1_0_0_1_n_n_wf : DotDims.WF S1x512 S512x2048 S1x2048 [1] [0] [0] [1] [] []
  dot_S1x2048_S1024x2048_S1x1024_1_1_0_0_n_n_wf : DotDims.WF S1x2048 S1024x2048 S1x1024 [1] [1] [0] [0] [] []
  dot_S1x512_S512x8192_S1x8192_1_0_0_1_n_n_wf : DotDims.WF S1x512 S512x8192 S1x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x4096.size a
  hwx0_0 : ∀ i : grid0.Coords, EltTy.bits .f32 = 32 ∨ (Rect.block (s := S1x4096) S1x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x100.size a ≤ S4096x100.size a
  hwx0_1 : ∀ i : grid0.Coords, EltTy.bits .f32 = 32 ∨ (Rect.block (s := S4096x100) S4096x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x2048.size a ≤ S100x2048.size a
  hwx0_3 : ∀ i : grid0.Coords, EltTy.bits .f32 = 32 ∨ (Rect.block (s := S100x2048) S100x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512.size a ≤ S1x4096.size a
  hwx1_0 : ∀ i : grid1.Coords, EltTy.bits .f32 = 32 ∨ (Rect.block (s := S1x4096) S1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .f32 = 32 ∨ (Rect.block (s := S4096x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x2048.size a
  hwx2_0 : ∀ i : grid2.Coords, EltTy.bits .f32 = 32 ∨ (Rect.block (s := S1x2048) S1x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S6144x2048.size a
  hwx2_1 : ∀ i : grid2.Coords, EltTy.bits .f32 = 32 ∨ (Rect.block (s := S6144x2048) S1024x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x6144.size a
  hwx2_2 : ∀ i : grid2.Coords, EltTy.bits .f32 = 32 ∨ (Rect.block (s := S1x6144) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x6144.size a
  hwx2_3 : ∀ i : grid2.Coords, EltTy.bits .f32 = 32 ∨ (Rect.block (s := S1x6144) S1x1024.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x2048.size a ≤ S6144x2048.size a
  hwx3_1 : ∀ i : grid3.Coords, EltTy.bits .f32 = 32 ∨ (Rect.block (s := S6144x2048) S1024x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x6144.size a
  hwx3_2 : ∀ i : grid3.Coords, EltTy.bits .f32 = 32 ∨ (Rect.block (s := S1x6144) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x6144.size a
  hwx3_3 : ∀ i : grid3.Coords, EltTy.bits .f32 = 32 ∨ (Rect.block (s := S1x6144) S1x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x512.size a ≤ S1x2048.size a
  hwx4_0 : ∀ i : grid4.Coords, EltTy.bits .f32 = 32 ∨ (Rect.block (s := S1x2048) S1x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S512x8192.size a < S2048x50257.size a
  hwx4_1 : ∀ i : grid4.Coords, EltTy.bits .f32 = 32 ∨ (Rect.unit (s := S2048x50257) (fun a => cc4_transform_1 i a * S512x8192.size a) (fun a => (Pipeline.Clip.of (cc4_transform_1 i a) (S512x8192.size a) (S2048x50257.size a)).extent (S512x8192.size a)) fun a => Pipeline.Clip.inb (Pipeline.Clip.ok_of (hstart4_1 i a))).WholeWords (EltTy.packing .f32)
  hwxs4_1 : ∀ i : grid4.Coords, EltTy.bits .f32 = 32 ∨ (Rect.unit (s := S512x8192) (fun _ => 0) (fun a => (Pipeline.Clip.of (cc4_transform_1 i a) (S512x8192.size a) (S2048x50257.size a)).extent (S512x8192.size a)) fun a => (Nat.zero_add _).trans_le (Pipeline.Clip.extent_le (Pipeline.Clip.ok_of (hstart4_1 i a)))).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hstart4_2 : ∀ (i : grid4.Coords) a, cc4_transform_2 i a * S1x8192.size a < S1x50257.size a
  hwx4_2 : ∀ i : grid4.Coords, EltTy.bits .f32 = 32 ∨ (Rect.unit (s := S1x50257) (fun a => cc4_transform_2 i a * S1x8192.size a) (fun a => (Pipeline.Clip.of (cc4_transform_2 i a) (S1x8192.size a) (S1x50257.size a)).extent (S1x8192.size a)) fun a => Pipeline.Clip.inb (Pipeline.Clip.ok_of (hstart4_2 i a))).WholeWords (EltTy.packing .f32)
  hwxs4_2 : ∀ i : grid4.Coords, EltTy.bits .f32 = 32 ∨ (Rect.unit (s := S1x8192) (fun _ => 0) (fun a => (Pipeline.Clip.of (cc4_transform_2 i a) (S1x8192.size a) (S1x50257.size a)).extent (S1x8192.size a)) fun a => (Nat.zero_add _).trans_le (Pipeline.Clip.extent_le (Pipeline.Clip.ok_of (hstart4_2 i a)))).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hstart4_3 : ∀ (i : grid4.Coords) a, cc4_transform_3 i a * S1x8192.size a < S1x50257.size a
  hwx4_3 : ∀ i : grid4.Coords, EltTy.bits .f32 = 32 ∨ (Rect.unit (s := S1x50257) (fun a => cc4_transform_3 i a * S1x8192.size a) (fun a => (Pipeline.Clip.of (cc4_transform_3 i a) (S1x8192.size a) (S1x50257.size a)).extent (S1x8192.size a)) fun a => Pipeline.Clip.inb (Pipeline.Clip.ok_of (hstart4_3 i a))).WholeWords (EltTy.packing .f32)
  hwxs4_3 : ∀ i : grid4.Coords, EltTy.bits .f32 = 32 ∨ (Rect.unit (s := S1x8192) (fun _ => 0) (fun a => (Pipeline.Clip.of (cc4_transform_3 i a) (S1x8192.size a) (S1x50257.size a)).extent (S1x8192.size a)) fun a => (Nat.zero_add _).trans_le (Pipeline.Clip.extent_le (Pipeline.Clip.ok_of (hstart4_3 i a)))).WholeWords (EltTy.packing .f32)

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x100_S1x100_1_0_0_1_n_n : DotDims S1x4096 S4096x100 S1x100 where
  lhsContracting := [1]
  rhsContracting := [0]
  lhsNonContracting := [0]
  rhsNonContracting := [1]
  lhsBatch := []
  rhsBatch := []
  wf := dot_S1x4096_S4096x100_S1x100_1_0_0_1_n_n_wf
def dot_S1x100_S100x2048_S1x2048_1_0_0_1_n_n : DotDims S1x100 S100x2048 S1x2048 where
  lhsContracting := [1]
  rhsContracting := [0]
  lhsNonContracting := [0]
  rhsNonContracting := [1]
  lhsBatch := []
  rhsBatch := []
  wf := dot_S1x100_S100x2048_S1x2048_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf
def dot_S1x2048_S1024x2048_S1x1024_1_1_0_0_n_n : DotDims S1x2048 S1024x2048 S1x1024 where
  lhsContracting := [1]
  rhsContracting := [1]
  lhsNonContracting := [0]
  rhsNonContracting := [0]
  lhsBatch := []
  rhsBatch := []
  wf := dot_S1x2048_S1024x2048_S1x1024_1_1_0_0_n_n_wf
def dot_S1x512_S512x8192_S1x8192_1_0_0_1_n_n : DotDims S1x512 S512x8192 S1x8192 where
  lhsContracting := [1]
  rhsContracting := [0]
  lhsNonContracting := [0]
  rhsNonContracting := [1]
  lhsBatch := []
  rhsBatch := []
  wf := dot_S1x512_S512x8192_S1x8192_1_0_0_1_n_n_wf

abbrev win0_0 : Pipeline.Window sig grid0 :=
  Pipeline.Window.ofSpec (Memref.whole main_v9) S1x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S4096x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S100x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x2048.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x100.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x2048.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v13) S1x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S1024x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v45) S1x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpecClip (Memref.whole main_arg12) S512x8192.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpecClip (Memref.whole main_v46) S1x8192.size cc4_transform_2 reads4_2 false false 2 stage4_2 sem4_2
    hrank4 hreads4_2 hstart4_2 nbuf4_2 (Memref.isWhole_whole _) hwx4_2 hwxs4_2 hstage4_2

abbrev win4_3 : Pipeline.Window sig grid4 :=
  Pipeline.Window.ofSpecClip (Memref.whole main_v47) S1x8192.size cc4_transform_3 reads4_3 true false 2 stage4_3 sem4_3
    hrank4 hreads4_3 hstart4_3 nbuf4_3 (Memref.isWhole_whole _) hwx4_3 hwxs4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S1 : Shape := ⟨1, ![1]⟩
abbrev S1x1x2048 : Shape := ⟨3, ![1, 1, 2048]⟩
abbrev S100x2048 : Shape := ⟨2, ![100, 2048]⟩
abbrev S50257x2048 : Shape := ⟨2, ![50257, 2048]⟩
abbrev S4096x100 : Shape := ⟨2, ![4096, 100]⟩
abbrev S100 : Shape := ⟨1, ![100]⟩
abbrev S4096x2048 : Shape := ⟨2, ![4096, 2048]⟩
abbrev S2048 : Shape := ⟨1, ![2048]⟩
abbrev S6144x2048 : Shape := ⟨2, ![6144, 2048]⟩
abbrev S6144 : Shape := ⟨1, ![6144]⟩
abbrev S2048x50257 : Shape := ⟨2, ![2048, 50257]⟩
abbrev S50257 : Shape := ⟨1, ![50257]⟩
abbrev S_ : Shape := ⟨0, ![]⟩
abbrev S1x1 : Shape := ⟨2, ![1, 1]⟩
abbrev S1x2048 : Shape := ⟨2, ![1, 2048]⟩
abbrev S1x4096 : Shape := ⟨2, ![1, 4096]⟩
abbrev S1x100 : Shape := ⟨2, ![1, 100]⟩
abbrev S2048x6144 : Shape := ⟨2, ![2048, 6144]⟩
abbrev S1x6144 : Shape := ⟨2, ![1, 6144]⟩
abbrev S1x50257 : Shape := ⟨2, ![1, 50257]⟩

abbrev nBuf : Space → Nat
  | .hbm => 107
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S100x2048, .f32⟩
  | .hbm, ⟨3, _⟩ => ⟨S50257x2048, .f32⟩
  | .hbm, ⟨4, _⟩ => ⟨S4096x100, .f32⟩
  | .hbm, ⟨5, _⟩ => ⟨S100, .f32⟩
  | .hbm, ⟨6, _⟩ => ⟨S4096x2048, .f32⟩
  | .hbm, ⟨7, _⟩ => ⟨S2048, .f32⟩
  | .hbm, ⟨8, _⟩ => ⟨S6144x2048, .f32⟩
  | .hbm, ⟨9, _⟩ => ⟨S6144, .f32⟩
  | .hbm, ⟨10, _⟩ => ⟨S6144x2048, .f32⟩
  | .hbm, ⟨11, _⟩ => ⟨S6144, .f32⟩
  | .hbm, ⟨12, _⟩ => ⟨S2048x50257, .f32⟩
  | .hbm, ⟨13, _⟩ => ⟨S50257, .f32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S1, .i32⟩
  | .hbm, ⟨21, _⟩ => ⟨S1x1, .i32⟩
  | .hbm, ⟨22, _⟩ => ⟨S1x2048, .f32⟩
  | .hbm, ⟨23, _⟩ => ⟨S1x2048, .f32⟩
  | .hbm, ⟨24, _⟩ => ⟨S1x4096, .f32⟩
  | .hbm, ⟨25, _⟩ => ⟨S1x100, .f32⟩
  | .hbm, ⟨26, _⟩ => ⟨S1x100, .f32⟩
  | .hbm, ⟨27, _⟩ => ⟨S1x100, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S1x1, .f32⟩
  | .hbm, ⟨34, _⟩ => ⟨S1x100, .f32⟩
  | .hbm, ⟨35, _⟩ => ⟨S1x100, .f32⟩
  | .hbm, ⟨36, _⟩ => ⟨S1x100, .f32⟩
  | .hbm, ⟨37, _⟩ => ⟨S_, .f32⟩
  | .hbm, ⟨38, _⟩ => ⟨S1, .f32⟩
  | .hbm, ⟨39, _⟩ => ⟨S1x1, .f32⟩
  | .hbm, ⟨40, _⟩ => ⟨S1x100, .f32⟩
  | .hbm, ⟨41, _⟩ => ⟨S1x100, .f32⟩
  | .hbm, ⟨42, _⟩ => ⟨S1x2048, .f32⟩
  | .hbm, ⟨43, _⟩ => ⟨S1x4096, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S2048x6144, .f32⟩
  | .hbm, ⟨48, _⟩ => ⟨S1x6144, .f32⟩
  | .hbm, ⟨49, _⟩ => ⟨S1x6144, .f32⟩
  | .hbm, ⟨50, _⟩ => ⟨S1x6144, .f32⟩
  | .hbm, ⟨51, _⟩ => ⟨S2048x6144, .f32⟩
  | .hbm, ⟨52, _⟩ => ⟨S1x6144, .f32⟩
  | .hbm, ⟨53, _⟩ => ⟨S1x6144, .f32⟩
  | .hbm, ⟨54, _⟩ => ⟨S1x6144, .f32⟩
  | .hbm, ⟨55, _⟩ => ⟨S1x2048, .f32⟩
  | .hbm, ⟨56, _⟩ => ⟨S1x2048, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S1x2048, .f32⟩
  | .hbm, ⟨62, _⟩ => ⟨S1x2048, .f32⟩
  | .hbm, ⟨63, _⟩ => ⟨S1x2048, .f32⟩
  | .hbm, ⟨64, _⟩ => ⟨S_, .f32⟩
  | .hbm, ⟨65, _⟩ => ⟨S1x2048, .f32⟩
  | .hbm, ⟨66, _⟩ => ⟨S1x2048, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S1x2048, .f32⟩
  | .hbm, ⟨73, _⟩ => ⟨S_, .f32⟩
  | .hbm, ⟨74, _⟩ => ⟨S1x2048, .f32⟩
  | .hbm, ⟨75, _⟩ => ⟨S1x2048, .f32⟩
  | .hbm, ⟨76, _⟩ => ⟨S_, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S1x2048, .f32⟩
  | .hbm, ⟨82, _⟩ => ⟨S_, .f32⟩
  | .hbm, ⟨83, _⟩ => ⟨S1x2048, .f32⟩
  | .hbm, ⟨84, _⟩ => ⟨S1x2048, .f32⟩
  | .hbm, ⟨85, _⟩ => ⟨S1x2048, .f32⟩
  | .hbm, ⟨86, _⟩ => ⟨S1x2048, .f32⟩
  | .hbm, ⟨87, _⟩ => ⟨S1x2048, .f32⟩
  | .hbm, ⟨88, _⟩ => ⟨S1x50257, .f32⟩
  | .hbm, ⟨89, _⟩ => ⟨S1x50257, .f32⟩
  | .hbm, ⟨90, _⟩ => ⟨S1x50257, .f32⟩
  | .hbm, ⟨91, _⟩ => ⟨S_, .f32⟩
  | .hbm, ⟨92, _⟩ => ⟨S1, .f32⟩
  | .hbm, ⟨93, _⟩ => ⟨S_, .f32⟩
  | .hbm, ⟨94, _⟩ => ⟨S1, .f32⟩
  | .hbm, ⟨95, _⟩ => ⟨S1, .f32⟩
  | .hbm, ⟨96, _⟩ => ⟨S1x1, .f32⟩
  | .hbm, ⟨97, _⟩ => ⟨S1x50257, .f32⟩
  | .hbm, ⟨98, _⟩ => ⟨S1x50257, .f32⟩
  | .hbm, ⟨99, _⟩ => ⟨S1x50257, .f32⟩
  | .hbm, ⟨100, _⟩ => ⟨S_, .f32⟩
  | .hbm, ⟨101, _⟩ => ⟨S1, .f32⟩
  | .hbm, ⟨102, _⟩ => ⟨S1x1, .f32⟩
  | .hbm, ⟨103, _⟩ => ⟨S1x1, .f32⟩
  | .hbm, ⟨104, _⟩ => ⟨S1x50257, .f32⟩
  | .hbm, ⟨105, _⟩ => ⟨S1x50257, .f32⟩
  | .hbm, ⟨106, _⟩ => ⟨S1x1x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_7 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call0_cst : Ref sig .tc := ⟨.hbm, 91, rfl⟩
abbrev main_call0_v0 : Ref sig .tc := ⟨.hbm, 92, rfl⟩
abbrev main_call0_cst_0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_cst_1 : Ref sig .tc := ⟨.hbm, 100, rfl⟩
abbrev main_call0_v7 : Ref sig .tc := ⟨.hbm, 101, rfl⟩
abbrev main_call0_v8 : Ref sig .tc := ⟨.hbm, 102, rfl⟩
abbrev main_call0_v9 : Ref sig .tc := ⟨.hbm, 103, rfl⟩
abbrev main_call0_v10 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  shapeCasts_S1x1x2048_S1x2048 : S1x1x2048.ShapeCasts S1x2048
  concatenates_S1x2048_S1x2048_S1x4096_d1 : Shape.Concatenates [S1x2048, S1x2048] S1x4096 1
  bcast_S100_S1x100_1 : S100.BroadcastsInDim S1x100 (![1] : Fin 1 → Fin S1x100.rank)
  reducesTo_S1x100_S1_d1 : S1x100.ReducesTo [1] S1
  h_S_ : 0 < S_.numel
  bcast_S1x1_S1x100_0_1 : S1x1.BroadcastsInDim S1x100 (![0, 1] : Fin 2 → Fin S1x100.rank)
  bcast_S2048_S1x2048_1 : S2048.BroadcastsInDim S1x2048 (![1] : Fin 1 → Fin S1x2048.rank)
  transposes_S6144x2048_S2048x6144_1_0 : S6144x2048.Transposes [1, 0] S2048x6144
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  bcast_S50257_S1x50257_1 : S50257.BroadcastsInDim S1x50257 (![1] : Fin 1 → Fin S1x50257.rank)
  reducesTo_S1x50257_S1_d1 : S1x50257.ReducesTo [1] S1
  bcast_S1x1_S1x50257_0_1 : S1x1.BroadcastsInDim S1x50257 (![0, 1] : Fin 2 → Fin S1x50257.rank)
  bcast_S1x2048_S1x1x2048_1_2 : S1x2048.BroadcastsInDim S1x1x2048 (![1, 2] : Fin 2 → Fin S1x1x2048.rank)
  gather_S50257x2048_S1x1_S1x2048_1_0_n_n_0_1_12048_wf : GatherDims.WF S50257x2048 S1x1 S1x2048 [1] [0] [] [0] [] 1 ![1, 2048]
  dot_S1x4096_S4096x100_S1x100_1_0_0_1_n_n_wf : DotDims.WF S1x4096 S4096x100 S1x100 [1] [0] [0] [1] [] []
  dot_S1x100_S100x2048_S1x2048_1_0_0_1_n_n_wf : DotDims.WF S1x100 S100x2048 S1x2048 [1] [0] [0] [1] [] []
  dot_S1x4096_S4096x2048_S1x2048_1_0_0_1_n_n_wf : DotDims.WF S1x4096 S4096x2048 S1x2048 [1] [0] [0] [1] [] []
  dot_S1x2048_S2048x6144_S1x6144_1_0_0_1_n_n_wf : DotDims.WF S1x2048 S2048x6144 S1x6144 [1] [0] [0] [1] [] []
  dot_S1x2048_S2048x50257_S1x50257_1_0_0_1_n_n_wf : DotDims.WF S1x2048 S2048x50257 S1x50257 [1] [0] [0] [1] [] []

variable [Facts₀]

def gather_S50257x2048_S1x1_S1x2048_1_0_n_n_0_1_12048 : GatherDims S50257x2048 S1x1 S1x2048 where
  offsetDims := [1]
  collapsedSliceDims := [0]
  operandBatchingDims := []
  startIndicesBatchingDims := []
  startIndexMap := [0]
  indexVectorDim := 1
  sliceSizes := ![1, 2048]
  wf := gather_S50257x2048_S1x1_S1x2048_1_0_n_n_0_1_12048_wf
def dot_S1x4096_S4096x100_S1x100_1_0_0_1_n_n : DotDims S1x4096 S4096x100 S1x100 where
  lhsContracting := [1]
  rhsContracting := [0]
  lhsNonContracting := [0]
  rhsNonContracting := [1]
  lhsBatch := []
  rhsBatch := []
  wf := dot_S1x4096_S4096x100_S1x100_1_0_0_1_n_n_wf
def dot_S1x100_S100x2048_S1x2048_1_0_0_1_n_n : DotDims S1x100 S100x2048 S1x2048 where
  lhsContracting := [1]
  rhsContracting := [0]
  lhsNonContracting := [0]
  rhsNonContracting := [1]
  lhsBatch := []
  rhsBatch := []
  wf := dot_S1x100_S100x2048_S1x2048_1_0_0_1_n_n_wf
def dot_S1x4096_S4096x2048_S1x2048_1_0_0_1_n_n : DotDims S1x4096 S4096x2048 S1x2048 where
  lhsContracting := [1]
  rhsContracting := [0]
  lhsNonContracting := [0]
  rhsNonContracting := [1]
  lhsBatch := []
  rhsBatch := []
  wf := dot_S1x4096_S4096x2048_S1x2048_1_0_0_1_n_n_wf
def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x50257_S1x50257_1_0_0_1_n_n : DotDims S1x2048 S2048x50257 S1x50257 where
  lhsContracting := [1]
  rhsContracting := [0]
  lhsNonContracting := [0]
  rhsNonContracting := [1]
  lhsBatch := []
  rhsBatch := []
  wf := dot_S1x2048_S2048x50257_S1x50257_1_0_0_1_n_n_wf

class Facts : Prop extends Facts₀ where

variable [Facts]
-- ==== Proof.RefRead.lean ====
import proofs.«148525_j50087908606299_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/- Each stage of the reference as a function of the fourteen arguments; a stage takes the arguments it mentions, in this order. -/
variable (x0 : (⟨S1, .i32⟩ : BufTy).Contents (Elt F))
  (x1 : (⟨S1x1x2048, .f32⟩ : BufTy).Contents (Elt F))
  (x2 : (⟨S100x2048, .f32⟩ : BufTy).Contents (Elt F))
  (x3 : (⟨S50257x2048, .f32⟩ : BufTy).Contents (Elt F))
  (x4 : (⟨S4096x100, .f32⟩ : BufTy).Contents (Elt F))
  (x5 : (⟨S100, .f32⟩ : BufTy).Contents (Elt F))
  (x6 : (⟨S4096x2048, .f32⟩ : BufTy).Contents (Elt F))
  (x7 : (⟨S2048, .f32⟩ : BufTy).Contents (Elt F))
  (x8 : (⟨S6144x2048, .f32⟩ : BufTy).Contents (Elt F))
  (x9 : (⟨S6144, .f32⟩ : BufTy).Contents (Elt F))
  (x10 : (⟨S6144x2048, .f32⟩ : BufTy).Contents (Elt F))
  (x11 : (⟨S6144, .f32⟩ : BufTy).Contents (Elt F))
  (x12 : (⟨S2048x50257, .f32⟩ : BufTy).Contents (Elt F))
  (x13 : (⟨S50257, .f32⟩ : BufTy).Contents (Elt F))

def val_main_c : (⟨S_, .i32⟩ : BufTy).Contents (Elt F) :=
  constantI S_ 32 0#32
def val_main_v0 : (⟨S1, .i32⟩ : BufTy).Contents (Elt F) :=
  broadcastInDim S1 ![] bcast_S_S1 (val_main_c (F := F))
def val_main_v1 : (⟨S1, .i1⟩ : BufTy).Contents (Elt F) :=
  cmpi .slt (x0) (val_main_v0 (F := F))
def val_main_c_0 : (⟨S_, .i32⟩ : BufTy).Contents (Elt F) :=
  constantI S_ 32 50257#32
def val_main_v2 : (⟨S1, .i32⟩ : BufTy).Contents (Elt F) :=
  broadcastInDim S1 ![] bcast_S_S1 (val_main_c_0 (F := F))
def val_main_v3 : (⟨S1, .i32⟩ : BufTy).Contents (Elt F) :=
  addi (x0) (val_main_v2 (F := F))
def val_main_v4 : (⟨S1, .i32⟩ : BufTy).Contents (Elt F) :=
  select (val_main_v1 (F := F) x0) (val_main_v3 (F := F) x0) (x0)
def val_main_v5 : (⟨S1x1, .i32⟩ : BufTy).Contents (Elt F) :=
  broadcastInDim S1x1 ![0] bcast_S1_S1x1_0 (val_main_v4 (F := F) x0)
def val_main_v6 : (⟨S1x2048, .f32⟩ : BufTy).Contents (Elt F) :=
  Host.gather gather_S50257x2048_S1x1_S1x2048_1_0_n_n_0_1_12048 (x3) (val_main_v5 (F := F) x0)
def val_main_v7 : (⟨S1x2048, .f32⟩ : BufTy).Contents (Elt F) :=
  shapeCast _ (x1) shapeCasts_S1x1x2048_S1x2048
def val_main_v8 : (⟨S1x4096, .f32⟩ : BufTy).Contents (Elt F) :=
  concatenate S1x4096 1 [⟨S1x2048, (val_main_v6 (F := F) x0 x3)⟩, ⟨S1x2048, (val_main_v7 (F := F) x1)⟩] concatenates_S1x2048_S1x2048_S1x4096_d1
def val_main_v9 : (⟨S1x100, .f32⟩ : BufTy).Contents (Elt F) :=
  Host.dotGeneral dot_S1x4096_S4096x100_S1x100_1_0_0_1_n_n none (val_main_v8 (F := F) x0 x1 x3) (x4)
def val_main_v10 : (⟨S1x100, .f32⟩ : BufTy).Contents (Elt F) :=
  broadcastInDim S1x100 ![1] bcast_S100_S1x100_1 (x5)
def val_main_v11 : (⟨S1x100, .f32⟩ : BufTy).Contents (Elt F) :=
  addf (val_main_v9 (F := F) x0 x1 x3 x4) (val_main_v10 (F := F) x5)
def val_main_cst : (⟨S_, .f32⟩ : BufTy).Contents (Elt F) :=
  constant S_ .f32 0xFF800000#32
def val_main_v12 : (⟨S1, .f32⟩ : BufTy).Contents (Elt F) :=
  Host.reduce FloatOps.maximumf (val_main_v11 (F := F) x0 x1 x3 x4 x5) (val_main_cst (F := F)) reducesTo_S1x100_S1_d1 h_S_
def val_main_cst_1 : (⟨S_, .f32⟩ : BufTy).Contents (Elt F) :=
  constant S_ .f32 0xFF800000#32
def val_main_v13 : (⟨S1, .f32⟩ : BufTy).Contents (Elt F) :=
  broadcastInDim S1 ![] bcast_S_S1 (val_main_cst_1 (F := F))
def val_main_v14 : (⟨S1, .f32⟩ : BufTy).Contents (Elt F) :=
  maximumf (val_main_v13 (F := F)) (val_main_v12 (F := F) x0 x1 x3 x4 x5)
def val_main_v15 : (⟨S1x1, .f32⟩ : BufTy).Contents (Elt F) :=
  broadcastInDim S1x1 ![0] bcast_S1_S1x1_0 (val_main_v14 (F := F) x0 x1 x3 x4 x5)
def val_main_v16 : (⟨S1x100, .f32⟩ : BufTy).Contents (Elt F) :=
  broadcastInDim S1x100 ![0, 1] bcast_S1x1_S1x100_0_1 (val_main_v15 (F := F) x0 x1 x3 x4 x5)
def val_main_v17 : (⟨S1x100, .f32⟩ : BufTy).Contents (Elt F) :=
  subf (val_main_v11 (F := F) x0 x1 x3 x4 x5) (val_main_v16 (F := F) x0 x1 x3 x4 x5)
def val_main_v18 : (⟨S1x100, .f32⟩ : BufTy).Contents (Elt F) :=
  Host.exp (val_main_v17 (F := F) x0 x1 x3 x4 x5)
def val_main_cst_2 : (⟨S_, .f32⟩ : BufTy).Contents (Elt F) :=
  constant S_ .f32 0x00000000#32
def val_main_v19 : (⟨S1, .f32⟩ : BufTy).Contents (Elt F) :=
  Host.reduceAdd (val_main_v18 (F := F) x0 x1 x3 x4 x5) (val_main_cst_2 (F := F)) reducesTo_S1x100_S1_d1 h_S_
def val_main_v20 : (⟨S1x1, .f32⟩ : BufTy).Contents (Elt F) :=
  broadcastInDim S1x1 ![0] bcast_S1_S1x1_0 (val_main_v19 (F := F) x0 x1 x3 x4 x5)
def val_main_v21 : (⟨S1x100, .f32⟩ : BufTy).Contents (Elt F) :=
  broadcastInDim S1x100 ![0, 1] bcast_S1x1_S1x100_0_1 (val_main_v20 (F := F) x0 x1 x3 x4 x5)
def val_main_v22 : (⟨S1x100, .f32⟩ : BufTy).Contents (Elt F) :=
  Host.divf (val_main_v18 (F := F) x0 x1 x3 x4 x5) (val_main_v21 (F := F) x0 x1 x3 x4 x5)
def val_main_v23 : (⟨S1x2048, .f32⟩ : BufTy).Contents (Elt F) :=
  Host.dotGeneral dot_S1x100_S100x2048_S1x2048_1_0_0_1_n_n none (val_main_v22 (F := F) x0 x1 x3 x4 x5) (x2)
def val_main_v24 : (⟨S1x4096, .f32⟩ : BufTy).Contents (Elt F) :=
  concatenate S1x4096 1 [⟨S1x2048, (val_main_v6 (F := F) x0 x3)⟩, ⟨S1x2048, (val_main_v23 (F := F) x0 x1 x2 x3 x4 x5)⟩] concatenates_S1x2048_S1x2048_S1x4096_d1
def val_main_v25 : (⟨S1x2048, .f32⟩ : BufTy).Contents (Elt F) :=
  Host.dotGeneral dot_S1x4096_S4096x2048_S1x2048_1_0_0_1_n_n none (val_main_v24 (F := F) x0 x1 x2 x3 x4 x5) (x6)
def val_main_v26 : (⟨S1x2048, .f32⟩ : BufTy).Contents (Elt F) :=
  broadcastInDim S1x2048 ![1] bcast_S2048_S1x2048_1 (x7)
def val_main_v27 : (⟨S1x2048, .f32⟩ : BufTy).Contents (Elt F) :=
  addf (val_main_v25 (F := F) x0 x1 x2 x3 x4 x5 x6) (val_main_v26 (F := F) x7)
def val_main_v28 : (⟨S2048x6144, .f32⟩ : BufTy).Contents (Elt F) :=
  transpose S2048x6144 [1, 0] (x8) transposes_S6144x2048_S2048x6144_1_0
def val_main_v29 : (⟨S1x6144, .f32⟩ : BufTy).Contents (Elt F) :=
  Host.dotGeneral dot_S1x2048_S2048x6144_S1x6144_1_0_0_1_n_n none (val_main_v27 (F := F) x0 x1 x2 x3 x4 x5 x6 x7) (val_main_v28 (F := F) x8)
def val_main_v30 : (⟨S1x6144, .f32⟩ : BufTy).Contents (Elt F) :=
  broadcastInDim S1x6144 ![1] bcast_S6144_S1x6144_1 (x9)
def val_main_v31 : (⟨S1x6144, .f32⟩ : BufTy).Contents (Elt F) :=
  addf (val_main_v29 (F := F) x0 x1 x2 x3 x4 x5 x6 x7 x8) (val_main_v30 (F := F) x9)
def val_main_v32 : (⟨S2048x6144, .f32⟩ : BufTy).Contents (Elt F) :=
  transpose S2048x6144 [1, 0] (x10) transposes_S6144x2048_S2048x6144_1_0
def val_main_v33 : (⟨S1x6144, .f32⟩ : BufTy).Contents (Elt F) :=
  Host.dotGeneral dot_S1x2048_S2048x6144_S1x6144_1_0_0_1_n_n none (val_main_v7 (F := F) x1) (val_main_v32 (F := F) x10)
def val_main_v34 : (⟨S1x6144, .f32⟩ : BufTy).Contents (Elt F) :=
  broadcastInDim S1x6144 ![1] bcast_S6144_S1x6144_1 (x11)
def val_main_v35 : (⟨S1x6144, .f32⟩ : BufTy).Contents (Elt F) :=
  addf (val_main_v33 (F := F) x1 x10) (val_main_v34 (F := F) x11)
def val_main_v36 : (⟨S1x2048, .f32⟩ : BufTy).Contents (Elt F) :=
  extractStridedSlice S1x2048 ![0, 0] (val_main_v31 (F := F) x0 x1 x2 x3 x4 x5 x6 x7 x8 x9) slices_S1x6144_S1x2048_0_0
def val_main_v37 : (⟨S1x2048, .f32⟩ : BufTy).Contents (Elt F) :=
  extractStridedSlice S1x2048 ![0, 2048] (val_main_v31 (F := F) x0 x1 x2 x3 x4 x5 x6 x7 x8 x9) slices_S1x6144_S1x2048_0_2048
def val_main_v38 : (⟨S1x2048, .f32⟩ : BufTy).Contents (Elt F) :=
  extractStridedSlice S1x2048 ![0, 4096] (val_main_v31 (F := F) x0 x1 x2 x3 x4 x5 x6 x7 x8 x9) slices_S1x6144_S1x2048_0_4096
def val_main_v39 : (⟨S1x2048, .f32⟩ : BufTy).Contents (Elt F) :=
  extractStridedSlice S1x2048 ![0, 0] (val_main_v35 (F := F) x1 x10 x11) slices_S1x6144_S1x2048_0_0
def val_main_v40 : (⟨S1x2048, .f32⟩ : BufTy).Contents (Elt F) :=
  extractStridedSlice S1x2048 ![0, 2048] (val_main_v35 (F := F) x1 x10 x11) slices_S1x6144_S1x2048_0_2048
def val_main_v41 : (⟨S1x2048, .f32⟩ : BufTy).Contents (Elt F) :=
  extractStridedSlice S1x2048 ![0, 4096] (val_main_v35 (F := F) x1 x10 x11) slices_S1x6144_S1x2048_0_4096
def val_main_v42 : (⟨S1x2048, .f32⟩ : BufTy).Contents (Elt F) :=
  addf (val_main_v36 (F := F) x0 x1 x2 x3 x4 x5 x6 x7 x8 x9) (val_main_v39 (F := F) x1 x10 x11)
def val_main_v43 : (⟨S1x2048, .f32⟩ : BufTy).Contents (Elt F) :=
  Host.negf (val_main_v42 (F := F) x0 x1 x2 x3 x4 x5 x6 x7 x8 x9 x10 x11)
def val_main_v44 : (⟨S1x2048, .f32⟩ : BufTy).Contents (Elt F) :=
  Host.exp (val_main_v43 (F := F) x0 x1 x2 x3 x4 x5 x6 x7 x8 x9 x10 x11)
def val_main_cst_3 : (⟨S_, .f32⟩ : BufTy).Contents (Elt F) :=
  constant S_ .f32 0x3F800000#32
def val_main_v45 : (⟨S1x2048, .f32⟩ : BufTy).Contents (Elt F) :=
  broadcastInDim S1x2048 ![] bcast_S_S1x2048 (val_main_cst_3 (F := F))
def val_main_v46 : (⟨S1x2048, .f32⟩ : BufTy).Contents (Elt F) :=
  addf (val_main_v45 (F := F)) (val_main_v44 (F := F) x0 x1 x2 x3 x4 x5 x6 x7 x8 x9 x10 x11)
def val_main_cst_4 : (⟨S_, .f32⟩ : BufTy).Contents (Elt F) :=
  constant S_ .f32 0x3F800000#32
def val_main_v47 : (⟨S1x2048, .f32⟩ : BufTy).Contents (Elt F) :=
  broadcastInDim S1x2048 ![] bcast_S_S1x2048 (val_main_cst_4 (F := F))
def val_main_v48 : (⟨S1x2048, .f32⟩ : BufTy).Contents (Elt F) :=
  Host.divf (val_main_v47 (F := F)) (val_main_v46 (F := F) x0 x1 x2 x3 x4 x5 x6 x7 x8 x9 x10 x11)
def val_main_v49 : (⟨S1x2048, .f32⟩ : BufTy).Contents (Elt F) :=
  addf (val_main_v37 (F := F) x0 x1 x2 x3 x4 x5 x6 x7 x8 x9) (val_main_v40 (F := F) x1 x10 x11)
def val_main_v50 : (⟨S1x2048, .f32⟩ : BufTy).Contents (Elt F) :=
  Host.negf (val_main_v49 (F := F) x0 x1 x2 x3 x4 x5 x6 x7 x8 x9 x10 x11)
def val_main_v51 : (⟨S1x2048, .f32⟩ : BufTy).Contents (Elt F) :=
  Host.exp (val_main_v50 (F := F) x0 x1 x2 x3 x4 x5 x6 x7 x8 x9 x10 x11)
def val_main_cst_5 : (⟨S_, .f32⟩ : BufTy).Contents (Elt F) :=
  constant S_ .f32 0x3F800000#32
def val_main_v52 : (⟨S1x2048, .f32⟩ : BufTy).Contents (Elt F) :=
  broadcastInDim S1x2048 ![] bcast_S_S1x2048 (val_main_cst_5 (F := F))
def val_main_v53 : (⟨S1x2048, .f32⟩ : BufTy).Contents (Elt F) :=
  addf (val_main_v52 (F := F)) (val_main_v51 (F := F) x0 x1 x2 x3 x4 x5 x6 x7 x8 x9 x10 x11)
def val_main_cst_6 : (⟨S_, .f32⟩ : BufTy).Contents (Elt F) :=
  constant S_ .f32 0x3F800000#32
def val_main_v54 : (⟨S1x2048, .f32⟩ : BufTy).Contents (Elt F) :=
  broadcastInDim S1x2048 ![] bcast_S_S1x2048 (val_main_cst_6 (F := F))
def val_main_v55 : (⟨S1x2048, .f32⟩ : BufTy).Contents (Elt F) :=
  Host.divf (val_main_v54 (F := F)) (val_main_v53 (F := F) x0 x1 x2 x3 x4 x5 x6 x7 x8 x9 x10 x11)
def val_main_v56 : (⟨S1x2048, .f32⟩ : BufTy).Contents (Elt F) :=
  mulf (val_main_v48 (F := F) x0 x1 x2 x3 x4 x5 x6 x7 x8 x9 x10 x11) (val_main_v41 (F := F) x1 x10 x11)
def val_main_v57 : (⟨S1x2048, .f32⟩ : BufTy).Contents (Elt F) :=
  addf (val_main_v38 (F := F) x0 x1 x2 x3 x4 x5 x6 x7 x8 x9) (val_main_v56 (F := F) x0 x1 x2 x3 x4 x5 x6 x7 x8 x9 x10 x11)
def val_main_v58 : (⟨S1x2048, .f32⟩ : BufTy).Contents (Elt F) :=
  Host.tanh (val_main_v57 (F := F) x0 x1 x2 x3 x4 x5 x6 x7 x8 x9 x10 x11)
def val_main_cst_7 : (⟨S_, .f32⟩ : BufTy).Contents (Elt F) :=
  constant S_ .f32 0x3F800000#32
def val_main_v59 : (⟨S1x2048, .f32⟩ : BufTy).Contents (Elt F) :=
  broadcastInDim S1x2048 ![] bcast_S_S1x2048 (val_main_cst_7 (F := F))
def val_main_v60 : (⟨S1x2048, .f32⟩ : BufTy).Contents (Elt F) :=
  subf (val_main_v59 (F := F)) (val_main_v55 (F := F) x0 x1 x2 x3 x4 x5 x6 x7 x8 x9 x10 x11)
def val_main_v61 : (⟨S1x2048, .f32⟩ : BufTy).Contents (Elt F) :=
  mulf (val_main_v60 (F := F) x0 x1 x2 x3 x4 x5 x6 x7 x8 x9 x10 x11) (val_main_v58 (F := F) x0 x1 x2 x3 x4 x5 x6 x7 x8 x9 x10 x11)
def val_main_v62 : (⟨S1x2048, .f32⟩ : BufTy).Contents (Elt F) :=
  mulf (val_main_v55 (F := F) x0 x1 x2 x3 x4 x5 x6 x7 x8 x9 x10 x11) (val_main_v7 (F := F) x1)
def val_main_v63 : (⟨S1x2048, .f32⟩ : BufTy).Contents (Elt F) :=
  addf (val_main_v61 (F := F) x0 x1 x2 x3 x4 x5 x6 x7 x8 x9 x10 x11) (val_main_v62 (F := F) x0 x1 x2 x3 x4 x5 x6 x7 x8 x9 x10 x11)
def val_main_v64 : (⟨S1x50257, .f32⟩ : BufTy).Contents (Elt F) :=
  Host.dotGeneral dot_S1x2048_S2048x50257_S1x50257_1_0_0_1_n_n none (val_main_v63 (F := F) x0 x1 x2 x3 x4 x5 x6 x7 x8 x9 x10 x11) (x12)
def val_main_v65 : (⟨S1x50257, .f32⟩ : BufTy).Contents (Elt F) :=
  broadcastInDim S1x50257 ![1] bcast_S50257_S1x50257_1 (x13)
def val_main_v66 : (⟨S1x50257, .f32⟩ : BufTy).Contents (Elt F) :=
  addf (val_main_v64 (F := F) x0 x1 x2 x3 x4 x5 x6 x7 x8 x9 x10 x11 x12) (val_main_v65 (F := F) x13)
def val_main_call0_cst : (⟨S_, .f32⟩ : BufTy).Contents (Elt F) :=
  constant S_ .f32 0xFF800000#32
def val_main_call0_v0 : (⟨S1, .f32⟩ : BufTy).Contents (Elt F) :=
  Host.reduce FloatOps.maximumf (val_main_v66 (F := F) x0 x1 x2 x3 x4 x5 x6 x7 x8 x9 x10 x11 x12 x13) (val_main_call0_cst (F := F)) reducesTo_S1x50257_S1_d1 h_S_
def val_main_call0_cst_0 : (⟨S_, .f32⟩ : BufTy).Contents (Elt F) :=
  constant S_ .f32 0xFF800000#32
def val_main_call0_v1 : (⟨S1, .f32⟩ : BufTy).Contents (Elt F) :=
  broadcastInDim S1 ![] bcast_S_S1 (val_main_call0_cst_0 (F := F))
def val_main_call0_v2 : (⟨S1, .f32⟩ : BufTy).Contents (Elt F) :=
  maximumf (val_main_call0_v1 (F := F)) (val_main_call0_v0 (F := F) x0 x1 x2 x3 x4 x5 x6 x7 x8 x9 x10 x11 x12 x13)
def val_main_call0_v3 : (⟨S1x1, .f32⟩ : BufTy).Contents (Elt F) :=
  broadcastInDim S1x1 ![0] bcast_S1_S1x1_0 (val_main_call0_v2 (F := F) x0 x1 x2 x3 x4 x5 x6 x7 x8 x9 x10 x11 x12 x13)
def val_main_call0_v4 : (⟨S1x50257, .f32⟩ : BufTy).Contents (Elt F) :=
  broadcastInDim S1x50257 ![0, 1] bcast_S1x1_S1x50257_0_1 (val_main_call0_v3 (F := F) x0 x1 x2 x3 x4 x5 x6 x7 x8 x9 x10 x11 x12 x13)
def val_main_call0_v5 : (⟨S1x50257, .f32⟩ : BufTy).Contents (Elt F) :=
  subf (val_main_v66 (F := F) x0 x1 x2 x3 x4 x5 x6 x7 x8 x9 x10 x11 x12 x13) (val_main_call0_v4 (F := F) x0 x1 x2 x3 x4 x5 x6 x7 x8 x9 x10 x11 x12 x13)
def val_main_call0_v6 : (⟨S1x50257, .f32⟩ : BufTy).Contents (Elt F) :=
  Host.exp (val_main_call0_v5 (F := F) x0 x1 x2 x3 x4 x5 x6 x7 x8 x9 x10 x11 x12 x13)
def val_main_call0_cst_1 : (⟨S_, .f32⟩ : BufTy).Contents (Elt F) :=
  constant S_ .f32 0x00000000#32
def val_main_call0_v7 : (⟨S1, .f32⟩ : BufTy).Contents (Elt F) :=
  Host.reduceAdd (val_main_call0_v6 (F := F) x0 x1 x2 x3 x4 x5 x6 x7 x8 x9 x10 x11 x12 x13) (val_main_call0_cst_1 (F := F)) reducesTo_S1x50257_S1_d1 h_S_
def val_main_call0_v8 : (⟨S1x1, .f32⟩ : BufTy).Contents (Elt F) :=
  broadcastInDim S1x1 ![0] bcast_S1_S1x1_0 (val_main_call0_v7 (F := F) x0 x1 x2 x3 x4 x5 x6 x7 x8 x9 x10 x11 x12 x13)
def val_main_call0_v9 : (⟨S1x1, .f32⟩ : BufTy).Contents (Elt F) :=
  Host.log (val_main_call0_v8 (F := F) x0 x1 x2 x3 x4 x5 x6 x7 x8 x9 x10 x11 x12 x13)
def val_main_call0_v10 : (⟨S1x50257, .f32⟩ : BufTy).Contents (Elt F) :=
  broadcastInDim S1x50257 ![0, 1] bcast_S1x1_S1x50257_0_1 (val_main_call0_v9 (F := F) x0 x1 x2 x3 x4 x5 x6 x7 x8 x9 x10 x11 x12 x13)
def val_main_v67 : (⟨S1x50257, .f32⟩ : BufTy).Contents (Elt F) :=
  subf (val_main_call0_v5 (F := F) x0 x1 x2 x3 x4 x5 x6 x7 x8 x9 x10 x11 x12 x13) (val_main_call0_v10 (F := F) x0 x1 x2 x3 x4 x5 x6 x7 x8 x9 x10 x11 x12 x13)
def val_main_v68 : (⟨S1x1x2048, .f32⟩ : BufTy).Contents (Elt F) :=
  broadcastInDim S1x1x2048 ![1, 2] bcast_S1x2048_S1x1x2048_1_2 (val_main_v63 (F := F) x0 x1 x2 x3 x4 x5 x6 x7 x8 x9 x10 x11)

end Cert.ReferenceIdeal.ReadP

end
-- ==== Proof.RefRun.lean ====
/- The reference's @main as its list of host operations, and its run: the three results at their stages of the launch arguments. -/
import proofs.«148525_j50087908606299_1_alg».proof.Proof.Gen.ReferenceIdeal
import proofs.«148525_j50087908606299_1_alg».proof.Proof.RefRead
import Idealize.ShloMosaic.Lib.StableHlo.Run
import Idealize.ShloMosaic.Lib.Pipeline.Frame

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/- Five stretches of consecutive operations; `main_part0` is the first three, `main_part1` the last two. -/
abbrev ops_part1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 50257#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg3 main_v5 main_v6 ((fun x i => Host.gather gather_S50257x2048_S1x1_S1x2048_1_0_n_n_0_1_12048 x i) : (⟨S50257x2048, .f32⟩ : BufTy).Contents (Elt F) → (⟨S1x1, .i32⟩ : BufTy).Contents (Elt F) → (⟨S1x2048, .f32⟩ : BufTy).Contents (Elt F)),
    reshape main_arg1 main_v7 rfl shapeCasts_S1x1x2048_S1x2048 ]
abbrev ops_part2 : List (HloOp τ sig (Elt F)) :=
  [ binary main_v6 main_v7 main_v8 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    binary main_v8 main_arg4 main_v9 ((fun l r => Host.dotGeneral dot_S1x4096_S4096x100_S1x100_1_0_0_1_n_n none l r) : (⟨S1x4096, .f32⟩ : BufTy).Contents (Elt F) → (⟨S4096x100, .f32⟩ : BufTy).Contents (Elt F) → (⟨S1x100, .f32⟩ : BufTy).Contents (Elt F)),
    unary main_arg5 main_v10 (broadcastInDim S1x100 ![1] bcast_S100_S1x100_1 : (⟨S100, .f32⟩ : BufTy).Contents (Elt F) → (⟨S1x100, .f32⟩ : BufTy).Contents (Elt F)),
    binary main_v9 main_v10 main_v11 (addf : (⟨S1x100, .f32⟩ : BufTy).Contents (Elt F) → (⟨S1x100, .f32⟩ : BufTy).Contents (Elt F) → (⟨S1x100, .f32⟩ : BufTy).Contents (Elt F)),
    nullary main_cst (constant S_ .f32 0xFF800000#32),
    binary main_v11 main_cst main_v12 ((fun x v => Host.reduce FloatOps.maximumf x v reducesTo_S1x100_S1_d1 h_S_) : (⟨S1x100, .f32⟩ : BufTy).Contents (Elt F) → (⟨S_, .f32⟩ : BufTy).Contents (Elt F) → (⟨S1, .f32⟩ : BufTy).Contents (Elt F)),
    nullary main_cst_1 (constant S_ .f32 0xFF800000#32),
    unary main_cst_1 main_v13 (broadcastInDim S1 ![] bcast_S_S1 : (⟨S_, .f32⟩ : BufTy).Contents (Elt F) → (⟨S1, .f32⟩ : BufTy).Contents (Elt F)),
    binary main_v13 main_v12 main_v14 (maximumf : (⟨S1, .f32⟩ : BufTy).Contents (Elt F) → (⟨S1, .f32⟩ : BufTy).Contents (Elt F) → (⟨S1, .f32⟩ : BufTy).Contents (Elt F)),
    unary main_v14 main_v15 (broadcastInDim S1x1 ![0] bcast_S1_S1x1_0 : (⟨S1, .f32⟩ : BufTy).Contents (Elt F) → (⟨S1x1, .f32⟩ : BufTy).Contents (Elt F)),
    unary main_v15 main_v16 (broadcastInDim S1x100 ![0, 1] bcast_S1x1_S1x100_0_1 : (⟨S1x1, .f32⟩ : BufTy).Contents (Elt F) → (⟨S1x100, .f32⟩ : BufTy).Contents (Elt F)),
    binary main_v11 main_v16 main_v17 (subf : (⟨S1x100, .f32⟩ : BufTy).Contents (Elt F) → (⟨S1x100, .f32⟩ : BufTy).Contents (Elt F) → (⟨S1x100, .f32⟩ : BufTy).Contents (Elt F)),
    unary main_v17 main_v18 (Host.exp : (⟨S1x100, .f32⟩ : BufTy).Contents (Elt F) → (⟨S1x100, .f32⟩ : BufTy).Contents (Elt F)),
    nullary main_cst_2 (constant S_ .f32 0x00000000#32),
    binary main_v18 main_cst_2 main_v19 ((fun x v => Host.reduceAdd x v reducesTo_S1x100_S1_d1 h_S_) : (⟨S1x100, .f32⟩ : BufTy).Contents (Elt F) → (⟨S_, .f32⟩ : BufTy).Contents (Elt F) → (⟨S1, .f32⟩ : BufTy).Contents (Elt F)),
    unary main_v19 main_v20 (broadcastInDim S1x1 ![0] bcast_S1_S1x1_0 : (⟨S1, .f32⟩ : BufTy).Contents (Elt F) → (⟨S1x1, .f32⟩ : BufTy).Contents (Elt F)),
    unary main_v20 main_v21 (broadcastInDim S1x100 ![0, 1] bcast_S1x1_S1x100_0_1 : (⟨S1x1, .f32⟩ : BufTy).Contents (Elt F) → (⟨S1x100, .f32⟩ : BufTy).Contents (Elt F)),
    binary main_v18 main_v21 main_v22 (Host.divf : (⟨S1x100, .f32⟩ : BufTy).Contents (Elt F) → (⟨S1x100, .f32⟩ : BufTy).Contents (Elt F) → (⟨S1x100, .f32⟩ : BufTy).Contents (Elt F)),
    binary main_v22 main_arg2 main_v23 ((fun l r => Host.dotGeneral dot_S1x100_S100x2048_S1x2048_1_0_0_1_n_n none l r) : (⟨S1x100, .f32⟩ : BufTy).Contents (Elt F) → (⟨S100x2048, .f32⟩ : BufTy).Contents (Elt F) → (⟨S1x2048, .f32⟩ : BufTy).Contents (Elt F)) ]
abbrev ops_part3a : List (HloOp τ sig (Elt F)) :=
  [ binary main_v6 main_v23 main_v24 ((fun a b => concatenate S1x4096 1 [⟨S1x2048, a⟩, ⟨S1x2048, b⟩] concatenates_S1x2048_S1x2048_S1x4096_d1) : (⟨S1x2048, .f32⟩ : BufTy).Contents (Elt F) → (⟨S1x2048, .f32⟩ : BufTy).Contents (Elt F) → (⟨S1x4096, .f32⟩ : BufTy).Contents (Elt F)),
    binary main_v24 main_arg6 main_v25 ((fun l r => Host.dotGeneral dot_S1x4096_S4096x2048_S1x2048_1_0_0_1_n_n none l r) : (⟨S1x4096, .f32⟩ : BufTy).Contents (Elt F) → (⟨S4096x2048, .f32⟩ : BufTy).Contents (Elt F) → (⟨S1x2048, .f32⟩ : BufTy).Contents (Elt F)),
    unary main_arg7 main_v26 (broadcastInDim S1x2048 ![1] bcast_S2048_S1x2048_1 : (⟨S2048, .f32⟩ : BufTy).Contents (Elt F) → (⟨S1x2048, .f32⟩ : BufTy).Contents (Elt F)),
    binary main_v25 main_v26 main_v27 (addf : (⟨S1x2048, .f32⟩ : BufTy).Contents (Elt F) → (⟨S1x2048, .f32⟩ : BufTy).Contents (Elt F) → (⟨S1x2048, .f32⟩ : BufTy).Contents (Elt F)),
    unary main_arg8 main_v28 ((transpose S2048x6144 [1, 0] · transposes_S6144x2048_S2048x6144_1_0) : (⟨S6144x2048, .f32⟩ : BufTy).Contents (Elt F) → (⟨S2048x6144, .f32⟩ : BufTy).Contents (Elt F)),
    binary main_v27 main_v28 main_v29 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg9 main_v30 (broadcastInDim S1x6144 ![1] bcast_S6144_S1x6144_1 : (⟨S6144, .f32⟩ : BufTy).Contents (Elt F) → (⟨S1x6144, .f32⟩ : BufTy).Contents (Elt F)),
    binary main_v29 main_v30 main_v31 (addf : (⟨S1x6144, .f32⟩ : BufTy).Contents (Elt F) → (⟨S1x6144, .f32⟩ : BufTy).Contents (Elt F) → (⟨S1x6144, .f32⟩ : BufTy).Contents (Elt F)),
    unary main_arg10 main_v32 ((transpose S2048x6144 [1, 0] · transposes_S6144x2048_S2048x6144_1_0) : (⟨S6144x2048, .f32⟩ : BufTy).Contents (Elt F) → (⟨S2048x6144, .f32⟩ : BufTy).Contents (Elt F)),
    binary main_v7 main_v32 main_v33 ((fun l r => Host.dotGeneral dot_S1x2048_S2048x6144_S1x6144_1_0_0_1_n_n none l r) : (⟨S1x2048, .f32⟩ : BufTy).Contents (Elt F) → (⟨S2048x6144, .f32⟩ : BufTy).Contents (Elt F) → (⟨S1x6144, .f32⟩ : BufTy).Contents (Elt F)),
    unary main_arg11 main_v34 (broadcastInDim S1x6144 ![1] bcast_S6144_S1x6144_1 : (⟨S6144, .f32⟩ : BufTy).Contents (Elt F) → (⟨S1x6144, .f32⟩ : BufTy).Contents (Elt F)),
    binary main_v33 main_v34 main_v35 (addf : (⟨S1x6144, .f32⟩ : BufTy).Contents (Elt F) → (⟨S1x6144, .f32⟩ : BufTy).Contents (Elt F) → (⟨S1x6144, .f32⟩ : BufTy).Contents (Elt F)),
    unary main_v31 main_v36 ((extractStridedSlice S1x2048 ![0, 0] · slices_S1x6144_S1x2048_0_0) : (⟨S1x6144, .f32⟩ : BufTy).Contents (Elt F) → (⟨S1x2048, .f32⟩ : BufTy).Contents (Elt F)),
    unary main_v31 main_v37 ((extractStridedSlice S1x2048 ![0, 2048] · slices_S1x6144_S1x2048_0_2048) : (⟨S1x6144, .f32⟩ : BufTy).Contents (Elt F) → (⟨S1x2048, .f32⟩ : BufTy).Contents (Elt F)),
    unary main_v31 main_v38 ((extractStridedSlice S1x2048 ![0, 4096] · slices_S1x6144_S1x2048_0_4096) : (⟨S1x6144, .f32⟩ : BufTy).Contents (Elt F) → (⟨S1x2048, .f32⟩ : BufTy).Contents (Elt F)),
    unary main_v35 main_v39 ((extractStridedSlice S1x2048 ![0, 0] · slices_S1x6144_S1x2048_0_0) : (⟨S1x6144, .f32⟩ : BufTy).Contents (Elt F) → (⟨S1x2048, .f32⟩ : BufTy).Contents (Elt F)),
    unary main_v35 main_v40 ((extractStridedSlice S1x2048 ![0, 2048] · slices_S1x6144_S1x2048_0_2048) : (⟨S1x6144, .f32⟩ : BufTy).Contents (Elt F) → (⟨S1x2048, .f32⟩ : BufTy).Contents (Elt F)),
    unary main_v35 main_v41 ((extractStridedSlice S1x2048 ![0, 4096] · slices_S1x6144_S1x2048_0_4096) : (⟨S1x6144, .f32⟩ : BufTy).Contents (Elt F) → (⟨S1x2048, .f32⟩ : BufTy).Contents (Elt F)),
    binary main_v36 main_v39 main_v42 (addf : (⟨S1x2048, .f32⟩ : BufTy).Contents (Elt F) → (⟨S1x2048, .f32⟩ : BufTy).Contents (Elt F) → (⟨S1x2048, .f32⟩ : BufTy).Contents (Elt F)),
    unary main_v42 main_v43 (Host.negf : (⟨S1x2048, .f32⟩ : BufTy).Contents (Elt F) → (⟨S1x2048, .f32⟩ : BufTy).Contents (Elt F)),
    unary main_v43 main_v44 (Host.exp : (⟨S1x2048, .f32⟩ : BufTy).Contents (Elt F) → (⟨S1x2048, .f32⟩ : BufTy).Contents (Elt F)),
    nullary main_cst_3 (constant S_ .f32 0x3F800000#32),
    unary main_cst_3 main_v45 (broadcastInDim S1x2048 ![] bcast_S_S1x2048 : (⟨S_, .f32⟩ : BufTy).Contents (Elt F) → (⟨S1x2048, .f32⟩ : BufTy).Contents (Elt F)),
    binary main_v45 main_v44 main_v46 (addf : (⟨S1x2048, .f32⟩ : BufTy).Contents (Elt F) → (⟨S1x2048, .f32⟩ : BufTy).Contents (Elt F) → (⟨S1x2048, .f32⟩ : BufTy).Contents (Elt F)),
    nullary main_cst_4 (constant S_ .f32 0x3F800000#32),
    unary main_cst_4 main_v47 (broadcastInDim S1x2048 ![] bcast_S_S1x2048 : (⟨S_, .f32⟩ : BufTy).Contents (Elt F) → (⟨S1x2048, .f32⟩ : BufTy).Contents (Elt F)),
    binary main_v47 main_v46 main_v48 (Host.divf : (⟨S1x2048, .f32⟩ : BufTy).Contents (Elt F) → (⟨S1x2048, .f32⟩ : BufTy).Contents (Elt F) → (⟨S1x2048, .f32⟩ : BufTy).Contents (Elt F)),
    binary main_v37 main_v40 main_v49 (addf : (⟨S1x2048, .f32⟩ : BufTy).Contents (Elt F) → (⟨S1x2048, .f32⟩ : BufTy).Contents (Elt F) → (⟨S1x2048, .f32⟩ : BufTy).Contents (Elt F)),
    unary main_v49 main_v50 (Host.negf : (⟨S1x2048, .f32⟩ : BufTy).Contents (Elt F) → (⟨S1x2048, .f32⟩ : BufTy).Contents (Elt F)),
    unary main_v50 main_v51 (Host.exp : (⟨S1x2048, .f32⟩ : BufTy).Contents (Elt F) → (⟨S1x2048, .f32⟩ : BufTy).Contents (Elt F)),
    nullary main_cst_5 (constant S_ .f32 0x3F800000#32) ]
abbrev ops_part3b : List (HloOp τ sig (Elt F)) :=
  [ unary main_cst_5 main_v52 (broadcastInDim S1x2048 ![] bcast_S_S1x2048 : (⟨S_, .f32⟩ : BufTy).Contents (Elt F) → (⟨S1x2048, .f32⟩ : BufTy).Contents (Elt F)),
    binary main_v52 main_v51 main_v53 (addf : (⟨S1x2048, .f32⟩ : BufTy).Contents (Elt F) → (⟨S1x2048, .f32⟩ : BufTy).Contents (Elt F) → (⟨S1x2048, .f32⟩ : BufTy).Contents (Elt F)),
    nullary main_cst_6 (constant S_ .f32 0x3F800000#32),
    unary main_cst_6 main_v54 (broadcastInDim S1x2048 ![] bcast_S_S1x2048 : (⟨S_, .f32⟩ : BufTy).Contents (Elt F) → (⟨S1x2048, .f32⟩ : BufTy).Contents (Elt F)),
    binary main_v54 main_v53 main_v55 (Host.divf : (⟨S1x2048, .f32⟩ : BufTy).Contents (Elt F) → (⟨S1x2048, .f32⟩ : BufTy).Contents (Elt F) → (⟨S1x2048, .f32⟩ : BufTy).Contents (Elt F)),
    binary main_v48 main_v41 main_v56 (mulf : (⟨S1x2048, .f32⟩ : BufTy).Contents (Elt F) → (⟨S1x2048, .f32⟩ : BufTy).Contents (Elt F) → (⟨S1x2048, .f32⟩ : BufTy).Contents (Elt F)),
    binary main_v38 main_v56 main_v57 (addf : (⟨S1x2048, .f32⟩ : BufTy).Contents (Elt F) → (⟨S1x2048, .f32⟩ : BufTy).Contents (Elt F) → (⟨S1x2048, .f32⟩ : BufTy).Contents (Elt F)),
    unary main_v57 main_v58 (Host.tanh : (⟨S1x2048, .f32⟩ : BufTy).Contents (Elt F) → (⟨S1x2048, .f32⟩ : BufTy).Contents (Elt F)),
    nullary main_cst_7 (constant S_ .f32 0x3F800000#32),
    unary main_cst_7 main_v59 (broadcastInDim S1x2048 ![] bcast_S_S1x2048 : (⟨S_, .f32⟩ : BufTy).Contents (Elt F) → (⟨S1x2048, .f32⟩ : BufTy).Contents (Elt F)),
    binary main_v59 main_v55 main_v60 (subf : (⟨S1x2048, .f32⟩ : BufTy).Contents (Elt F) → (⟨S1x2048, .f32⟩ : BufTy).Contents (Elt F) → (⟨S1x2048, .f32⟩ : BufTy).Contents (Elt F)),
    binary main_v60 main_v58 main_v61 (mulf : (⟨S1x2048, .f32⟩ : BufTy).Contents (Elt F) → (⟨S1x2048, .f32⟩ : BufTy).Contents (Elt F) → (⟨S1x2048, .f32⟩ : BufTy).Contents (Elt F)),
    binary main_v55 main_v7 main_v62 (mulf : (⟨S1x2048, .f32⟩ : BufTy).Contents (Elt F) → (⟨S1x2048, .f32⟩ : BufTy).Contents (Elt F) → (⟨S1x2048, .f32⟩ : BufTy).Contents (Elt F)),
    binary main_v61 main_v62 main_v63 (addf : (⟨S1x2048, .f32⟩ : BufTy).Contents (Elt F) → (⟨S1x2048, .f32⟩ : BufTy).Contents (Elt F) → (⟨S1x2048, .f32⟩ : BufTy).Contents (Elt F)) ]
abbrev ops_part3 : List (HloOp τ sig (Elt F)) := ops_part3a ++ ops_part3b
abbrev ops_part4 : List (HloOp τ sig (Elt F)) :=
  [ binary main_v63 main_arg12 main_v64 ((fun l r => Host.dotGeneral dot_S1x2048_S2048x50257_S1x50257_1_0_0_1_n_n none l r) : (⟨S1x2048, .f32⟩ : BufTy).Contents (Elt F) → (⟨S2048x50257, .f32⟩ : BufTy).Contents (Elt F) → (⟨S1x50257, .f32⟩ : BufTy).Contents (Elt F)),
    unary main_arg13 main_v65 (broadcastInDim S1x50257 ![1] bcast_S50257_S1x50257_1 : (⟨S50257, .f32⟩ : BufTy).Contents (Elt F) → (⟨S1x50257, .f32⟩ : BufTy).Contents (Elt F)),
    binary main_v64 main_v65 main_v66 (addf : (⟨S1x50257, .f32⟩ : BufTy).Contents (Elt F) → (⟨S1x50257, .f32⟩ : BufTy).Contents (Elt F) → (⟨S1x50257, .f32⟩ : BufTy).Contents (Elt F)),
    TRef.nullary (TRef.of (T := ⟨S_, .f32⟩) main_call0_cst) (constant S_ .f32 0xFF800000#32),
    TRef.binary (TRef.of (T := ⟨S1x50257, .f32⟩) main_v66) (TRef.of (T := ⟨S_, .f32⟩) main_call0_cst) (TRef.of (T := ⟨S1, .f32⟩) main_call0_v0) (fun x v => Host.reduce FloatOps.maximumf x v reducesTo_S1x50257_S1_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1, .f32⟩) main_call0_v1) (broadcastInDim S1 ![] bcast_S_S1),
    TRef.binary (TRef.of (T := ⟨S1, .f32⟩) main_call0_v1) (TRef.of (T := ⟨S1, .f32⟩) main_call0_v0) (TRef.of (T := ⟨S1, .f32⟩) main_call0_v2) maximumf,
    TRef.unary (TRef.of (T := ⟨S1, .f32⟩) main_call0_v2) (TRef.of (T := ⟨S1x1, .f32⟩) main_call0_v3) (broadcastInDim S1x1 ![0] bcast_S1_S1x1_0),
    TRef.unary (TRef.of (T := ⟨S1x1, .f32⟩) main_call0_v3) (TRef.of (T := ⟨S1x50257, .f32⟩) main_call0_v4) (broadcastInDim S1x50257 ![0, 1] bcast_S1x1_S1x50257_0_1),
    TRef.binary (TRef.of (T := ⟨S1x50257, .f32⟩) main_v66) (TRef.of (T := ⟨S1x50257, .f32⟩) main_call0_v4) (TRef.of (T := ⟨S1x50257, .f32⟩) main_call0_v5) subf,
    TRef.unary (TRef.of (T := ⟨S1x50257, .f32⟩) main_call0_v5) (TRef.of (T := ⟨S1x50257, .f32⟩) main_call0_v6) Host.exp,
    TRef.nullary (TRef.of (T := ⟨S_, .f32⟩) main_call0_cst_1) (constant S_ .f32 0x00000000#32),
    TRef.binary (TRef.of (T := ⟨S1x50257, .f32⟩) main_call0_v6) (TRef.of (T := ⟨S_, .f32⟩) main_call0_cst_1) (TRef.of (T := ⟨S1, .f32⟩) main_call0_v7) (fun x v => Host.reduceAdd x v reducesTo_S1x50257_S1_d1 h_S_),
    TRef.unary (TRef.of (T := ⟨S1, .f32⟩) main_call0_v7) (TRef.of (T := ⟨S1x1, .f32⟩) main_call0_v8) (broadcastInDim S1x1 ![0] bcast_S1_S1x1_0),
    TRef.unary (TRef.of (T := ⟨S1x1, .f32⟩) main_call0_v8) (TRef.of (T := ⟨S1x1, .f32⟩) main_call0_v9) Host.log,
    TRef.unary (TRef.of (T := ⟨S1x1, .f32⟩) main_call0_v9) (TRef.of (T := ⟨S1x50257, .f32⟩) main_call0_v10) (broadcastInDim S1x50257 ![0, 1] bcast_S1x1_S1x50257_0_1),
    TRef.binary (TRef.of (T := ⟨S1x50257, .f32⟩) main_call0_v5) (TRef.of (T := ⟨S1x50257, .f32⟩) main_call0_v10) (TRef.of (T := ⟨S1x50257, .f32⟩) main_v67) subf,
    unary main_v63 main_v68 (broadcastInDim S1x1x2048 ![1, 2] bcast_S1x2048_S1x1x2048_1_2 : (⟨S1x2048, .f32⟩ : BufTy).Contents (Elt F) → (⟨S1x1x2048, .f32⟩ : BufTy).Contents (Elt F)) ]
abbrev opsA : List (HloOp τ sig (Elt F)) := ops_part1 ++ (ops_part2 ++ ops_part3a)
abbrev opsB : List (HloOp τ sig (Elt F)) := ops_part3b ++ ops_part4
abbrev ops : List (HloOp τ sig (Elt F)) := opsA ++ opsB

set_option maxRecDepth 8192 in
set_option maxHeartbeats 4000000 in
theorem main_part0_eq (c : Dev nD) : main_part0 (F := F) c = seq opsA := rfl
set_option maxRecDepth 8192 in
set_option maxHeartbeats 4000000 in
theorem main_part1_eq (c : Dev nD) : main_part1 (F := F) c = seq opsB := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig := by
  simp only [ops, opsA, opsB, ops_part1, ops_part2, ops_part3a, ops_part3b, ops_part4, List.cons_append, List.nil_append, List.Forall]
  exact ⟨nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub ..⟩
set_option maxRecDepth 8192 in
theorem ops_fresh : (ops : List (HloOp τ sig (Elt F))).Forall fun op => op.fresh = ∅ := by
  simp only [ops, opsA, opsB, ops_part1, ops_part2, ops_part3a, ops_part3b, ops_part4, List.cons_append, List.nil_append, List.Forall]
  repeat' constructor
theorem ops_cut : (ops : List (HloOp τ sig (Elt F))) = ops_part1 ++ (ops_part2 ++ (ops_part3 ++ ops_part4)) := by
  simp only [ops, opsA, opsB, ops_part3, List.append_assoc]

theorem ofBuf_toBuf {sig : RefSig} {Val : EltTy → Type} {T : BufTy} (x : TRef sig T) (v : T.Contents Val) : x.ofBuf (x.toBuf v) = v := by
  obtain ⟨r, h, hd, hs⟩ := x
  subst h
  rfl

variable (m : (ℓ : Loc nD τ sig) → Buf (Elt F) ℓ) (c : Dev nD)

def val0 : Valuation τ sig (Elt F) := launchContents m c
theorem val0_arg (r : Ref sig .tc) : val0 m c (no_index (Proc.devRef .tc r)) = m ((c.tc : Thread nD τ).loc r) := rfl

def val1 : Valuation τ sig (Elt F) := after ops_part1 (val0 m c)
abbrev ops_part1_W : List (Ref sig .tc) := [main_c, main_v0, main_v1, main_c_0, main_v2, main_v3, main_v4, main_v5, main_v6, main_v7]
set_option maxRecDepth 8192 in
theorem ops_part1_writes : (ops_part1 : List (HloOp τ sig (Elt F))).Forall fun op => op.writes ⊆ (ops_part1_W.map (Proc.devRef (τ := τ) .tc)).toFinset := by
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
theorem val1_keep (r : Ref sig .tc) (h : r ∉ ops_part1_W) : val1 m c (Proc.devRef .tc r) = val0 m c (Proc.devRef .tc r) :=
  after_of_writes_sub ops_part1 _ ops_part1_writes h
attribute [local irreducible] val1
theorem val1_arg (r : Ref sig .tc) (h : r ∉ ops_part1_W) : val1 m c (no_index (Proc.devRef .tc r)) = m ((c.tc : Thread nD τ).loc r) :=
  val1_keep m c r h
set_option maxRecDepth 8192 in
set_option maxHeartbeats 1000000 in
theorem val1_main_v6 : val1 m c (no_index (Proc.devRef .tc main_v6)) = ReadP.val_main_v6 (F := F) (m ((c.tc : Thread nD τ).loc main_arg0)) (m ((c.tc : Thread nD τ).loc main_arg3)) := by
  unfold val1
  simp only [ops_part1]
  after_results_simp
  simp only [val0_arg]
  rfl
set_option maxRecDepth 8192 in
set_option maxHeartbeats 1000000 in
theorem val1_main_v7 : val1 m c (no_index (Proc.devRef .tc main_v7)) = ReadP.val_main_v7 (F := F) (m ((c.tc : Thread nD τ).loc main_arg1)) := by
  unfold val1
  simp only [ops_part1]
  after_results_simp
  simp only [val0_arg]
  rfl

def val2 : Valuation τ sig (Elt F) := after ops_part2 (val1 m c)
abbrev ops_part2_W : List (Ref sig .tc) := [main_v8, main_v9, main_v10, main_v11, main_cst, main_v12, main_cst_1, main_v13, main_v14, main_v15, main_v16, main_v17, main_v18, main_cst_2, main_v19, main_v20, main_v21, main_v22, main_v23]
set_option maxRecDepth 8192 in
theorem ops_part2_writes : (ops_part2 : List (HloOp τ sig (Elt F))).Forall fun op => op.writes ⊆ (ops_part2_W.map (Proc.devRef (τ := τ) .tc)).toFinset := by
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
theorem val2_keep (r : Ref sig .tc) (h : r ∉ ops_part2_W) : val2 m c (Proc.devRef .tc r) = val1 m c (Proc.devRef .tc r) :=
  after_of_writes_sub ops_part2 _ ops_part2_writes h
attribute [local irreducible] val2
theorem val2_arg (r : Ref sig .tc) (h : r ∉ ops_part1_W ++ ops_part2_W) : val2 m c (no_index (Proc.devRef .tc r)) = m ((c.tc : Thread nD τ).loc r) :=
  (val2_keep m c r fun h' => h (List.mem_append_right _ h')).trans (val1_arg m c r fun h' => h (List.mem_append_left _ h'))
theorem val2_main_v6 : val2 m c (no_index (Proc.devRef .tc main_v6)) = ReadP.val_main_v6 (F := F) (m ((c.tc : Thread nD τ).loc main_arg0)) (m ((c.tc : Thread nD τ).loc main_arg3)) :=
  (val2_keep m c main_v6 (by decide)).trans (val1_main_v6 m c)
set_option maxRecDepth 8192 in
set_option maxHeartbeats 1900000 in
theorem val2_main_v23 : val2 m c (no_index (Proc.devRef .tc main_v23)) = ReadP.val_main_v23 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold val2
  simp only [ops_part2]
  after_results_simp
  simp (disch := decide) only [val1_main_v6, val1_main_v7, val1_arg]
  try rw [val1_main_v6]
  try rw [val1_main_v7]
  rfl
theorem val2_main_v7 : val2 m c (no_index (Proc.devRef .tc main_v7)) = ReadP.val_main_v7 (F := F) (m ((c.tc : Thread nD τ).loc main_arg1)) :=
  (val2_keep m c main_v7 (by decide)).trans (val1_main_v7 m c)
set_option maxRecDepth 8192 in
set_option maxHeartbeats 1900000 in
theorem val2_main_v22 : val2 m c (no_index (Proc.devRef .tc main_v22)) = ReadP.val_main_v22 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  unfold val2
  simp only [ops_part2]
  after_results_simp
  simp (disch := decide) only [val1_main_v6, val1_main_v7, val1_arg]
  try rw [val1_main_v6]
  try rw [val1_main_v7]
  rfl

def val3 : Valuation τ sig (Elt F) := after ops_part3 (val2 m c)
abbrev ops_part3_W : List (Ref sig .tc) := [main_v24, main_v25, main_v26, main_v27, main_v28, main_v29, main_v30, main_v31, main_v32, main_v33, main_v34, main_v35, main_v36, main_v37, main_v38, main_v39, main_v40, main_v41, main_v42, main_v43, main_v44, main_cst_3, main_v45, main_v46, main_cst_4, main_v47, main_v48, main_v49, main_v50, main_v51, main_cst_5, main_v52, main_v53, main_cst_6, main_v54, main_v55, main_v56, main_v57, main_v58, main_cst_7, main_v59, main_v60, main_v61, main_v62, main_v63]
set_option maxRecDepth 8192 in
theorem ops_part3_writes : (ops_part3 : List (HloOp τ sig (Elt F))).Forall fun op => op.writes ⊆ (ops_part3_W.map (Proc.devRef (τ := τ) .tc)).toFinset := by
  simp only [ops_part3, ops_part3a, ops_part3b, List.cons_append, List.nil_append, List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
theorem val3_keep (r : Ref sig .tc) (h : r ∉ ops_part3_W) : val3 m c (Proc.devRef .tc r) = val2 m c (Proc.devRef .tc r) :=
  after_of_writes_sub ops_part3 _ ops_part3_writes h
attribute [local irreducible] val3
theorem val3_arg (r : Ref sig .tc) (h : r ∉ ops_part1_W ++ ops_part2_W ++ ops_part3_W) : val3 m c (no_index (Proc.devRef .tc r)) = m ((c.tc : Thread nD τ).loc r) :=
  (val3_keep m c r fun h' => h (List.mem_append_right _ h')).trans (val2_arg m c r fun h' => h (List.mem_append_left _ h'))
set_option maxRecDepth 8192 in
set_option maxHeartbeats 2000000 in
theorem val3_main_v63 : val3 m c (no_index (Proc.devRef .tc main_v63)) = ReadP.val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold val3
  simp only [ops_part3, ops_part3a, ops_part3b, List.cons_append, List.nil_append]
  after_results_simp
  simp (disch := decide) only [val2_main_v6, val2_main_v23, val2_main_v7, val2_arg]
  try rw [val2_main_v6]
  try rw [val2_main_v23]
  rfl
theorem val3_main_v22 : val3 m c (no_index (Proc.devRef .tc main_v22)) = ReadP.val_main_v22 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (val3_keep m c main_v22 (by decide)).trans (val2_main_v22 m c)

def val4 : Valuation τ sig (Elt F) := after ops_part4 (val3 m c)
abbrev ops_part4_W : List (Ref sig .tc) := [main_v64, main_v65, main_v66, main_call0_cst, main_call0_v0, main_call0_cst_0, main_call0_v1, main_call0_v2, main_call0_v3, main_call0_v4, main_call0_v5, main_call0_v6, main_call0_cst_1, main_call0_v7, main_call0_v8, main_call0_v9, main_call0_v10, main_v67, main_v68]
set_option maxRecDepth 8192 in
theorem ops_part4_writes : (ops_part4 : List (HloOp τ sig (Elt F))).Forall fun op => op.writes ⊆ (ops_part4_W.map (Proc.devRef (τ := τ) .tc)).toFinset := by
  simp only [List.Forall]
  repeat' apply And.intro
  all_goals
    simp only [nullary_writes, unary_writes, binary_writes, ternary_writes, quaternary_writes, reshape_writes, binaryIndexed_writes, unaryIndexed_writes, nary_writes, Finset.singleton_subset_iff, List.mem_toFinset]
    exact List.mem_map_of_mem (by decide)
theorem val4_keep (r : Ref sig .tc) (h : r ∉ ops_part4_W) : val4 m c (Proc.devRef .tc r) = val3 m c (Proc.devRef .tc r) :=
  after_of_writes_sub ops_part4 _ ops_part4_writes h
attribute [local irreducible] val4
theorem val4_arg (r : Ref sig .tc) (h : r ∉ ops_part1_W ++ ops_part2_W ++ ops_part3_W ++ ops_part4_W) : val4 m c (no_index (Proc.devRef .tc r)) = m ((c.tc : Thread nD τ).loc r) :=
  (val4_keep m c r fun h' => h (List.mem_append_right _ h')).trans (val3_arg m c r fun h' => h (List.mem_append_left _ h'))
set_option maxRecDepth 8192 in
set_option maxHeartbeats 1900000 in
theorem val4_main_v67 : val4 m c (no_index (Proc.devRef .tc main_v67)) = ReadP.val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  unfold val4
  simp only [ops_part4]
  after_results_simp
  try simp only [ofBuf_toBuf]
  simp (disch := decide) only [val3_main_v63, val3_arg]
  rfl
set_option maxRecDepth 8192 in
set_option maxHeartbeats 1900000 in
theorem val4_main_v68 : val4 m c (no_index (Proc.devRef .tc main_v68)) = ReadP.val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold val4
  simp only [ops_part4]
  after_results_simp
  try simp only [ofBuf_toBuf]
  simp only [val3_main_v63]
  rfl
theorem val4_main_v22 : val4 m c (no_index (Proc.devRef .tc main_v22)) = ReadP.val_main_v22 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (val4_keep m c main_v22 (by decide)).trans (val3_main_v22 m c)

set_option maxRecDepth 8192 in
theorem after_ops : after ops (launchContents m c) = val4 m c := by
  rw [ops_cut]
  simp only [after_append]
  unfold val4 val3 val2 val1 val0
  rfl

set_option maxRecDepth 8192 in
theorem run (ρ : Dev nD → PrngReg) :
    θ_run defs (onTc (τ := τ) (main (F := F))) ⟨m, fun _ => 0, ρ⟩ fun r => ∀ c : Dev nD,
      r.2.mem ((c.tc : Thread nD τ).loc main_v67) = ReadP.val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v68) = ReadP.val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v22) = ReadP.val_main_v22 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v67).trans ((congrFun (after_ops m c) _).trans (val4_main_v67 m c)),
      (h c main_v68).trans ((congrFun (after_ops m c) _).trans (val4_main_v68 m c)),
      (h c main_v22).trans ((congrFun (after_ops m c) _).trans (val4_main_v22 m c)),
      (h c main_arg0).trans ((congrFun (after_ops m c) _).trans (val4_arg m c main_arg0 (by decide))),
      (h c main_arg1).trans ((congrFun (after_ops m c) _).trans (val4_arg m c main_arg1 (by decide))),
      (h c main_arg2).trans ((congrFun (after_ops m c) _).trans (val4_arg m c main_arg2 (by decide))),
      (h c main_arg3).trans ((congrFun (after_ops m c) _).trans (val4_arg m c main_arg3 (by decide))),
      (h c main_arg4).trans ((congrFun (after_ops m c) _).trans (val4_arg m c main_arg4 (by decide))),
      (h c main_arg5).trans ((congrFun (after_ops m c) _).trans (val4_arg m c main_arg5 (by decide))),
      (h c main_arg6).trans ((congrFun (after_ops m c) _).trans (val4_arg m c main_arg6 (by decide))),
      (h c main_arg7).trans ((congrFun (after_ops m c) _).trans (val4_arg m c main_arg7 (by decide))),
      (h c main_arg8).trans ((congrFun (after_ops m c) _).trans (val4_arg m c main_arg8 (by decide))),
      (h c main_arg9).trans ((congrFun (after_ops m c) _).trans (val4_arg m c main_arg9 (by decide))),
      (h c main_arg10).trans ((congrFun (after_ops m c) _).trans (val4_arg m c main_arg10 (by decide))),
      (h c main_arg11).trans ((congrFun (after_ops m c) _).trans (val4_arg m c main_arg11 (by decide))),
      (h c main_arg12).trans ((congrFun (after_ops m c) _).trans (val4_arg m c main_arg12 (by decide))),
      (h c main_arg13).trans ((congrFun (after_ops m c) _).trans (val4_arg m c main_arg13 (by decide)))⟩)
    (run_seq scopedRefs_eq scopedSems_eq defs main (fun _ => ops) main_eq (fun _ => ops_sub) m ρ
      (fun _ => List.forall_iff_forall_mem.mp ops_fresh))

end Cert.ReferenceIdeal.ValueP

end
-- ==== Proof.K.Reg0.lean ====
/- Region 0: the attention weights and the context row, one grid point. -/
import proofs.«148525_j50087908606299_1_alg».proof.Proof.Gen.Kernel.Launch
import proofs.«148525_j50087908606299_1_alg».proof.Proof.Gen.Kernel.Skeleton
import proofs.«148525_j50087908606299_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x4096 := Rect.unit (s := S1x4096) ![0, 0] S1x4096.size inb_S1x4096_S1x4096_0_0
abbrev r0_1 : Rect S4096x100 := Rect.unit (s := S4096x100) ![0, 0] S4096x100.size inb_S4096x100_S4096x100_0_0
abbrev r0_2 : Rect S1x100 := Rect.unit (s := S1x100) ![0, 0] S1x100.size inb_S1x100_S1x100_0_0
abbrev r0_3 : Rect S100x2048 := Rect.unit (s := S100x2048) ![0, 0] S100x2048.size inb_S100x2048_S100x2048_0_0
abbrev r0_4 : Rect S1x2048 := Rect.unit (s := S1x2048) ![0, 0] S1x2048.size inb_S1x2048_S1x2048_0_0
abbrev r0_5 : Rect S1x100 := Rect.unit (s := S1x100) ![0, 0] S1x100.size inb_S1x100_S1x100_0_0

def bout0_4 (x0 : Vec F S1x4096 .f32) (x1 : Vec F S4096x100 .f32) (x2 : Vec F S1x100 .f32) (x3 : Vec F S100x2048 .f32) : Vec F S1x2048 .f32 :=
  View.canon [⟨r0_4, k0_pay2 (View.ld x0 r0_0) (View.ld x1 r0_1) (View.ld x2 r0_2) (View.ld x3 r0_3)⟩]

def bout0_5 (x0 : Vec F S1x4096 .f32) (x1 : Vec F S4096x100 .f32) (x2 : Vec F S1x100 .f32) : Vec F S1x100 .f32 :=
  View.canon [⟨r0_5, k0_pay1 (View.ld x0 r0_0) (View.ld x1 r0_1) (View.ld x2 r0_2)⟩]

theorem cover0_4 (p0 : Vec F S1x2048 .f32) (y : S1x2048.Idx) :
    ∃ pc ∈ ([⟨r0_4, p0⟩] : List (View.Piece (Elt F) S1x2048 .f32)), y ∈ pc.1.set :=
  View.cover_of_tiled [⟨r0_4, p0⟩] S1x2048.size (by rfl) y

theorem cover0_5 (p0 : Vec F S1x100 .f32) (y : S1x100.Idx) :
    ∃ pc ∈ ([⟨r0_5, p0⟩] : List (View.Piece (Elt F) S1x100 .f32)), y ∈ pc.1.set :=
  View.cover_of_tiled [⟨r0_5, p0⟩] S1x100.size (by rfl) y

set_option maxHeartbeats 1000000 in
theorem sound_kernel0 (c : Dev nD) (E : Set ℕ) (i : grid0.Coords)
    (arg1 : Memref sig .tc .vmem S1x4096 .f32) (harg1 : arg1.IsWhole) (arg2 : Memref sig .tc .vmem S4096x100 .f32) (harg2 : arg2.IsWhole)
    (arg3 : Memref sig .tc .vmem S1x100 .f32) (harg3 : arg3.IsWhole) (arg4 : Memref sig .tc .vmem S100x2048 .f32) (harg4 : arg4.IsWhole)
    (arg5 : Memref sig .tc .vmem S1x2048 .f32) (harg5 : arg5.IsWhole) (arg6 : Memref sig .tc .vmem S1x100 .f32) (harg6 : arg6.IsWhole)
    (x0 : Vec F S1x4096 .f32) (x1 : Vec F S4096x100 .f32) (x2 : Vec F S1x100 .f32) (x3 : Vec F S100x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (bout0_4 x0 x1 x2 x3) ∗ owns (c : Thread nD τ) arg6 fullShare (bout0_5 x0 x1 x2)) -∗ K ⟨⟩))
      ⊢ wp frame (wpE (defs₀ (F := F)) Variants.none c none) E (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => bout0_4 (iblk0 V c 0 t) (iblk0 V c 1 t) (iblk0 V c 2 t) (iblk0 V c 3 t)
    | ⟨5, _⟩ => bout0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare := by
  unfold Dat.share; dsimp only [dat0]; split <;> rfl

theorem owed0 (c : Dev nD) (t : Fin (cfg0.N + 1)) : (dat0 V c).owed t = 0 := by
  dsimp only [dat0]

theorem hin0 (c : Dev nD) : Pipeline.ΦA spec0 c ⊢ (dat0 V c).Φ 0 := by
  dsimp only [dat0]; exact Entails.refl _

theorem hout0 (c : Dev nD) : (dat0 V c).Φ (Fin.last cfg0.N) ⊢ Pipeline.ΦA spec0 c := by
  dsimp only [dat0]; exact Entails.refl _

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = bout0_4 (iblk0 V c 0 t) (iblk0 V c 1 t) (iblk0 V c 2 t) (iblk0 V c 3 t) := by dsimp only [dat0]
theorem after0_5 (c : Dev nD) (t : Fin cfg0.N) : (dat0 V c).after 5 t = bout0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

def out0_4 (a0 : Vec F S1x4096 .f32) (a1 : Vec F S4096x100 .f32) (a2 : Vec F S1x100 .f32) (a3 : Vec F S100x2048 .f32) : Vec F S1x2048 .f32 :=
  k0_pay2 a0 a1 a2 a3

def out0_5 (a0 : Vec F S1x4096 .f32) (a1 : Vec F S4096x100 .f32) (a2 : Vec F S1x100 .f32) (a3 : Vec F S100x2048 .f32) : Vec F S1x100 .f32 :=
  k0_pay1 a0 a1 a2

theorem zero2 : (![0, 0] : Fin 2 → Nat) = fun _ => 0 := by funext a; fin_cases a <;> rfl

theorem bout0_4_eq (x0 : Vec F S1x4096 .f32) (x1 : Vec F S4096x100 .f32) (x2 : Vec F S1x100 .f32) (x3 : Vec F S100x2048 .f32) :
    bout0_4 x0 x1 x2 x3 = k0_pay2 x0 x1 x2 x3 := by
  unfold bout0_4
  rw [View.canon_unit_zero zero2, View.ld_unit_zero zero2 inb_S1x4096_S1x4096_0_0 x0, View.ld_unit_zero zero2 inb_S4096x100_S4096x100_0_0 x1,
    View.ld_unit_zero zero2 inb_S1x100_S1x100_0_0 x2, View.ld_unit_zero zero2 inb_S100x2048_S100x2048_0_0 x3]

theorem bout0_5_eq (x0 : Vec F S1x4096 .f32) (x1 : Vec F S4096x100 .f32) (x2 : Vec F S1x100 .f32) :
    bout0_5 x0 x1 x2 = k0_pay1 x0 x1 x2 := by
  unfold bout0_5
  rw [View.canon_unit_zero zero2, View.ld_unit_zero zero2 inb_S1x4096_S1x4096_0_0 x0, View.ld_unit_zero zero2 inb_S4096x100_S4096x100_0_0 x1,
    View.ld_unit_zero zero2 inb_S1x100_S1x100_0_0 x2]

theorem idx0_0 : ∀ (t : Fin cfg0.N) (a : Fin 2), (cfg0.win 0).index t a = 0 :=
  (by decide +kernel : ∀ (t : Fin grid0.N) (a : Fin 2), win0_0.index t a = 0)
theorem idx0_1 : ∀ (t : Fin cfg0.N) (a : Fin 2), (cfg0.win 1).index t a = 0 :=
  (by decide +kernel : ∀ (t : Fin grid0.N) (a : Fin 2), win0_1.index t a = 0)
theorem idx0_2 : ∀ (t : Fin cfg0.N) (a : Fin 2), (cfg0.win 2).index t a = 0 :=
  (by decide +kernel : ∀ (t : Fin grid0.N) (a : Fin 2), win0_2.index t a = 0)
theorem idx0_3 : ∀ (t : Fin cfg0.N) (a : Fin 2), (cfg0.win 3).index t a = 0 :=
  (by decide +kernel : ∀ (t : Fin grid0.N) (a : Fin 2), win0_3.index t a = 0)
theorem idx0_4 : ∀ (t : Fin cfg0.N) (a : Fin 2), (cfg0.win 4).index t a = 0 :=
  (by decide +kernel : ∀ (t : Fin grid0.N) (a : Fin 2), win0_4.index t a = 0)
theorem idx0_5 : ∀ (t : Fin cfg0.N) (a : Fin 2), (cfg0.win 5).index t a = 0 :=
  (by decide +kernel : ∀ (t : Fin grid0.N) (a : Fin 2), win0_5.index t a = 0)

theorem emb0_0 (t : Fin cfg0.N) (y : ((cfg0.win 0).xblock (cfg0.grid.coords t)).Idx) :
    ((cfg0.win 0).blk t).view.emb y = y := by
  funext a; apply Fin.ext
  exact Window.rect_emb_val_of_index_zero (cfg0.win 0) t a (idx0_0 t a) y

theorem emb0_1 (t : Fin cfg0.N) (y : ((cfg0.win 1).xblock (cfg0.grid.coords t)).Idx) :
    ((cfg0.win 1).blk t).view.emb y = y := by
  funext a; apply Fin.ext
  exact Window.rect_emb_val_of_index_zero (cfg0.win 1) t a (idx0_1 t a) y

theorem emb0_2 (t : Fin cfg0.N) (y : ((cfg0.win 2).xblock (cfg0.grid.coords t)).Idx) :
    ((cfg0.win 2).blk t).view.emb y = y := by
  funext a; apply Fin.ext
  exact Window.rect_emb_val_of_index_zero (cfg0.win 2) t a (idx0_2 t a) y

theorem emb0_3 (t : Fin cfg0.N) (y : ((cfg0.win 3).xblock (cfg0.grid.coords t)).Idx) :
    ((cfg0.win 3).blk t).view.emb y = y := by
  funext a; apply Fin.ext
  exact Window.rect_emb_val_of_index_zero (cfg0.win 3) t a (idx0_3 t a) y

theorem emb0_4 (t : Fin cfg0.N) (y : ((cfg0.win 4).xblock (cfg0.grid.coords t)).Idx) :
    ((cfg0.win 4).blk t).view.emb y = y := by
  funext a; apply Fin.ext
  exact Window.rect_emb_val_of_index_zero (cfg0.win 4) t a (idx0_4 t a) y

theorem emb0_5 (t : Fin cfg0.N) (y : ((cfg0.win 5).xblock (cfg0.grid.coords t)).Idx) :
    ((cfg0.win 5).blk t).view.emb y = y := by
  funext a; apply Fin.ext
  exact Window.rect_emb_val_of_index_zero (cfg0.win 5) t a (idx0_5 t a) y

theorem iblk0_0_eq (c : Dev nD) (t : Fin cfg0.N) : iblk0 V c 0 t = V c main_v9 := by
  funext y; unfold iblk0; rw [View.read_apply, emb0_0]; rfl

theorem iblk0_1_eq (c : Dev nD) (t : Fin cfg0.N) : iblk0 V c 1 t = V c main_arg4 := by
  funext y; unfold iblk0; rw [View.read_apply, emb0_1]; rfl

theorem iblk0_2_eq (c : Dev nD) (t : Fin cfg0.N) : iblk0 V c 2 t = V c main_v8 := by
  funext y; unfold iblk0; rw [View.read_apply, emb0_2]; rfl

theorem iblk0_3_eq (c : Dev nD) (t : Fin cfg0.N) : iblk0 V c 3 t = V c main_arg2 := by
  funext y; unfold iblk0; rw [View.read_apply, emb0_3]; rfl

theorem one_point (t t' : Fin cfg0.N) : t = t' := (fin_N0 t).trans (fin_N0 t').symm

theorem arr0_4 (c : Dev nD) : (dat0 V c).arrAt 4 cfg0.N = out0_4 (V c main_v9) (V c main_arg4) (V c main_v8) (V c main_arg2) := by
  funext j
  have h := (dat0 V c).arrAt_emb_eq_flushed 4 (fun t t' _ _ hne => absurd (one_point t t') hne) t0_0 (flush0_4 t0_0) j
  rw [emb0_4] at h
  rw [h]
  show (dat0 V c).after 4 t0_0 j = _
  rw [after0_4, bout0_4_eq, iblk0_0_eq, iblk0_1_eq, iblk0_2_eq, iblk0_3_eq]
  rfl

theorem arr0_5 (c : Dev nD) : (dat0 V c).arrAt 5 cfg0.N = out0_5 (V c main_v9) (V c main_arg4) (V c main_v8) (V c main_arg2) := by
  funext j
  have h := (dat0 V c).arrAt_emb_eq_flushed 5 (fun t t' _ _ hne => absurd (one_point t t') hne) t0_0 (flush0_5 t0_0) j
  rw [emb0_5] at h
  rw [h]
  show (dat0 V c).after 5 t0_0 j = _
  rw [after0_5, bout0_5_eq, iblk0_0_eq, iblk0_1_eq, iblk0_2_eq]
  rfl

theorem recorded0 (c : Dev nD) (t : Fin (cfg0.N + 1)) : (dat0 V c).recorded t = Set.univ := by dsimp only [dat0]

end Cert.Kernel.Hand

end
-- ==== Proof.K.Reg1.lean ====
/- Region 1: a row times a matrix plus bias, accumulated over eight blocks of the contracted axis. -/
import proofs.«148525_j50087908606299_1_alg».proof.Proof.Gen.Kernel.Launch
import proofs.«148525_j50087908606299_1_alg».proof.Proof.Gen.Kernel.Skeleton
import proofs.«148525_j50087908606299_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def xblk1 (a0 : Vec F S1x4096 .f32) (t : Fin cfg1.N) : Vec F S1x512 .f32 := (win1_0.blk t).view.read (Elt F) a0
def wblk1 (a1 : Vec F S4096x2048 .f32) (t : Fin cfg1.N) : Vec F S512x2048 .f32 := (win1_1.blk t).view.read (Elt F) a1
def bblk1 (a2 : Vec F S1x2048 .f32) (t : Fin cfg1.N) : Vec F S1x2048 .f32 := (win1_2.blk t).view.read (Elt F) a2

def acc1 (a0 : Vec F S1x4096 .f32) (a1 : Vec F S4096x2048 .f32) (a2 : Vec F S1x2048 .f32) : (n : ℕ) → n < cfg1.N → Vec F S1x2048 .f32
  | 0, h => k1_pay2 (xblk1 a0 ⟨0, h⟩) (wblk1 a1 ⟨0, h⟩) (k1_pay1 (bblk1 a2 ⟨0, h⟩))
  | n + 1, h => k1_pay2 (xblk1 a0 ⟨n + 1, h⟩) (wblk1 a1 ⟨n + 1, h⟩) (acc1 a0 a1 a2 n (Nat.lt_of_succ_lt h))

theorem lt7 : 7 < cfg1.N := by rw [show cfg1.N = 8 from N_1]; decide

def out1 (a0 : Vec F S1x4096 .f32) (a1 : Vec F S4096x2048 .f32) (a2 : Vec F S1x2048 .f32) : Vec F S1x2048 .f32 :=
  acc1 a0 a1 a2 7 lt7

theorem acc1_zero (a0 : Vec F S1x4096 .f32) (a1 : Vec F S4096x2048 .f32) (a2 : Vec F S1x2048 .f32) (h : 0 < cfg1.N) :
    acc1 a0 a1 a2 0 h = k1_pay2 (xblk1 a0 ⟨0, h⟩) (wblk1 a1 ⟨0, h⟩) (k1_pay1 (bblk1 a2 ⟨0, h⟩)) := rfl
theorem acc1_succ (a0 : Vec F S1x4096 .f32) (a1 : Vec F S4096x2048 .f32) (a2 : Vec F S1x2048 .f32) (n : ℕ) (h : n + 1 < cfg1.N) :
    acc1 a0 a1 a2 (n + 1) h = k1_pay2 (xblk1 a0 ⟨n + 1, h⟩) (wblk1 a1 ⟨n + 1, h⟩) (acc1 a0 a1 a2 n (Nat.lt_of_succ_lt h)) := rfl

theorem acc1_pos (a0 : Vec F S1x4096 .f32) (a1 : Vec F S4096x2048 .f32) (a2 : Vec F S1x2048 .f32) (t : Fin cfg1.N) (ht : t.val ≠ 0) :
    acc1 a0 a1 a2 t.val t.isLt = k1_pay2 (xblk1 a0 t) (wblk1 a1 t) (acc1 a0 a1 a2 (t.val - 1) (Nat.lt_of_le_of_lt (Nat.sub_le _ _) t.isLt)) := by
  obtain ⟨n, hn⟩ := t
  cases n with
  | zero => exact absurd rfl ht
  | succ n => rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev accV (c : Dev nD) (n : ℕ) (h : n < cfg1.N) : Vec F S1x2048 .f32 := acc1 (V c main_v12) (V c main_arg6) (V c main_v11) n h

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 7 :=
  (by decide +kernel : ∀ t : Fin grid1.N, cond1_1 (grid1.coords t) ↔ t.val = 7)

theorem hz1 : (![0, 0] : Fin 2 → Nat) = fun _ => 0 := funext fun a => by fin_cases a <;> rfl

set_option maxHeartbeats 1000000 in
theorem sound_kernel1_A (c : Dev nD) (E : Set ℕ) (i : grid1.Coords)
    (arg1 : Memref sig .tc .vmem S1x512 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (hc0 : cond1_0 i) (hc1 : ¬cond1_1 i)
    (x : Vec F S1x512 .f32) (w : Vec F S512x2048 .f32) (b : Vec F S1x2048 .f32) (o : Vec F S1x2048 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare o ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare o ∗ owns (c : Thread nD τ) arg5 fullShare (k1_pay2 x w (k1_pay1 b))) -∗ K ⟨⟩))
      ⊢ wp frame (wpE (defs₀ (F := F)) Variants.none c none) E (cc1__comb_kernel i arg1 harg1 arg2 harg2 arg3 harg3 arg4 harg4 arg5 harg5) K := by
  simp only [cc1__comb_kernel_eq_skeleton]; unfold cc1__comb_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hz1 inb_S1x2048_S1x2048_0_0 y⟩)]
  rw [View.canon_cons_unit_zero (S := S1x2048) hz1, View.readCov_unit_zero (S := S1x2048) _ hz1]
  simp only [View.readAt_eq_ld, View.ld_unit_zero (S := S1x512) hz1, View.ld_unit_zero (S := S512x2048) hz1, View.ld_unit_zero (S := S1x2048) hz1]

set_option maxHeartbeats 1000000 in
theorem sound_kernel1_B (c : Dev nD) (E : Set ℕ) (i : grid1.Coords)
    (arg1 : Memref sig .tc .vmem S1x512 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (hc0 : ¬cond1_0 i) (hc1 : ¬cond1_1 i)
    (x : Vec F S1x512 .f32) (w : Vec F S512x2048 .f32) (b : Vec F S1x2048 .f32) (o : Vec F S1x2048 .f32) (a : Vec F S1x2048 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare o ∗ owns (c : Thread nD τ) arg5 fullShare a
        ∗ (iprop(owns (c : Thread nD τ) arg1 fullShare x ∗ owns (c : Thread nD τ) arg2 fullShare w ∗ owns (c : Thread nD τ) arg3 fullShare b
            ∗ owns (c : Thread nD τ) arg4 fullShare o ∗ owns (c : Thread nD τ) arg5 fullShare (k1_pay2 x w a)) -∗ K ⟨⟩))
      ⊢ wp frame (wpE (defs₀ (F := F)) Variants.none c none) E (cc1__comb_kernel i arg1 harg1 arg2 harg2 arg3 harg3 arg4 harg4 arg5 harg5) K := by
  simp only [cc1__comb_kernel_eq_skeleton]; unfold cc1__comb_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hz1 inb_S1x2048_S1x2048_0_0 y⟩)]
  rw [View.canon_cons_unit_zero (S := S1x2048) hz1]
  simp only [View.readAt_eq_ld, View.ld_unit_zero (S := S1x512) hz1, View.ld_unit_zero (S := S512x2048) hz1, View.ld_unit_zero (S := S1x2048) hz1]

set_option maxHeartbeats 1000000 in
theorem sound_kernel1_C (c : Dev nD) (E : Set ℕ) (i : grid1.Coords)
    (arg1 : Memref sig .tc .vmem S1x512 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (hc0 : ¬cond1_0 i) (hc1 : cond1_1 i)
    (x : Vec F S1x512 .f32) (w : Vec F S512x2048 .f32) (b : Vec F S1x2048 .f32) (a : Vec F S1x2048 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare a
        ∗ (iprop(owns (c : Thread nD τ) arg1 fullShare x ∗ owns (c : Thread nD τ) arg2 fullShare w ∗ owns (c : Thread nD τ) arg3 fullShare b
            ∗ owns (c : Thread nD τ) arg4 fullShare (k1_pay2 x w a) ∗ owns (c : Thread nD τ) arg5 fullShare (k1_pay2 x w a)) -∗ K ⟨⟩))
      ⊢ wp frame (wpE (defs₀ (F := F)) Variants.none c none) E (cc1__comb_kernel i arg1 harg1 arg2 harg2 arg3 harg3 arg4 harg4 arg5 harg5) K := by
  simp only [cc1__comb_kernel_eq_skeleton]; unfold cc1__comb_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hz1 inb_S1x2048_S1x2048_0_0 y⟩)]
    rw [View.canon_cons_unit_zero (S := S1x2048) hz1, View.readCov_unit_zero (S := S1x2048) _ hz1]
    simp only [View.readAt_eq_ld, View.ld_unit_zero (S := S1x512) hz1, View.ld_unit_zero (S := S512x2048) hz1, View.ld_unit_zero (S := S1x2048) hz1]
  iexists _; isplitr
  swap; · iexact H5
  ipureintro
  sl_unfold_run_names
  rw [View.read_writes_eq_canon _ _ _ (fun y => ⟨_, List.mem_cons_self, View.mem_set_unit_zero hz1 inb_S1x2048_S1x2048_0_0 y⟩)]
  rw [View.canon_cons_unit_zero (S := S1x2048) hz1]
  simp only [View.readAt_eq_ld, View.ld_unit_zero (S := S1x512) hz1, View.ld_unit_zero (S := S512x2048) hz1, View.ld_unit_zero (S := S1x2048) hz1]

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev scM1 : Memref sig .tc .vmem S1x2048 .f32 := Memref.whole cc1_scratch0

theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => iprop(iprop(owns (c : Thread nD τ) scM1 fullShare (accV V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accV V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accV V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accV V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t : Fin (cfg1.N + 1)) : (dat1 V c).owed t = 0 := rfl
theorem recorded1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accV V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem accV_first (c : Dev nD) (t : Fin cfg1.N) (h0 : t.val = 0) :
    accV V c t.val t.isLt = k1_pay2 (iblk1 V c 0 t) (iblk1 V c 1 t) (k1_pay1 (iblk1 V c 2 t)) := by
  obtain ⟨n, hn⟩ := t
  obtain rfl : n = 0 := h0
  rfl
theorem accV_pos (c : Dev nD) (t : Fin cfg1.N) (h0 : t.val ≠ 0) :
    accV V c t.val t.isLt = k1_pay2 (iblk1 V c 0 t) (iblk1 V c 1 t) (accV V c (t.val - 1) (Nat.lt_of_le_of_lt (Nat.sub_le _ _) t.isLt)) :=
  acc1_pos _ _ _ t h0

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val = 0
  · have h1 : ¬t.val = 7 := by omega
    rw [Dat.leavesExact_idle (dat1 V c) 3 t (idleAt1_3 t (fun h => h1 ((hcond1_1 t).mp h))) (noFlush1_3 t (fun h => h1 ((hcond1_1 t).mp h)))]
    rw [PhiS1_castSucc V c t, PhiS1_zero V c _ _ h0, PhiA1_eq, accV_first V c t h0]
    iintro ⟨⟨⟨HS, HR⟩, Hg⟩, Ho, ⟨%d0, H0⟩, ⟨%d1, H1⟩, ⟨%d2, H2⟩, ⟨%d3, H3⟩⟩
    iapply (sound_kernel1_A c Set.univ (grid1.coords t) _ _ _ _ _ _ _ _ _ _ ((hcond1_0 t).mpr h0) (fun h => h1 ((hcond1_1 t).mp h))
      (iblk1 V c 0 t) (iblk1 V c 1 t) (iblk1 V c 2 t) _ _)
    · isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · by_cases h1 : t.val = 7
    · rw [show (dat1 V c).leavesExact 3 t = owns (c : Thread nD τ) (st1_3 t) fullShare ((dat1 V c).after 3 t) from by
        unfold Dat.leavesExact; rw [liveAt1_3 t ((hcond1_1 t).mpr h1)], after1_3]
      rw [PhiS1_castSucc V c t, PhiS1_pos V c _ _ h0, accV_pos V c t h0]
      iintro ⟨⟨⟨HS, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [PhiS1_castSucc V c t, PhiS1_pos V c _ _ h0, accV_pos V c t h0]
      iintro ⟨⟨⟨HS, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

theorem flushed1_3 (c : Dev nD) (t : Fin cfg1.N) (hf : (cfg1.win 3).flush t = true) :
    (dat1 V c).flushed 3 t = ((cfg1.win 3).blk t).view.read (Elt F) (out1 (V c main_v12) (V c main_arg6) (V c main_v11)) := by
  have hN : cfg1.N = 8 := N_1
  have h7 : t.val = 7 := by have := (flush1_3 t).mp hf; have := t.isLt; omega
  obtain rfl : t = t1_7 := Fin.ext h7
  show (cfg1.win 3).cut (grid1.coords t1_7) ((dat1 V c).after 3 t1_7) = _
  rw [after1_3]
  have hz' : (fun a => win1_3.index t1_7 a * main_v13.ty.shape.size a) = fun _ => 0 := funext fun a => by fin_cases a <;> decide
  exact (Memref.read_access_unit_zero (Elt F) main_v13 hz' (fun a => by rw [congrFun hz' a]; simp) _).symm

theorem arr1_3 (c : Dev nD) : (dat1 V c).arrAt 3 cfg1.N = out1 (V c main_v12) (V c main_arg6) (V c main_v11) :=
  (dat1 V c).arrAt_eq_of_cover 3 _ (flushed1_3 V c) fun i =>
    ⟨t1_7, (flush1_3 t1_7).mpr rfl, by
      show i ∈ ((View.whole main_v13).slice (win1_3.rect t1_7)).set
      rw [View.set_slice_whole, Rect.mem_set_unit]
      intro a
      have h0 : (i 0 : Nat) < 1 := (i 0).isLt
      have h1 : (i 1 : Nat) < 2048 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 2048 from by decide +kernel]; omega⟩

end Cert.Kernel.Hand

end
-- ==== Proof.K.Reg2.lean ====
/- Region 2: the row times the transposed weight block plus the bias block, per block of 1024 output columns. -/
import proofs.«148525_j50087908606299_1_alg».proof.Proof.Gen.Kernel.Launch
import proofs.«148525_j50087908606299_1_alg».proof.Proof.Gen.Kernel.Skeleton
import proofs.«148525_j50087908606299_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048 := Rect.unit (s := S1x2048) ![0, 0] S1x2048.size inb_S1x2048_S1x2048_0_0
abbrev r2_1 : Rect S1024x2048 := Rect.unit (s := S1024x2048) ![0, 0] S1024x2048.size inb_S1024x2048_S1024x2048_0_0
abbrev r2_2 : Rect S1x1024 := Rect.unit (s := S1x1024) ![0, 0] S1x1024.size inb_S1x1024_S1x1024_0_0

def blk2_3 (x0 : Vec F S1x2048 .f32) (x1 : Vec F S1024x2048 .f32) (x2 : Vec F S1x1024 .f32) : Vec F S1x1024 .f32 :=
  View.canon [⟨r2_2, k2_pay1 (View.ld x0 r2_0) (View.ld x1 r2_1) (View.ld x2 r2_2)⟩]

theorem cover2_3 (p0 : Vec F S1x1024 .f32) (y : S1x1024.Idx) :
    ∃ pc ∈ ([⟨r2_2, p0⟩] : List (View.Piece (Elt F) S1x1024 .f32)), y ∈ pc.1.set :=
  View.cover_of_tiled [⟨r2_2, p0⟩] S1x1024.size (by rfl) y

set_option maxHeartbeats 1000000 in
theorem sound_kernel2 (c : Dev nD) (E : Set ℕ) (i : grid2.Coords)
    (arg1 : Memref sig .tc .vmem S1x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blk2_3 x0 x1 x2)) -∗ K ⟨⟩))
      ⊢ wp frame (wpE (defs₀ (F := F)) Variants.none c none) E (cc2__linear_nk_kernel i arg1 harg1 arg2 harg2 arg3 harg3 arg4 harg4) K := by
  simp only [cc2__linear_nk_kernel_eq_skeleton]; unfold cc2__linear_nk_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def rows2 (a1 : Vec F S6144x2048 .f32) (q : ℕ) (hq : q < 6) : Vec F S1024x2048 .f32 :=
  fun y => a1 (ValueIdx.ix2 (⟨q * 1024 + (y 0).val, by have := ValueIdx.idx2_lt0 y; omega⟩ : Fin 6144) (⟨(y 1).val, ValueIdx.idx2_lt1 y⟩ : Fin 2048))

def cols2 (a2 : Vec F S1x6144 .f32) (q : ℕ) (hq : q < 6) : Vec F S1x1024 .f32 :=
  fun y => a2 (ValueIdx.ix2 (0 : Fin 1) (⟨q * 1024 + (y 1).val, by have := ValueIdx.idx2_lt1 y; omega⟩ : Fin 6144))

theorem rows2_congr (a1 : Vec F S6144x2048 .f32) {q q' : ℕ} (e : q = q') (hq : q < 6) (hq' : q' < 6) : rows2 a1 q hq = rows2 a1 q' hq' := by
  subst e; rfl
theorem cols2_congr (a2 : Vec F S1x6144 .f32) {q q' : ℕ} (e : q = q') (hq : q < 6) (hq' : q' < 6) : cols2 a2 q hq = cols2 a2 q' hq' := by
  subst e; rfl

def out2 (a0 : Vec F S1x2048 .f32) (a1 : Vec F S6144x2048 .f32) (a2 : Vec F S1x6144 .f32) : Vec F S1x6144 .f32 :=
  fun i => k2_pay1 a0 (rows2 a1 ((i 1).val / 1024) (by have := ValueIdx.idx2_lt1 i; omega))
    (cols2 a2 ((i 1).val / 1024) (by have := ValueIdx.idx2_lt1 i; omega))
    (ValueIdx.ix2 (0 : Fin 1) (⟨(i 1).val % 1024, Nat.mod_lt _ (by decide)⟩ : Fin 1024))

theorem out2_apply (a0 : Vec F S1x2048 .f32) (a1 : Vec F S6144x2048 .f32) (a2 : Vec F S1x6144 .f32) (t : Fin 6) (j : Fin 1024) :
    out2 a0 a1 a2 (ValueIdx.ix2 (0 : Fin 1) (⟨t.val * 1024 + j.val, by omega⟩ : Fin 6144))
      = k2_pay1 a0
          (fun y => a1 (ValueIdx.ix2 (⟨t.val * 1024 + (y 0).val, by have := ValueIdx.idx2_lt0 y; omega⟩ : Fin 6144) (⟨(y 1).val, ValueIdx.idx2_lt1 y⟩ : Fin 2048)))
          (fun y => a2 (ValueIdx.ix2 (0 : Fin 1) (⟨t.val * 1024 + (y 1).val, by have := ValueIdx.idx2_lt1 y; omega⟩ : Fin 6144)))
          (ValueIdx.ix2 (0 : Fin 1) j) := by
  have hq : (t.val * 1024 + j.val) / 1024 = t.val := by omega
  have hr : (t.val * 1024 + j.val) % 1024 = j.val := by omega
  show k2_pay1 a0 (rows2 a1 ((t.val * 1024 + j.val) / 1024) _) (cols2 a2 ((t.val * 1024 + j.val) / 1024) _)
      (ValueIdx.ix2 (0 : Fin 1) (⟨(t.val * 1024 + j.val) % 1024, _⟩ : Fin 1024))
    = k2_pay1 a0 (rows2 a1 t.val t.isLt) (cols2 a2 t.val t.isLt) (ValueIdx.ix2 (0 : Fin 1) j)
  rw [rows2_congr a1 hq _ t.isLt, cols2_congr a2 hq _ t.isLt]
  congr 1
  exact congrArg (ValueIdx.ix2 (0 : Fin 1)) (Fin.ext hr)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => blk2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem share2 (c : Dev nD) (w : Fin cfg2.W) : (dat2 V c).share w = fullShare :=
  (dat2 V c).share_full (fun _ => rfl) w
theorem owed2 (c : Dev nD) (t : Fin (cfg2.N + 1)) : (dat2 V c).owed t = 0 := by
  dsimp only [dat2]
theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = blk2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hz2 : (![0, 0] : Fin 2 → Nat) = fun _ => 0 := funext fun a => by fin_cases a <;> rfl

theorem lt_N2 (t : Fin cfg2.N) : t.val < 6 := Nat.lt_of_lt_of_eq t.isLt (show cfg2.N = 6 from N_2)

theorem idx_facts2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

theorem iblk2_0_eq (c : Dev nD) (t : Fin cfg2.N) : (iblk2 V c 0 t : Vec F S1x2048 .f32) = V c main_v13 := by
  obtain ⟨e0, e1, -⟩ := idx_facts2 t
  funext x
  unfold iblk2
  rw [View.read_apply]
  show V c main_v13 _ = V c main_v13 x
  congr 1
  funext a
  apply Fin.ext
  match a with
  | ⟨0, _⟩ => show win2_0.index t (0 : Fin 2) * 1 + 1 * (x 0).val = (x 0).val; rw [e0]; omega
  | ⟨1, _⟩ => show win2_0.index t (1 : Fin 2) * 2048 + 1 * (x 1).val = (x 1).val; rw [e1]; omega

theorem iblk2_1_eq (c : Dev nD) (t : Fin cfg2.N) :
    (iblk2 V c 1 t : Vec F S1024x2048 .f32) = rows2 (V c main_arg8) t.val (lt_N2 t) := by
  obtain ⟨-, -, e2, e3, -⟩ := idx_facts2 t
  funext x
  unfold iblk2 rows2
  rw [View.read_apply]
  show V c main_arg8 _ = V c main_arg8 _
  congr 1
  funext a
  apply Fin.ext
  match a with
  | ⟨0, _⟩ => show win2_1.index t (0 : Fin 2) * 1024 + 1 * (x 0).val = t.val * 1024 + (x 0).val; rw [e2]; omega
  | ⟨1, _⟩ => show win2_1.index t (1 : Fin 2) * 2048 + 1 * (x 1).val = (x 1).val; rw [e3]; omega

theorem iblk2_2_eq (c : Dev nD) (t : Fin cfg2.N) :
    (iblk2 V c 2 t : Vec F S1x1024 .f32) = cols2 (V c main_v14) t.val (lt_N2 t) := by
  obtain ⟨-, -, -, -, e4, e5, -⟩ := idx_facts2 t
  have hx0 : ∀ x : S1x1024.Idx, (x 0).val = 0 := fun x => by have := ValueIdx.idx2_lt0 x; omega
  funext x
  unfold iblk2 cols2
  rw [View.read_apply]
  show V c main_v14 _ = V c main_v14 _
  congr 1
  funext a
  apply Fin.ext
  match a with
  | ⟨0, _⟩ => show win2_2.index t (0 : Fin 2) * 1 + 1 * (x 0).val = 0; rw [e4, hx0 x]
  | ⟨1, _⟩ => show win2_2.index t (1 : Fin 2) * 1024 + 1 * (x 1).val = t.val * 1024 + (x 1).val; rw [e5]; omega

theorem emb2_3 (t : Fin cfg2.N) (j : S1x1024.Idx) :
    ((cfg2.win 3).blk t).view.emb j
      = ValueIdx.ix2 (0 : Fin 1) (⟨t.val * 1024 + (j 1).val, by have := lt_N2 t; have := ValueIdx.idx2_lt1 j; omega⟩ : Fin 6144) := by
  obtain ⟨-, -, -, -, -, -, e6, e7⟩ := idx_facts2 t
  have hj0 : (j 0).val = 0 := by have := ValueIdx.idx2_lt0 j; omega
  funext a
  apply Fin.ext
  match a with
  | ⟨0, _⟩ => show win2_3.index t (0 : Fin 2) * 1 + 1 * (j 0).val = 0; rw [e6, hj0]
  | ⟨1, _⟩ => show win2_3.index t (1 : Fin 2) * 1024 + 1 * (j 1).val = t.val * 1024 + (j 1).val; rw [e7]; omega

theorem flushed2_3_eq (c : Dev nD) (t : Fin cfg2.N) :
    (dat2 V c).flushed 3 t = ((cfg2.win 3).blk t).view.read (Elt F) (out2 (V c main_v13) (V c main_arg8) (V c main_v14)) := by
  show (cfg2.win 3).cut (grid2.coords t) ((dat2 V c).after 3 t) = _
  rw [after2_3]
  unfold blk2_3
  rw [View.canon_unit_zero hz2]
  simp only [View.ld_unit_zero (S := S1x2048) hz2, View.ld_unit_zero (S := S1024x2048) hz2, View.ld_unit_zero (S := S1x1024) hz2]
  rw [iblk2_0_eq, iblk2_1_eq, iblk2_2_eq]
  refine funext fun (j : S1x1024.Idx) => ?_
  show k2_pay1 (V c main_v13) (rows2 (V c main_arg8) t.val (lt_N2 t)) (cols2 (V c main_v14) t.val (lt_N2 t)) j
    = out2 (V c main_v13) (V c main_arg8) (V c main_v14) (((cfg2.win 3).blk t).view.emb j)
  rw [emb2_3 t j, out2_apply _ _ _ ⟨t.val, lt_N2 t⟩ ⟨(j 1).val, ValueIdx.idx2_lt1 j⟩]
  show k2_pay1 (V c main_v13) (rows2 (V c main_arg8) t.val (lt_N2 t)) (cols2 (V c main_v14) t.val (lt_N2 t)) j
    = k2_pay1 (V c main_v13) (rows2 (V c main_arg8) t.val (lt_N2 t)) (cols2 (V c main_v14) t.val (lt_N2 t))
        (ValueIdx.ix2 (0 : Fin 1) (⟨(j 1).val, ValueIdx.idx2_lt1 j⟩ : Fin 1024))
  congr 1
  funext a
  apply Fin.ext
  match a with
  | ⟨0, _⟩ => show (j 0).val = 0; have := ValueIdx.idx2_lt0 j; omega
  | ⟨1, _⟩ => rfl

theorem cover2_arr (i : S1x6144.Idx) : ∃ t : Fin cfg2.N, (cfg2.win 3).flush t = true ∧ i ∈ ((cfg2.win 3).blk t).view.set := by
  have h0 := ValueIdx.idx2_lt0 i
  have h1 := ValueIdx.idx2_lt1 i
  have hN : (i 1).val / 1024 < cfg2.N := by rw [show cfg2.N = 6 from N_2]; omega
  refine ⟨⟨(i 1).val / 1024, hN⟩, flush2_3 _, ?_⟩
  obtain ⟨-, -, -, -, -, -, e6, e7⟩ := idx_facts2 ⟨(i 1).val / 1024, hN⟩
  show i ∈ ((View.whole main_v16).slice (win2_3.rect ⟨(i 1).val / 1024, hN⟩)).set
  rw [View.set_slice_whole, Rect.mem_set_unit]
  intro a
  match a with
  | ⟨0, _⟩ =>
    show win2_3.index ⟨(i 1).val / 1024, hN⟩ (0 : Fin 2) * 1 ≤ (i 0).val ∧ (i 0).val < win2_3.index ⟨(i 1).val / 1024, hN⟩ (0 : Fin 2) * 1 + 1
    rw [e6]; omega
  | ⟨1, _⟩ =>
    show win2_3.index ⟨(i 1).val / 1024, hN⟩ (1 : Fin 2) * 1024 ≤ (i 1).val ∧ (i 1).val < win2_3.index ⟨(i 1).val / 1024, hN⟩ (1 : Fin 2) * 1024 + 1024
    rw [e7]; show (i 1).val / 1024 * 1024 ≤ (i 1).val ∧ (i 1).val < (i 1).val / 1024 * 1024 + 1024; omega

theorem arr2_3 (c : Dev nD) : (dat2 V c).arrAt 3 cfg2.N = out2 (V c main_v13) (V c main_arg8) (V c main_v14) :=
  (dat2 V c).arrAt_eq_of_cover 3 _ (fun t _ => flushed2_3_eq V c t) cover2_arr

theorem recorded2 (c : Dev nD) (t : Fin (cfg2.N + 1)) : (dat2 V c).recorded t = Set.univ := by dsimp only [dat2]

end Cert.Kernel.Hand

end
-- ==== Proof.K.Reg3.lean ====
/- Region 3: the row times the transposed weight block plus the bias block, per block of 1024 output columns. -/
import proofs.«148525_j50087908606299_1_alg».proof.Proof.Gen.Kernel.Launch
import proofs.«148525_j50087908606299_1_alg».proof.Proof.Gen.Kernel.Skeleton
import proofs.«148525_j50087908606299_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x2048 := Rect.unit (s := S1x2048) ![0, 0] S1x2048.size inb_S1x2048_S1x2048_0_0
abbrev r3_1 : Rect S1024x2048 := Rect.unit (s := S1024x2048) ![0, 0] S1024x2048.size inb_S1024x2048_S1024x2048_0_0
abbrev r3_2 : Rect S1x1024 := Rect.unit (s := S1x1024) ![0, 0] S1x1024.size inb_S1x1024_S1x1024_0_0

def blk3_3 (x0 : Vec F S1x2048 .f32) (x1 : Vec F S1024x2048 .f32) (x2 : Vec F S1x1024 .f32) : Vec F S1x1024 .f32 :=
  View.canon [⟨r3_2, k3_pay1 (View.ld x0 r3_0) (View.ld x1 r3_1) (View.ld x2 r3_2)⟩]

theorem cover3_3 (p0 : Vec F S1x1024 .f32) (y : S1x1024.Idx) :
    ∃ pc ∈ ([⟨r3_2, p0⟩] : List (View.Piece (Elt F) S1x1024 .f32)), y ∈ pc.1.set :=
  View.cover_of_tiled [⟨r3_2, p0⟩] S1x1024.size (by rfl) y

set_option maxHeartbeats 1000000 in
theorem sound_kernel3 (c : Dev nD) (E : Set ℕ) (i : grid3.Coords)
    (arg1 : Memref sig .tc .vmem S1x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blk3_3 x0 x1 x2)) -∗ K ⟨⟩))
      ⊢ wp frame (wpE (defs₀ (F := F)) Variants.none c none) E (cc3__linear_nk_kernel i arg1 harg1 arg2 harg2 arg3 harg3 arg4 harg4) K := by
  simp only [cc3__linear_nk_kernel_eq_skeleton]; unfold cc3__linear_nk_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def rows3 (a1 : Vec F S6144x2048 .f32) (q : ℕ) (hq : q < 6) : Vec F S1024x2048 .f32 :=
  fun y => a1 (ValueIdx.ix2 (⟨q * 1024 + (y 0).val, by have := ValueIdx.idx2_lt0 y; omega⟩ : Fin 6144) (⟨(y 1).val, ValueIdx.idx2_lt1 y⟩ : Fin 2048))

def cols3 (a2 : Vec F S1x6144 .f32) (q : ℕ) (hq : q < 6) : Vec F S1x1024 .f32 :=
  fun y => a2 (ValueIdx.ix2 (0 : Fin 1) (⟨q * 1024 + (y 1).val, by have := ValueIdx.idx2_lt1 y; omega⟩ : Fin 6144))

theorem rows3_congr (a1 : Vec F S6144x2048 .f32) {q q' : ℕ} (e : q = q') (hq : q < 6) (hq' : q' < 6) : rows3 a1 q hq = rows3 a1 q' hq' := by
  subst e; rfl
theorem cols3_congr (a2 : Vec F S1x6144 .f32) {q q' : ℕ} (e : q = q') (hq : q < 6) (hq' : q' < 6) : cols3 a2 q hq = cols3 a2 q' hq' := by
  subst e; rfl

def out3 (a0 : Vec F S1x2048 .f32) (a1 : Vec F S6144x2048 .f32) (a2 : Vec F S1x6144 .f32) : Vec F S1x6144 .f32 :=
  fun i => k3_pay1 a0 (rows3 a1 ((i 1).val / 1024) (by have := ValueIdx.idx2_lt1 i; omega))
    (cols3 a2 ((i 1).val / 1024) (by have := ValueIdx.idx2_lt1 i; omega))
    (ValueIdx.ix2 (0 : Fin 1) (⟨(i 1).val % 1024, Nat.mod_lt _ (by decide)⟩ : Fin 1024))

theorem out3_apply (a0 : Vec F S1x2048 .f32) (a1 : Vec F S6144x2048 .f32) (a2 : Vec F S1x6144 .f32) (t : Fin 6) (j : Fin 1024) :
    out3 a0 a1 a2 (ValueIdx.ix2 (0 : Fin 1) (⟨t.val * 1024 + j.val, by omega⟩ : Fin 6144))
      = k3_pay1 a0
          (fun y => a1 (ValueIdx.ix2 (⟨t.val * 1024 + (y 0).val, by have := ValueIdx.idx2_lt0 y; omega⟩ : Fin 6144) (⟨(y 1).val, ValueIdx.idx2_lt1 y⟩ : Fin 2048)))
          (fun y => a2 (ValueIdx.ix2 (0 : Fin 1) (⟨t.val * 1024 + (y 1).val, by have := ValueIdx.idx2_lt1 y; omega⟩ : Fin 6144)))
          (ValueIdx.ix2 (0 : Fin 1) j) := by
  have hq : (t.val * 1024 + j.val) / 1024 = t.val := by omega
  have hr : (t.val * 1024 + j.val) % 1024 = j.val := by omega
  show k3_pay1 a0 (rows3 a1 ((t.val * 1024 + j.val) / 1024) _) (cols3 a2 ((t.val * 1024 + j.val) / 1024) _)
      (ValueIdx.ix2 (0 : Fin 1) (⟨(t.val * 1024 + j.val) % 1024, _⟩ : Fin 1024))
    = k3_pay1 a0 (rows3 a1 t.val t.isLt) (cols3 a2 t.val t.isLt) (ValueIdx.ix2 (0 : Fin 1) j)
  rw [rows3_congr a1 hq _ t.isLt, cols3_congr a2 hq _ t.isLt]
  congr 1
  exact congrArg (ValueIdx.ix2 (0 : Fin 1)) (Fin.ext hr)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => blk3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem share3 (c : Dev nD) (w : Fin cfg3.W) : (dat3 V c).share w = fullShare :=
  (dat3 V c).share_full (fun _ => rfl) w
theorem owed3 (c : Dev nD) (t : Fin (cfg3.N + 1)) : (dat3 V c).owed t = 0 := by
  dsimp only [dat3]
theorem hin3 (c : Dev nD) : Pipeline.ΦA spec3 c ⊢ (dat3 V c).Φ 0 := by
  rw [show (dat3 V c).Φ 0 = Pipeline.ΦA spec3 c from rfl]
theorem hout3 (c : Dev nD) : (dat3 V c).Φ (Fin.last cfg3.N) ⊢ Pipeline.ΦA spec3 c := by
  rw [show (dat3 V c).Φ (Fin.last cfg3.N) = Pipeline.ΦA spec3 c from rfl]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = blk3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hz3 : (![0, 0] : Fin 2 → Nat) = fun _ => 0 := funext fun a => by fin_cases a <;> rfl

theorem lt_N3 (t : Fin cfg3.N) : t.val < 6 := Nat.lt_of_lt_of_eq t.isLt (show cfg3.N = 6 from N_3)

theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

theorem iblk3_0_eq (c : Dev nD) (t : Fin cfg3.N) : (iblk3 V c 0 t : Vec F S1x2048 .f32) = V c main_v7 := by
  obtain ⟨e0, e1, -⟩ := idx_facts3 t
  funext x
  unfold iblk3
  rw [View.read_apply]
  show V c main_v7 _ = V c main_v7 x
  congr 1
  funext a
  apply Fin.ext
  match a with
  | ⟨0, _⟩ => show win3_0.index t (0 : Fin 2) * 1 + 1 * (x 0).val = (x 0).val; rw [e0]; omega
  | ⟨1, _⟩ => show win3_0.index t (1 : Fin 2) * 2048 + 1 * (x 1).val = (x 1).val; rw [e1]; omega

theorem iblk3_1_eq (c : Dev nD) (t : Fin cfg3.N) :
    (iblk3 V c 1 t : Vec F S1024x2048 .f32) = rows3 (V c main_arg10) t.val (lt_N3 t) := by
  obtain ⟨-, -, e2, e3, -⟩ := idx_facts3 t
  funext x
  unfold iblk3 rows3
  rw [View.read_apply]
  show V c main_arg10 _ = V c main_arg10 _
  congr 1
  funext a
  apply Fin.ext
  match a with
  | ⟨0, _⟩ => show win3_1.index t (0 : Fin 2) * 1024 + 1 * (x 0).val = t.val * 1024 + (x 0).val; rw [e2]; omega
  | ⟨1, _⟩ => show win3_1.index t (1 : Fin 2) * 2048 + 1 * (x 1).val = (x 1).val; rw [e3]; omega

theorem iblk3_2_eq (c : Dev nD) (t : Fin cfg3.N) :
    (iblk3 V c 2 t : Vec F S1x1024 .f32) = cols3 (V c main_v15) t.val (lt_N3 t) := by
  obtain ⟨-, -, -, -, e4, e5, -⟩ := idx_facts3 t
  have hx0 : ∀ x : S1x1024.Idx, (x 0).val = 0 := fun x => by have := ValueIdx.idx2_lt0 x; omega
  funext x
  unfold iblk3 cols3
  rw [View.read_apply]
  show V c main_v15 _ = V c main_v15 _
  congr 1
  funext a
  apply Fin.ext
  match a with
  | ⟨0, _⟩ => show win3_2.index t (0 : Fin 2) * 1 + 1 * (x 0).val = 0; rw [e4, hx0 x]
  | ⟨1, _⟩ => show win3_2.index t (1 : Fin 2) * 1024 + 1 * (x 1).val = t.val * 1024 + (x 1).val; rw [e5]; omega

theorem emb3_3 (t : Fin cfg3.N) (j : S1x1024.Idx) :
    ((cfg3.win 3).blk t).view.emb j
      = ValueIdx.ix2 (0 : Fin 1) (⟨t.val * 1024 + (j 1).val, by have := lt_N3 t; have := ValueIdx.idx2_lt1 j; omega⟩ : Fin 6144) := by
  obtain ⟨-, -, -, -, -, -, e6, e7⟩ := idx_facts3 t
  have hj0 : (j 0).val = 0 := by have := ValueIdx.idx2_lt0 j; omega
  funext a
  apply Fin.ext
  match a with
  | ⟨0, _⟩ => show win3_3.index t (0 : Fin 2) * 1 + 1 * (j 0).val = 0; rw [e6, hj0]
  | ⟨1, _⟩ => show win3_3.index t (1 : Fin 2) * 1024 + 1 * (j 1).val = t.val * 1024 + (j 1).val; rw [e7]; omega

theorem flushed3_3_eq (c : Dev nD) (t : Fin cfg3.N) :
    (dat3 V c).flushed 3 t = ((cfg3.win 3).blk t).view.read (Elt F) (out3 (V c main_v7) (V c main_arg10) (V c main_v15)) := by
  show (cfg3.win 3).cut (grid3.coords t) ((dat3 V c).after 3 t) = _
  rw [after3_3]
  unfold blk3_3
  rw [View.canon_unit_zero hz3]
  simp only [View.ld_unit_zero (S := S1x2048) hz3, View.ld_unit_zero (S := S1024x2048) hz3, View.ld_unit_zero (S := S1x1024) hz3]
  rw [iblk3_0_eq, iblk3_1_eq, iblk3_2_eq]
  refine funext fun (j : S1x1024.Idx) => ?_
  show k3_pay1 (V c main_v7) (rows3 (V c main_arg10) t.val (lt_N3 t)) (cols3 (V c main_v15) t.val (lt_N3 t)) j
    = out3 (V c main_v7) (V c main_arg10) (V c main_v15) (((cfg3.win 3).blk t).view.emb j)
  rw [emb3_3 t j, out3_apply _ _ _ ⟨t.val, lt_N3 t⟩ ⟨(j 1).val, ValueIdx.idx2_lt1 j⟩]
  show k3_pay1 (V c main_v7) (rows3 (V c main_arg10) t.val (lt_N3 t)) (cols3 (V c main_v15) t.val (lt_N3 t)) j
    = k3_pay1 (V c main_v7) (rows3 (V c main_arg10) t.val (lt_N3 t)) (cols3 (V c main_v15) t.val (lt_N3 t))
        (ValueIdx.ix2 (0 : Fin 1) (⟨(j 1).val, ValueIdx.idx2_lt1 j⟩ : Fin 1024))
  congr 1
  funext a
  apply Fin.ext
  match a with
  | ⟨0, _⟩ => show (j 0).val = 0; have := ValueIdx.idx2_lt0 j; omega
  | ⟨1, _⟩ => rfl

theorem cover3_arr (i : S1x6144.Idx) : ∃ t : Fin cfg3.N, (cfg3.win 3).flush t = true ∧ i ∈ ((cfg3.win 3).blk t).view.set := by
  have h0 := ValueIdx.idx2_lt0 i
  have h1 := ValueIdx.idx2_lt1 i
  have hN : (i 1).val / 1024 < cfg3.N := by rw [show cfg3.N = 6 from N_3]; omega
  refine ⟨⟨(i 1).val / 1024, hN⟩, flush3_3 _, ?_⟩
  obtain ⟨-, -, -, -, -, -, e6, e7⟩ := idx_facts3 ⟨(i 1).val / 1024, hN⟩
  show i ∈ ((View.whole main_v17).slice (win3_3.rect ⟨(i 1).val / 1024, hN⟩)).set
  rw [View.set_slice_whole, Rect.mem_set_unit]
  intro a
  match a with
  | ⟨0, _⟩ =>
    show win3_3.index ⟨(i 1).val / 1024, hN⟩ (0 : Fin 2) * 1 ≤ (i 0).val ∧ (i 0).val < win3_3.index ⟨(i 1).val / 1024, hN⟩ (0 : Fin 2) * 1 + 1
    rw [e6]; omega
  | ⟨1, _⟩ =>
    show win3_3.index ⟨(i 1).val / 1024, hN⟩ (1 : Fin 2) * 1024 ≤ (i 1).val ∧ (i 1).val < win3_3.index ⟨(i 1).val / 1024, hN⟩ (1 : Fin 2) * 1024 + 1024
    rw [e7]; show (i 1).val / 1024 * 1024 ≤ (i 1).val ∧ (i 1).val < (i 1).val / 1024 * 1024 + 1024; omega

theorem arr3_3 (c : Dev nD) : (dat3 V c).arrAt 3 cfg3.N = out3 (V c main_v7) (V c main_arg10) (V c main_v15) :=
  (dat3 V c).arrAt_eq_of_cover 3 _ (fun t _ => flushed3_3_eq V c t) cover3_arr

theorem recorded3 (c : Dev nD) (t : Fin (cfg3.N + 1)) : (dat3 V c).recorded t = Set.univ := by dsimp only [dat3]

end Cert.Kernel.Hand

end
-- ==== Proof.K.Reg4L.lean ====
/- Region 4 at any float model: the body takes no branch, address or trip count from contents, so it runs to its end whatever they are. -/
import proofs.«148525_j50087908606299_1_alg».proof.Proof.Gen.Kernel.Launch
import proofs.«148525_j50087908606299_1_alg».proof.Proof.Gen.Kernel.Skeleton
import proofs.«148525_j50087908606299_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def rdat4 (c : Dev nD) : RDat τ (Elt F) Unit ℕ (UR sig nD τ) ℕ cfg4 c where
  A w := V c (Pipeline.arrRef spec4 w)
  after _ t := RDat.forgotten t
  Φ _ := Pipeline.ΦA spec4 c
  q _ := fullShare
  owed _ := 0

theorem rA_eq4 (c : Dev nD) (w : Fin cfg4.W) : (rdat4 V c).A w = V c (Pipeline.arrRef spec4 w) := by
  dsimp only [rdat4]
theorem rshare4 (c : Dev nD) (w : Fin cfg4.W) : (rdat4 V c).share w = fullShare := by
  unfold RDat.share; split <;> rfl
theorem rowed4 (c : Dev nD) (t : Fin (cfg4.N + 1)) : (rdat4 V c).owed t = 0 := rfl
theorem rhin4 (c : Dev nD) : Pipeline.ΦA spec4 c ⊢ (rdat4 V c).Φ 0 := .rfl
theorem rhout4 (c : Dev nD) : (rdat4 V c).Φ (Fin.last cfg4.N) ⊢ Pipeline.ΦA spec4 c := .rfl

abbrev rcond4_0 (i : grid4.Coords) : Prop :=
  (Scalar.cmpi .ne (Scalar.extui (Scalar.cmpi .eq (BitVec.ofNat 32 (i 1).val) 0#32)) 0#32) = 1#1

abbrev rcond4_1 (i : grid4.Coords) : Prop := k4_cond2 i = 1#1

theorem rPhiA4_eq (c : Dev nD) :
    (Pipeline.ΦA spec4 c : sProp 𝕄)
      = iprop(iprop(iprop((∃ d, owns (c : Thread nD τ) (Memref.whole cc4_scratch0) fullShare d))
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [owns_whole]; try rfl

set_option maxHeartbeats 1000000 in
theorem rsound_kernel4 (c : Dev nD) (E : Set ℕ) (i : grid4.Coords)
    (arg2 : Memref sig .tc .vmem S1x512 .f32) (harg2 : arg2.IsWhole) (arg3 : Memref sig .tc .vmem S512x8192 .f32) (harg3 : arg3.IsWhole)
    (arg4 : Memref sig .tc .vmem S1x8192 .f32) (harg4 : arg4.IsWhole) (arg5 : Memref sig .tc .vmem S1x8192 .f32) (harg5 : arg5.IsWhole)
    (arg6 : Memref sig .tc .vmem S1x8192 .f32) (harg6 : arg6.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc4__out_proj_kernel i arg2 harg2 arg3 harg3 arg4 harg4 arg5 harg5 arg6 harg6) K := by
  simp only [cc4__out_proj_kernel_eq_skeleton]; unfold cc4__out_proj_kernel_skel
  unfold owns
  iintro ⟨⟨%d2, %f2, -, H2⟩, ⟨%d3, %f3, -, H3⟩, ⟨%d4, %f4, -, H4⟩, ⟨%d5, %f5, -, H5⟩, ⟨%d6, %f6, -, H6⟩, Hk⟩
  by_cases hc0 : rcond4_0 i <;> by_cases hc1 : rcond4_1 i
  all_goals
    sl_exec (disch := first | exact hc0 | exact hc1)
    sl_step
    iapply Hk
    isplitl [H2]
    · iexists _, _; isplitr
      swap; · iexact H2
      ipureintro; rfl
    isplitl [H3]
    · iexists _, _; isplitr
      swap; · iexact H3
      ipureintro; rfl
    isplitl [H4]
    · iexists _, _; isplitr
      swap; · iexact H4
      ipureintro; rfl
    isplitl [H5]
    · iexists _, _; isplitr
      swap; · iexact H5
      ipureintro; rfl
    iexists _, _; isplitr
    swap; · iexact H6
    ipureintro; rfl

def rbodyPre4 (c : Dev nD) (t : Fin cfg4.N) (Y : (w : Fin cfg4.W) → (cfg4.win w).block.Idx → Elt F (cfg4.win w).elt) : sProp 𝕄 :=
  iprop((rdat4 V c).Φ t.castSucc ∗ (rdat4 V c).owesAt () t.castSucc
    ∗ owns (c : Thread nD τ) (st4_0 t) fullShare (Y 0)
    ∗ owns (c : Thread nD τ) (st4_1 t) fullShare (Y 1)
    ∗ owns (c : Thread nD τ) (st4_2 t) fullShare (Y 2)
    ∗ owns (c : Thread nD τ) (st4_3 t) fullShare (Y 3))

def rbodyPost4 (c : Dev nD) (t : Fin cfg4.N) (Y : (w : Fin cfg4.W) → (cfg4.win w).block.Idx → Elt F (cfg4.win w).elt) : sProp 𝕄 :=
  iprop((rdat4 V c).Φ t.succ ∗ (rdat4 V c).owesAt () t.succ
    ∗ (∃ X, ⌜(rdat4 V c).after 0 t (Y 0) X⌝ ∗ owns (c : Thread nD τ) (st4_0 t) fullShare X)
    ∗ (∃ X, ⌜(rdat4 V c).after 1 t (Y 1) X⌝ ∗ owns (c : Thread nD τ) (st4_1 t) fullShare X)
    ∗ (∃ X, ⌜(rdat4 V c).after 2 t (Y 2) X⌝ ∗ owns (c : Thread nD τ) (st4_2 t) fullShare X)
    ∗ (∃ X, ⌜(rdat4 V c).after 3 t (Y 3) X⌝ ∗ owns (c : Thread nD τ) (st4_3 t) fullShare X))

theorem rsound_body4 (c : Dev nD) (t : Fin cfg4.N) (Y : (w : Fin cfg4.W) → (cfg4.win w).block.Idx → Elt F (cfg4.win w).elt) :
    rbodyPre4 V c t Y ⊢ wp frame (wpE (defs₀ (F := F)) Variants.none c none) Set.univ (bodyAt4 t) (fun _ => rbodyPost4 V c t Y) := by
  unfold rbodyPre4 rbodyPost4 bodyAt4
  rw [show (rdat4 V c).Φ t.succ = Pipeline.ΦA spec4 c from rfl,
    show (rdat4 V c).Φ t.castSucc = Pipeline.ΦA spec4 c from rfl,
    show (rdat4 V c).owesAt () t.succ = (rdat4 V c).owesAt () t.castSucc from rfl, rPhiA4_eq]
  iintro ⟨⟨⟨HS, Hrest⟩, Hg⟩, Ho, H0, H1, H2, H3⟩
  iapply (rsound_kernel4 c Set.univ (grid4.coords t) _ _ _ _ _ _ _ _ _ _ _)
  isplitl [H0]; · iexists _; iexact H0
  isplitl [H1]; · iexists _; iexact H1
  isplitl [H2]; · iexists _; iexact H2
  isplitl [H3]; · iexists _; iexact H3
  isplitl [HS]; · iexact HS
  iintro ⟨⟨%X0, H0⟩, ⟨%X1, H1⟩, ⟨%X2, H2⟩, ⟨%X3, H3⟩, HS⟩
  isplitl [HS Hrest Hg]
  · isplitl [HS Hrest]
    · isplitl [HS]; · iexact HS
      iexact Hrest
    iexact Hg
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  iexists X3; isplitr; · ipureintro; trivial
  iexact H3

theorem rbody_obligation4 (c : Dev nD) : (rdat4 (F := F) V c).BodyObligation (defs₀ (F := F)) Variants.none () Set.univ := fun t Y _ => by
  rw [bigSep_W4, bigSep_W4]
  exact rsound_body4 V c t Y

end Cert.Kernel.Hand

end
-- ==== Proof.K.Fold.lean ====
/- The contents of every buffer between the items of @main at any float model; past region 4 its output array is some X. -/
import proofs.«148525_j50087908606299_1_alg».proof.Proof.K.Reg0
import proofs.«148525_j50087908606299_1_alg».proof.Proof.K.Reg1
import proofs.«148525_j50087908606299_1_alg».proof.Proof.K.Reg2
import proofs.«148525_j50087908606299_1_alg».proof.Proof.K.Reg3
import proofs.«148525_j50087908606299_1_alg».proof.Proof.K.Reg4L

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
abbrev W5 : Dev nD → Valuation τ sig (Elt F) := fun c => StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)
abbrev W8 : Dev nD → Valuation τ sig (Elt F) := fun c => StableHlo.after hostOps4 (W7 m c)
abbrev V8 : (c : Dev nD) → (b : Ref sig .tc) → Buf (Elt F) ((c : Thread nD τ).loc b) := fun c b => W8 m c b

abbrev W9 (c : Dev nD) (X : Buf (Elt F) ((c : Thread nD τ).loc main_v47)) : Valuation τ sig (Elt F) :=
  Function.update (W8 m c) (Proc.devRef .tc main_v47) X
abbrev W10 (c : Dev nD) (X : Buf (Elt F) ((c : Thread nD τ).loc main_v47)) : Valuation τ sig (Elt F) :=
  StableHlo.after hostOps5 (W9 m c X)
abbrev W11 (c : Dev nD) (X : Buf (Elt F) ((c : Thread nD τ).loc main_v47)) : Valuation τ sig (Elt F) :=
  StableHlo.after hostOps5_1 (W10 m c X)

abbrev adm : (p : Fin 5) → (pcfgs (F := F) p).Adm := fun p => (cfgs p).toPCfg_adm

def rdats : (p : Fin 5) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toR
  | ⟨3, _⟩ => fun c => (dat3 (V6 m) c).toR
  | ⟨4, _⟩ => fun c => rdat4 (V8 m) c

end Cert.Kernel.Hand

end
-- ==== Proof.K.Run.lean ====
/- The kernel program's frame at any float model: every execution ends, and no item writes an argument array. -/
import proofs.«148525_j50087908606299_1_alg».proof.Proof.K.Fold
import proofs.«148525_j50087908606299_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev frV : Variants := Variants.none
abbrev frL : GSem nD τ sig → Finset Unit := fun _ => ∅
abbrev frLv : GSem nD τ sig → Unit → ℕ := fun _ _ => 0
abbrev frR (c : Dev nD) : sProp 𝕄 := iprop((∃ r, prngReg c r) ∗ ∃ W, owes (c : Thread nD τ) (0 : CellTallies nD τ sig Unit) W)
abbrev frHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ frV frL frLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W frR
theorem fr_mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem bufs_of_arrays {p : Fin 5} (hw : Pipeline.WinFacts (Pipeline.pin (pcfgs (F := F)) adm p).spec)
    (harr : ∀ w, ((Pipeline.pin (pcfgs (F := F)) adm p).spec w).arr.IsWhole) (c : Dev nD)
    (rd : RDat τ (Elt F) Unit ℕ (UR sig nD τ) ℕ (Pipeline.pin (pcfgs (F := F)) adm p) c) (hshare : ∀ w, rd.share w = fullShare)
    (V V' : (b : Ref sig .tc) → Buf (Elt F) ((c.tc : Thread nD τ).loc b))
    (hrest : ∀ b, b ∉ Finset.univ.image (Pipeline.arrRef (Pipeline.pin (pcfgs (F := F)) adm p).spec) → V' b = V b) :
    iprop(rd.arrays (fun w => V' (Pipeline.arrRef (Pipeline.pin (pcfgs (F := F)) adm p).spec w))
        ∗ Pipeline.unscopedRest (Pipeline.pin (pcfgs (F := F)) adm p).spec c V) ⊢ (unscopedBufs c V' : sProp 𝕄) := by
  rw [Pipeline.unscopedBufs_split (Pipeline.pin (pcfgs (F := F)) adm) p hw.arr_unscoped hw.arr_inj c V']
  refine sep_mono (Entails.of_eq ?_) (Entails.of_eq ?_)
  · unfold RDat.arrays
    exact bigSep_congr fun w _ => by rw [(harr w).set_eq_univ, hshare]
  · unfold Pipeline.unscopedRest
    exact bigSep_congr fun b hb => by rw [hrest b (Finset.mem_sdiff.mp hb).2]

theorem W2_keep (c : Dev nD) (b : Ref sig .tc) (h : ∀ w, Pipeline.arrRef spec0 w = b → (cfg0.win w).isOut = false) :
    W2 m c (Proc.devRef .tc b) = W1 m c (Proc.devRef .tc b) := by
  by_cases hb : ∃ w, Pipeline.arrRef spec0 w = b
  · obtain ⟨w, rfl⟩ := hb
    exact (W2_arr m c w).trans (((dat0 (V1 m) c).arrAt_in w (h w rfl) _).trans (A_eq0 (V1 m) c w))
  · exact W2_of_ne m c b fun w e => hb ⟨w, e⟩
theorem W4_keep (c : Dev nD) (b : Ref sig .tc) (h : ∀ w, Pipeline.arrRef spec1 w = b → (cfg1.win w).isOut = false) :
    W4 m c (Proc.devRef .tc b) = W3 m c (Proc.devRef .tc b) := by
  by_cases hb : ∃ w, Pipeline.arrRef spec1 w = b
  · obtain ⟨w, rfl⟩ := hb
    exact (W4_arr m c w).trans (((dat1 (V3 m) c).arrAt_in w (h w rfl) _).trans (A_eq1 (V3 m) c w))
  · exact W4_of_ne m c b fun w e => hb ⟨w, e⟩
theorem W6_keep (c : Dev nD) (b : Ref sig .tc) (h : ∀ w, Pipeline.arrRef spec2 w = b → (cfg2.win w).isOut = false) :
    W6 m c (Proc.devRef .tc b) = W5 m c (Proc.devRef .tc b) := by
  by_cases hb : ∃ w, Pipeline.arrRef spec2 w = b
  · obtain ⟨w, rfl⟩ := hb
    exact (W6_arr m c w).trans (((dat2 (V5 m) c).arrAt_in w (h w rfl) _).trans (A_eq2 (V5 m) c w))
  · exact W6_of_ne m c b fun w e => hb ⟨w, e⟩
theorem W7_keep (c : Dev nD) (b : Ref sig .tc) (h : ∀ w, Pipeline.arrRef spec3 w = b → (cfg3.win w).isOut = false) :
    W7 m c (Proc.devRef .tc b) = W6 m c (Proc.devRef .tc b) := by
  by_cases hb : ∃ w, Pipeline.arrRef spec3 w = b
  · obtain ⟨w, rfl⟩ := hb
    exact (W7_arr m c w).trans (((dat3 (V6 m) c).arrAt_in w (h w rfl) _).trans (A_eq3 (V6 m) c w))
  · exact W7_of_ne m c b fun w e => hb ⟨w, e⟩

theorem W11_keep (c : Dev nD) (X : Buf (Elt F) ((c : Thread nD τ).loc main_v47)) (r : Ref sig .tc)
    (h : r ∉ hostOps0_W ∧ (∀ w, Pipeline.arrRef spec0 w = r → (cfg0.win w).isOut = false)
      ∧ r ∉ hostOps1_W ∧ (∀ w, Pipeline.arrRef spec1 w = r → (cfg1.win w).isOut = false)
      ∧ r ∉ hostOps2_W ∧ (∀ w, Pipeline.arrRef spec2 w = r → (cfg2.win w).isOut = false)
      ∧ (∀ w, Pipeline.arrRef spec3 w = r → (cfg3.win w).isOut = false)
      ∧ r ∉ hostOps4_W ∧ r ≠ main_v47 ∧ r ∉ hostOps5_W ∧ r ∉ hostOps5_1_W) :
    W11 m c X (Proc.devRef .tc r) = m ((c : Thread nD τ).loc r) := by
  obtain ⟨h0, k0, h1, k1, h2, k2, k3, h4, k4, h5, h51⟩ := h
  calc W11 m c X (Proc.devRef .tc r)
    _ = W10 m c X (Proc.devRef .tc r) := StableHlo.after_of_writes_sub hostOps5_1 _ hostOps5_1_writes h51
    _ = W9 m c X (Proc.devRef .tc r) := StableHlo.after_of_writes_sub hostOps5 _ hostOps5_writes h5
    _ = W8 m c (Proc.devRef .tc r) := Function.update_of_ne (StableHlo.devRef_ne_of_ne k4) _ _
    _ = W7 m c (Proc.devRef .tc r) := StableHlo.after_of_writes_sub hostOps4 _ hostOps4_writes h4
    _ = W6 m c (Proc.devRef .tc r) := W7_keep m c r k3
    _ = W5 m c (Proc.devRef .tc r) := W6_keep m c r k2
    _ = W4 m c (Proc.devRef .tc r) := StableHlo.after_of_writes_sub hostOps2 _ hostOps2_writes h2
    _ = W3 m c (Proc.devRef .tc r) := W4_keep m c r k1
    _ = W2 m c (Proc.devRef .tc r) := StableHlo.after_of_writes_sub hostOps1 _ hostOps1_writes h1
    _ = W1 m c (Proc.devRef .tc r) := W2_keep m c r k0
    _ = W0 m c (Proc.devRef .tc r) := StableHlo.after_of_writes_sub hostOps0 _ hostOps0_writes h0
    _ = m ((c : Thread nD τ).loc r) := rfl

theorem arr4_0_ne : Pipeline.arrRef spec4 0 ≠ main_v47 := by decide
theorem arr4_1_ne : Pipeline.arrRef spec4 1 ≠ main_v47 := by decide
theorem arr4_2_ne : Pipeline.arrRef spec4 2 ≠ main_v47 := by decide
theorem arr4_3_eq : Pipeline.arrRef spec4 3 = main_v47 := rfl
theorem win4_facts : Pipeline.WinFacts (Pipeline.pin (pcfgs (F := F)) adm 4).spec := launch4.win
theorem arr4_whole : ∀ w, ((Pipeline.pin (pcfgs (F := F)) adm 4).spec w).arr.IsWhole := launch4.arr_whole
theorem W9_rest (c : Dev nD) (X : Buf (Elt F) ((c : Thread nD τ).loc main_v47)) :
    ∀ b : Ref sig .tc, b ∉ Finset.univ.image (Pipeline.arrRef (Pipeline.pin (pcfgs (F := F)) adm 4).spec) → W9 m c X b = V8 m c b :=
  fun b hb => Function.update_of_ne (StableHlo.devRef_ne_of_ne fun e =>
      hb (Finset.mem_image.mpr ⟨3, Finset.mem_univ _, arr4_3_eq.trans e.symm⟩)) _ _

theorem bufs4 (c : Dev nD) (X : Buf (Elt F) ((c : Thread nD τ).loc main_v47)) :
    iprop((rdat4 (V8 m) c).arrays (fun w => W9 m c X (Proc.devRef .tc (Pipeline.arrRef spec4 w)))
        ∗ Pipeline.unscopedRest (Ix := Unit) (Name := ℕ) (U := UR sig nD τ) (Lvl := ℕ) spec4 c (V8 m c))
      ⊢ (StableHlo.held (c : Thread nD τ) (Pipeline.ucRefs τ sig) (W9 m c X) : sProp 𝕄) := by
  have h := bufs_of_arrays (p := 4) win4_facts arr4_whole c (rdat4 (V8 m) c) (fun w => rshare4 (V8 m) c w)
    (V8 m c) (fun b => W9 m c X b) (W9_rest m c X)
  rw [Pipeline.unscopedBufs_held] at h
  exact h

theorem W9_in (c : Dev nD) (X : Buf (Elt F) ((c : Thread nD τ).loc main_v47)) (w : Fin cfg4.W) (hw : Pipeline.arrRef spec4 w ≠ main_v47)
    (Fw : Buf (Elt F) ((cfg4.win w).arr.view.loc (c.tc : Thread nD τ))) (h : Fw = (rdat4 (V8 m) c).A w) :
    W9 m c X (Proc.devRef .tc (Pipeline.arrRef spec4 w)) = Fw :=
  (Function.update_of_ne (StableHlo.devRef_ne_of_ne hw) _ _).trans (h.trans (rA_eq4 (V8 m) c w)).symm

theorem W9_out (c : Dev nD) (X : Buf (Elt F) ((c : Thread nD τ).loc main_v47)) :
    W9 m c X (Proc.devRef .tc (Pipeline.arrRef spec4 3)) = X := Function.update_self _ _ _

abbrev arrPt4 (c : Dev nD) (w : Fin cfg4.W) (Fw : Buf (Elt F) ((cfg4.win w).arr.view.loc (c.tc : Thread nD τ))) : sProp 𝕄 :=
  (cfg4.win w).arr.view.loc (c.tc : Thread nD τ) ↦[(cfg4.win w).arr.view.set]{(rdat4 (V8 m) c).share w} Fw

theorem reg4_join (c : Dev nD) (X : Buf (Elt F) ((c : Thread nD τ).loc main_v47))
    (F0 : Buf (Elt F) ((cfg4.win 0).arr.view.loc (c.tc : Thread nD τ))) (h0 : F0 = (rdat4 (V8 m) c).A 0)
    (F1 : Buf (Elt F) ((cfg4.win 1).arr.view.loc (c.tc : Thread nD τ))) (h1 : F1 = (rdat4 (V8 m) c).A 1)
    (F2 : Buf (Elt F) ((cfg4.win 2).arr.view.loc (c.tc : Thread nD τ))) (h2 : F2 = (rdat4 (V8 m) c).A 2)
    (F3 : Buf (Elt F) ((cfg4.win 3).arr.view.loc (c.tc : Thread nD τ))) (h3 : W9 m c X (Proc.devRef .tc (Pipeline.arrRef spec4 3)) = F3) :
    iprop((arrPt4 m c 0 F0 ∗ arrPt4 m c 1 F1 ∗ arrPt4 m c 2 F2 ∗ arrPt4 m c 3 F3)
        ∗ Pipeline.unscopedRest (Ix := Unit) (Name := ℕ) (U := UR sig nD τ) (Lvl := ℕ) spec4 c (V8 m c))
      ⊢ (StableHlo.held (c : Thread nD τ) (Pipeline.ucRefs τ sig) (W9 m c X) : sProp 𝕄) := by
  refine BIBase.Entails.trans ?_ (bufs4 m c X)
  refine sep_mono ?_ .rfl
  unfold Pipeline.RDat.arrays
  rw [bigSep_W4]
  refine sep_mono (Entails.of_eq ?_) (sep_mono (Entails.of_eq ?_) (sep_mono (Entails.of_eq ?_) (Entails.of_eq ?_)))
  · exact congrArg (arrPt4 m c 0) (W9_in m c X 0 arr4_0_ne F0 h0).symm
  · exact congrArg (arrPt4 m c 1) (W9_in m c X 1 arr4_1_ne F1 h1).symm
  · exact congrArg (arrPt4 m c 2) (W9_in m c X 2 arr4_2_ne F2 h2).symm
  · exact congrArg (arrPt4 m c 3) h3.symm

theorem reg4_exit (c : Dev nD) :
    iprop((rdat4 (V8 m) c).arraysAt cfg4.N
        ∗ Pipeline.unscopedRest (Ix := Unit) (Name := ℕ) (U := UR sig nD τ) (Lvl := ℕ) spec4 c (V8 m c))
      ⊢ (iprop(∃ X, StableHlo.held (c : Thread nD τ) (Pipeline.ucRefs τ sig) (W9 m c X)) : sProp 𝕄) := by
  unfold Pipeline.RDat.arraysAt
  rw [bigSep_W4]
  iintro ⟨⟨⟨%F0, %h0, H0⟩, ⟨%F1, %h1, H1⟩, ⟨%F2, %h2, H2⟩, ⟨%F3, %h3, H3⟩⟩, Hrest⟩
  rw [(rdat4 (V8 m) c).ArrAt_in 0 rfl] at h0
  rw [(rdat4 (V8 m) c).ArrAt_in 1 rfl] at h1
  rw [(rdat4 (V8 m) c).ArrAt_in 2 rfl] at h2
  iexists F3
  iapply (reg4_join m c F3 F0 h0 F1 h1 F2 h2 F3 (W9_out m c F3))
  isplitr [Hrest]
  · isplitl [H0]; · iexact H0
    isplitl [H1]; · iexact H1
    isplitl [H2]; · iexact H2
    iexact H3
  · iexact Hrest

set_option backward.isDefEq.respectTransparency.types false in
def reg0 : Pipeline.RDat.RegionSeg (pcfgs (F := F)) adm (rdats m) () defs₀ frV frL frLv 0 where
  win := launch0.win.to₀
  block_pos := launch0.block_pos
  stage_whole := launch0.stage_whole
  K := PEmpty
  osem k := k.elim
  ho := Pipeline.OwnSemFacts.none _
  hbody c := (body_obligation0 (V1 m) c).toR
  hwaits := Pipeline.RDat.hwaits_of_owed_zero _ _ _ _ frL frLv 0 fun c t => owed0 (V1 m) c t
  pre c := iprop(StableHlo.held (c : Thread nD τ) (Pipeline.ucRefs τ sig) (W1 m c) ∗ frR c)
  post c := iprop(StableHlo.held (c : Thread nD τ) (Pipeline.ucRefs τ sig) (W2 m c) ∗ frR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      (fun w => share0 (V1 m) c w) (V1 m c) (fun w => A_eq0 (V1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 0 c).owesAt () 0
          = Pipeline.owesWithin c ((dat0 (V1 m) c).owed 0) ((dat0 (V1 m) c).recorded 0 ∪ cfg0.waitPairs ()) from rfl,
        owed0, recorded0]
      unfold Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := bufs_of_arrays (p := 0) launch0.win launch0.arr_whole c (rdats m 0 c) (fun w => share0 (V1 m) c w)
      (V1 m c) (V2 m c) (hrest0 m c)
    rw [Pipeline.unscopedBufs_held] at hjoin
    have hjoin' : iprop((dat0 (V1 m) c).arrays (fun w => V2 m c (Pipeline.arrRef spec0 w))
          ∗ Pipeline.unscopedRest (Ix := Unit) (Name := ℕ) (U := UR sig nD τ) (Lvl := ℕ) spec0 c (V1 m c))
        ⊢ (StableHlo.held (c : Thread nD τ) (Pipeline.ucRefs τ sig) (W2 m c) : sProp 𝕄) := hjoin
    rw [show (rdats m 0 c).arraysAt (Pipeline.pin (pcfgs (F := F)) adm 0).N = (dat0 (V1 m) c).toR.arraysAt cfg0.N from rfl,
      Dat.toR_arraysAt_eq,
      show (fun w => (dat0 (V1 m) c).arrAt w cfg0.N) = (fun w => V2 m c (Pipeline.arrRef spec0 w)) from funext (hF0 m c),
      show (rdats m 0 c).owesAt () (Fin.last (Pipeline.pin (pcfgs (F := F)) adm 0).N)
          = Pipeline.owesWithin c ((dat0 (V1 m) c).owed (Fin.last cfg0.N)) ((dat0 (V1 m) c).recorded (Fin.last cfg0.N) ∪ cfg0.waitPairs ()) from rfl,
      owed0]
    unfold Pipeline.owesWithin
    iintro ⟨Ha, HO, HY, Hrest⟩
    imodintro
    isplitl [Ha Hrest]
    · iapply hjoin'; isplitl [Ha] <;> iassumption
    isplitl [HY]; · iexact HY
    icases HO with ⟨%W, -, HO⟩; iexists W; iexact HO

set_option backward.isDefEq.respectTransparency.types false in
def reg1 : Pipeline.RDat.RegionSeg (pcfgs (F := F)) adm (rdats m) () defs₀ frV frL frLv 1 where
  win := launch1.win.to₀
  block_pos := launch1.block_pos
  stage_whole := launch1.stage_whole
  K := PEmpty
  osem k := k.elim
  ho := Pipeline.OwnSemFacts.none _
  hbody c := (body_obligation1 (V3 m) c).toR
  hwaits := Pipeline.RDat.hwaits_of_owed_zero _ _ _ _ frL frLv 1 fun c t => owed1 (V3 m) c t
  pre c := iprop(StableHlo.held (c : Thread nD τ) (Pipeline.ucRefs τ sig) (W3 m c) ∗ frR c)
  post c := iprop(StableHlo.held (c : Thread nD τ) (Pipeline.ucRefs τ sig) (W4 m c) ∗ frR c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      (fun w => share1 (V3 m) c w) (V3 m c) (fun w => A_eq1 (V3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 1 c).owesAt () 0
          = Pipeline.owesWithin c ((dat1 (V3 m) c).owed 0) ((dat1 (V3 m) c).recorded 0 ∪ cfg1.waitPairs ()) from rfl,
        owed1, recorded1]
      unfold Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := bufs_of_arrays (p := 1) launch1.win launch1.arr_whole c (rdats m 1 c) (fun w => share1 (V3 m) c w)
      (V3 m c) (V4 m c) (hrest1 m c)
    rw [Pipeline.unscopedBufs_held] at hjoin
    have hjoin' : iprop((dat1 (V3 m) c).arrays (fun w => V4 m c (Pipeline.arrRef spec1 w))
          ∗ Pipeline.unscopedRest (Ix := Unit) (Name := ℕ) (U := UR sig nD τ) (Lvl := ℕ) spec1 c (V3 m c))
        ⊢ (StableHlo.held (c : Thread nD τ) (Pipeline.ucRefs τ sig) (W4 m c) : sProp 𝕄) := hjoin
    rw [show (rdats m 1 c).arraysAt (Pipeline.pin (pcfgs (F := F)) adm 1).N = (dat1 (V3 m) c).toR.arraysAt cfg1.N from rfl,
      Dat.toR_arraysAt_eq,
      show (fun w => (dat1 (V3 m) c).arrAt w cfg1.N) = (fun w => V4 m c (Pipeline.arrRef spec1 w)) from funext (hF1 m c),
      show (rdats m 1 c).owesAt () (Fin.last (Pipeline.pin (pcfgs (F := F)) adm 1).N)
          = Pipeline.owesWithin c ((dat1 (V3 m) c).owed (Fin.last cfg1.N)) ((dat1 (V3 m) c).recorded (Fin.last cfg1.N) ∪ cfg1.waitPairs ()) from rfl,
      owed1]
    unfold Pipeline.owesWithin
    iintro ⟨Ha, HO, HY, Hrest⟩
    imodintro
    isplitl [Ha Hrest]
    · iapply hjoin'; isplitl [Ha] <;> iassumption
    isplitl [HY]; · iexact HY
    icases HO with ⟨%W, -, HO⟩; iexists W; iexact HO

set_option backward.isDefEq.respectTransparency.types false in
def reg2 : Pipeline.RDat.RegionSeg (pcfgs (F := F)) adm (rdats m) () defs₀ frV frL frLv 2 where
  win := launch2.win.to₀
  block_pos := launch2.block_pos
  stage_whole := launch2.stage_whole
  K := PEmpty
  osem k := k.elim
  ho := Pipeline.OwnSemFacts.none _
  hbody c := (body_obligation2 (V5 m) c).toR
  hwaits := Pipeline.RDat.hwaits_of_owed_zero _ _ _ _ frL frLv 2 fun c t => owed2 (V5 m) c t
  pre c := iprop(StableHlo.held (c : Thread nD τ) (Pipeline.ucRefs τ sig) (W5 m c) ∗ frR c)
  post c := iprop(StableHlo.held (c : Thread nD τ) (Pipeline.ucRefs τ sig) (W6 m c) ∗ frR c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      (fun w => share2 (V5 m) c w) (V5 m c) (fun w => A_eq2 (V5 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 2 c).owesAt () 0
          = Pipeline.owesWithin c ((dat2 (V5 m) c).owed 0) ((dat2 (V5 m) c).recorded 0 ∪ cfg2.waitPairs ()) from rfl,
        owed2, recorded2]
      unfold Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine (hout2 (V5 m) c).trans ?_
    unfold Pipeline.ΦA
    iintro ⟨Hr, Hp⟩
    isplitl [Hp]; · iexact Hp
    isplitr; · iempintro
    iexact Hr
  hexit c := by
    have hjoin := bufs_of_arrays (p := 2) launch2.win launch2.arr_whole c (rdats m 2 c) (fun w => share2 (V5 m) c w)
      (V5 m c) (V6 m c) (hrest2 m c)
    rw [Pipeline.unscopedBufs_held] at hjoin
    have hjoin' : iprop((dat2 (V5 m) c).arrays (fun w => V6 m c (Pipeline.arrRef spec2 w))
          ∗ Pipeline.unscopedRest (Ix := Unit) (Name := ℕ) (U := UR sig nD τ) (Lvl := ℕ) spec2 c (V5 m c))
        ⊢ (StableHlo.held (c : Thread nD τ) (Pipeline.ucRefs τ sig) (W6 m c) : sProp 𝕄) := hjoin
    rw [show (rdats m 2 c).arraysAt (Pipeline.pin (pcfgs (F := F)) adm 2).N = (dat2 (V5 m) c).toR.arraysAt cfg2.N from rfl,
      Dat.toR_arraysAt_eq,
      show (fun w => (dat2 (V5 m) c).arrAt w cfg2.N) = (fun w => V6 m c (Pipeline.arrRef spec2 w)) from funext (hF2 m c),
      show (rdats m 2 c).owesAt () (Fin.last (Pipeline.pin (pcfgs (F := F)) adm 2).N)
          = Pipeline.owesWithin c ((dat2 (V5 m) c).owed (Fin.last cfg2.N)) ((dat2 (V5 m) c).recorded (Fin.last cfg2.N) ∪ cfg2.waitPairs ()) from rfl,
      owed2]
    unfold Pipeline.owesWithin
    iintro ⟨Ha, HO, HY, Hrest⟩
    imodintro
    isplitl [Ha Hrest]
    · iapply hjoin'; isplitl [Ha] <;> iassumption
    isplitl [HY]; · iexact HY
    icases HO with ⟨%W, -, HO⟩; iexists W; iexact HO

set_option backward.isDefEq.respectTransparency.types false in
def reg3 : Pipeline.RDat.RegionSeg (pcfgs (F := F)) adm (rdats m) () defs₀ frV frL frLv 3 where
  win := launch3.win.to₀
  block_pos := launch3.block_pos
  stage_whole := launch3.stage_whole
  K := PEmpty
  osem k := k.elim
  ho := Pipeline.OwnSemFacts.none _
  hbody c := (body_obligation3 (V6 m) c).toR
  hwaits := Pipeline.RDat.hwaits_of_owed_zero _ _ _ _ frL frLv 3 fun c t => owed3 (V6 m) c t
  pre c := iprop(StableHlo.held (c : Thread nD τ) (Pipeline.ucRefs τ sig) (W6 m c) ∗ frR c)
  post c := iprop(StableHlo.held (c : Thread nD τ) (Pipeline.ucRefs τ sig) (W7 m c) ∗ frR c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.RDat.arrays_of_unscopedBufs (p := 3) (pcfgs (F := F)) adm (rdats m) launch3.win launch3.arr_whole c
      (fun w => share3 (V6 m) c w) (V6 m c) (fun w => A_eq3 (V6 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (rdats m 3 c).owesAt () 0
          = Pipeline.owesWithin c ((dat3 (V6 m) c).owed 0) ((dat3 (V6 m) c).recorded 0 ∪ cfg3.waitPairs ()) from rfl,
        owed3, recorded3]
      unfold Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V6 m) c)
    unfold Pipeline.ΦA
    iintro ⟨Hp, -, Hr⟩
    isplitl [Hr]; · iexact Hr
    iexact Hp
  hout c := by
    rw [Pipeline.ownSems0_none]
    refine (hout3 (V6 m) c).trans ?_
    unfold Pipeline.ΦA
    iintro ⟨Hr, Hp⟩
    isplitl [Hp]; · iexact Hp
    isplitr; · iempintro
    iexact Hr
  hexit c := by
    have hjoin := bufs_of_arrays (p := 3) launch3.win launch3.arr_whole c (rdats m 3 c) (fun w => share3 (V6 m) c w)
      (V6 m c) (V7 m c) (hrest3 m c)
    rw [Pipeline.unscopedBufs_held] at hjoin
    have hjoin' : iprop((dat3 (V6 m) c).arrays (fun w => V7 m c (Pipeline.arrRef spec3 w))
          ∗ Pipeline.unscopedRest (Ix := Unit) (Name := ℕ) (U := UR sig nD τ) (Lvl := ℕ) spec3 c (V6 m c))
        ⊢ (StableHlo.held (c : Thread nD τ) (Pipeline.ucRefs τ sig) (W7 m c) : sProp 𝕄) := hjoin
    rw [show (rdats m 3 c).arraysAt (Pipeline.pin (pcfgs (F := F)) adm 3).N = (dat3 (V6 m) c).toR.arraysAt cfg3.N from rfl,
      Dat.toR_arraysAt_eq,
      show (fun w => (dat3 (V6 m) c).arrAt w cfg3.N) = (fun w => V7 m c (Pipeline.arrRef spec3 w)) from funext (hF3 m c),
      show (rdats m 3 c).owesAt () (Fin.last (Pipeline.pin (pcfgs (F := F)) adm 3).N)
          = Pipeline.owesWithin c ((dat3 (V6 m) c).owed (Fin.last cfg3.N)) ((dat3 (V6 m) c).recorded (Fin.last cfg3.N) ∪ cfg3.waitPairs ()) from rfl,
      owed3]
    unfold Pipeline.owesWithin
    iintro ⟨Ha, HO, HY, Hrest⟩
    imodintro
    isplitl [Ha Hrest]
    · iapply hjoin'; isplitl [Ha] <;> iassumption
    isplitl [HY]; · iexact HY
    icases HO with ⟨%W, -, HO⟩; iexists W; iexact HO

set_option backward.isDefEq.respectTransparency.types false in
def reg4 : Pipeline.RDat.RegionSeg (pcfgs (F := F)) adm (rdats m) () defs₀ frV frL frLv 4 where
  win := launch4.win.to₀
  block_pos := launch4.block_pos
  stage_whole := launch4.stage_whole
  K := PEmpty
  osem k := k.elim
  ho := Pipeline.OwnSemFacts.none _
  hbody c := rbody_obligation4 (V8 m) c
  hwaits := Pipeline.RDat.hwaits_of_owed_zero _ _ _ _ frL frLv 4 fun c t => rowed4 (V8 m) c t
  pre c := iprop(StableHlo.held (c : Thread nD τ) (Pipeline.ucRefs τ sig) (W8 m c) ∗ frR c)
  post c := iprop((∃ X, StableHlo.held (c : Thread nD τ) (Pipeline.ucRefs τ sig) (W9 m c X)) ∗ frR c)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.RDat.arrays_of_unscopedBufs (p := 4) (pcfgs (F := F)) adm (rdats m) launch4.win launch4.arr_whole c
      (fun w => rshare4 (V8 m) c w) (V8 m c) (fun w => rA_eq4 (V8 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (rhin4 (V8 m) c)
    unfold Pipeline.ΦA
    iintro ⟨Hp, -, Hr⟩
    isplitl [Hr]; · iexact Hr
    iexact Hp
  hout c := by
    rw [Pipeline.ownSems0_none]
    refine (rhout4 (V8 m) c).trans ?_
    unfold Pipeline.ΦA
    iintro ⟨Hr, Hp⟩
    isplitl [Hp]; · iexact Hp
    isplitr; · iempintro
    iexact Hr
  hexit c := by
    rw [show (rdats m 4 c).arraysAt (Pipeline.pin (pcfgs (F := F)) adm 4).N = (rdat4 (V8 m) c).arraysAt cfg4.N from rfl]
    iintro ⟨Ha, HO, HY, Hrest⟩
    imodintro
    isplitl [Ha Hrest]
    · iapply (reg4_exit m c); isplitl [Ha] <;> iassumption
    isplitl [HY]; · iexact HY
    unfold Pipeline.RDat.owesAt Pipeline.owesWithin
    icases HO with ⟨%W, -, HO⟩; iexists W; iexact HO

set_option backward.isDefEq.respectTransparency.types false in
def frHsegX (ops : List (HloOp τ sig (Elt F))) (hsub : ops.Forall fun op => op.bufs ⊆ StableHlo.tcRefs τ sig)
    (hfresh : ops.Forall fun op => op.fresh = ∅)
    (W : (c : Dev nD) → Buf (Elt F) ((c : Thread nD τ).loc main_v47) → Valuation τ sig (Elt F)) :
    Pipeline.HostSeg (Name := ℕ) (U := UR sig nD τ) (pcfgs (F := F)) defs₀ frV frL frLv where
  prog := StableHlo.seq ops
  pre c := iprop((∃ X, StableHlo.held (c : Thread nD τ) (Pipeline.ucRefs τ sig) (W c X)) ∗ frR c)
  post c := iprop((∃ X, StableHlo.held (c : Thread nD τ) (Pipeline.ucRefs τ sig) (StableHlo.after ops (W c X))) ∗ frR c)
  run c {β} k K := by
    iintro ⟨Hk, Hbd, ⟨⟨%X, Hh⟩, HR⟩, -⟩
    have hseq := StableHlo.wp_seq (defs := Pipeline.defs (pcfgs (F := F)) defs₀) (Variants.lift frV) none Set.univ c (Pipeline.ucRefs τ sig) k (K := K) ops
      (fun op h => Pipeline.sub_ucRefs op ((List.forall_iff_forall_mem.mp hsub) op h))
      (fun op h => (List.forall_iff_forall_mem.mp hfresh) op h) (W c X)
    iapply hseq $$ [Hbd Hh]
    · isplitl [Hbd] <;> iassumption
    iintro ⟨Hbd, Hh⟩
    iapply Hk
    isplitl [Hbd]; · iexact Hbd
    isplitl [Hh]; · iexists X; iexact Hh
    iexact HR

abbrev segs : List (Pipeline.RDat.Seg (pcfgs (F := F)) adm (rdats m) () defs₀ frV frL frLv) :=
  [ .host (frHseg hostOps0 hostOps0_sub hostOps0_fresh (W0 m)),
    .region (reg0 m),
    .host (frHseg hostOps1 hostOps1_sub hostOps1_fresh (W2 m)),
    .region (reg1 m),
    .host (frHseg hostOps2 hostOps2_sub hostOps2_fresh (W4 m)),
    .region (reg2 m),
    .region (reg3 m),
    .host (frHseg hostOps4 hostOps4_sub hostOps4_fresh (W7 m)),
    .region (reg4 m),
    .host (frHsegX hostOps5 hostOps5_sub hostOps5_fresh (W9 m)),
    .host (frHsegX hostOps5_1 hostOps5_1_sub hostOps5_1_fresh (W10 m)) ]

abbrev frTn (c : Dev nD) : sProp 𝕄 :=
  iprop((∃ X, StableHlo.held (c : Thread nD τ) (Pipeline.ucRefs τ sig) (W11 m c X)) ∗ ∃ r, prngReg c r)

set_option backward.isDefEq.respectTransparency.types false in
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.RDat.θ_run_regions_kit (pcfgs (F := F)) adm (rdats m) () cellOf_inj emb₁ defs₀ frV frL frLv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()),
          StableHlo.seq hostOps5,
          StableHlo.seq hostOps5_1 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ frR c)) (Tₙ := frTn m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop((∃ X, StableHlo.held (c : Thread nD τ) (Pipeline.ucRefs τ sig) (W11 m c X)) ∗ frR c)
          ⊢ iprop(frTn m c ∗ ∃ W, owes (c.tc : Thread nD τ) (0 : CellTallies nD τ sig Unit) W)
        iintro ⟨Hh, Hp, HO⟩
        isplitr [HO]
        · isplitl [Hh]; · iexact Hh
          iexact Hp
        · iexact HO⟩)
    (hinit := by
      refine Pipeline.initEach frL frLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13))
    (hfin := fun c s' => by
      iintro ⟨⟨⟨%X, Hh⟩, -⟩, HSI⟩
      unfold StableHlo.held
      ihave Hr := (pointsTo_read_all (Pipeline.ucRefs τ sig) (fun b => ((c : Thread nD τ).1, b)) (W11 m c X) s') $$ [Hh HSI]
      · isplitl [Hh] <;> iassumption
      icases Hr with ⟨%h, HSI⟩
      imodintro
      isplitr
      · ipureintro
        exact ⟨(h _ (fr_mem_uc main_arg0 (by decide))).trans (W11_keep m c X main_arg0 (by decide)),
          (h _ (fr_mem_uc main_arg1 (by decide))).trans (W11_keep m c X main_arg1 (by decide)),
          (h _ (fr_mem_uc main_arg2 (by decide))).trans (W11_keep m c X main_arg2 (by decide)),
          (h _ (fr_mem_uc main_arg3 (by decide))).trans (W11_keep m c X main_arg3 (by decide)),
          (h _ (fr_mem_uc main_arg4 (by decide))).trans (W11_keep m c X main_arg4 (by decide)),
          (h _ (fr_mem_uc main_arg5 (by decide))).trans (W11_keep m c X main_arg5 (by decide)),
          (h _ (fr_mem_uc main_arg6 (by decide))).trans (W11_keep m c X main_arg6 (by decide)),
          (h _ (fr_mem_uc main_arg7 (by decide))).trans (W11_keep m c X main_arg7 (by decide)),
          (h _ (fr_mem_uc main_arg8 (by decide))).trans (W11_keep m c X main_arg8 (by decide)),
          (h _ (fr_mem_uc main_arg9 (by decide))).trans (W11_keep m c X main_arg9 (by decide)),
          (h _ (fr_mem_uc main_arg10 (by decide))).trans (W11_keep m c X main_arg10 (by decide)),
          (h _ (fr_mem_uc main_arg11 (by decide))).trans (W11_keep m c X main_arg11 (by decide)),
          (h _ (fr_mem_uc main_arg12 (by decide))).trans (W11_keep m c X main_arg12 (by decide)),
          (h _ (fr_mem_uc main_arg13 (by decide))).trans (W11_keep m c X main_arg13 (by decide))⟩
      · iexact HSI)
    (hQ := fun _ h => h)

end Cert.Kernel.Hand

end
-- ==== Proof.KI.Reg0.lean ====
/- Region 0: the attention weights and the context row, one grid point. -/
import proofs.«148525_j50087908606299_1_alg».proof.Proof.Gen.KernelIdeal.Launch
import proofs.«148525_j50087908606299_1_alg».proof.Proof.Gen.KernelIdeal.Skeleton
import proofs.«148525_j50087908606299_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x4096 := Rect.unit (s := S1x4096) ![0, 0] S1x4096.size inb_S1x4096_S1x4096_0_0
abbrev r0_1 : Rect S4096x100 := Rect.unit (s := S4096x100) ![0, 0] S4096x100.size inb_S4096x100_S4096x100_0_0
abbrev r0_2 : Rect S1x100 := Rect.unit (s := S1x100) ![0, 0] S1x100.size inb_S1x100_S1x100_0_0
abbrev r0_3 : Rect S100x2048 := Rect.unit (s := S100x2048) ![0, 0] S100x2048.size inb_S100x2048_S100x2048_0_0
abbrev r0_4 : Rect S1x2048 := Rect.unit (s := S1x2048) ![0, 0] S1x2048.size inb_S1x2048_S1x2048_0_0
abbrev r0_5 : Rect S1x100 := Rect.unit (s := S1x100) ![0, 0] S1x100.size inb_S1x100_S1x100_0_0

def bout0_4 (x0 : Vec F S1x4096 .f32) (x1 : Vec F S4096x100 .f32) (x2 : Vec F S1x100 .f32) (x3 : Vec F S100x2048 .f32) : Vec F S1x2048 .f32 :=
  View.canon [⟨r0_4, k0_pay2 (View.ld x0 r0_0) (View.ld x1 r0_1) (View.ld x2 r0_2) (View.ld x3 r0_3)⟩]

def bout0_5 (x0 : Vec F S1x4096 .f32) (x1 : Vec F S4096x100 .f32) (x2 : Vec F S1x100 .f32) : Vec F S1x100 .f32 :=
  View.canon [⟨r0_5, k0_pay1 (View.ld x0 r0_0) (View.ld x1 r0_1) (View.ld x2 r0_2)⟩]

theorem cover0_4 (p0 : Vec F S1x2048 .f32) (y : S1x2048.Idx) :
    ∃ pc ∈ ([⟨r0_4, p0⟩] : List (View.Piece (Elt F) S1x2048 .f32)), y ∈ pc.1.set :=
  View.cover_of_tiled [⟨r0_4, p0⟩] S1x2048.size (by rfl) y

theorem cover0_5 (p0 : Vec F S1x100 .f32) (y : S1x100.Idx) :
    ∃ pc ∈ ([⟨r0_5, p0⟩] : List (View.Piece (Elt F) S1x100 .f32)), y ∈ pc.1.set :=
  View.cover_of_tiled [⟨r0_5, p0⟩] S1x100.size (by rfl) y

set_option maxHeartbeats 1000000 in
theorem sound_kernel0 (c : Dev nD) (E : Set ℕ) (i : grid0.Coords)
    (arg1 : Memref sig .tc .vmem S1x4096 .f32) (harg1 : arg1.IsWhole) (arg2 : Memref sig .tc .vmem S4096x100 .f32) (harg2 : arg2.IsWhole)
    (arg3 : Memref sig .tc .vmem S1x100 .f32) (harg3 : arg3.IsWhole) (arg4 : Memref sig .tc .vmem S100x2048 .f32) (harg4 : arg4.IsWhole)
    (arg5 : Memref sig .tc .vmem S1x2048 .f32) (harg5 : arg5.IsWhole) (arg6 : Memref sig .tc .vmem S1x100 .f32) (harg6 : arg6.IsWhole)
    (x0 : Vec F S1x4096 .f32) (x1 : Vec F S4096x100 .f32) (x2 : Vec F S1x100 .f32) (x3 : Vec F S100x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (bout0_4 x0 x1 x2 x3) ∗ owns (c : Thread nD τ) arg6 fullShare (bout0_5 x0 x1 x2)) -∗ K ⟨⟩))
      ⊢ wp frame (wpE (defs₀ (F := F)) Variants.none c none) E (cc0__attn_kernel i arg1 harg1 arg2 harg2 arg3 harg3 arg4 harg4 arg5 harg5 arg6 harg6) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => bout0_4 (iblk0 V c 0 t) (iblk0 V c 1 t) (iblk0 V c 2 t) (iblk0 V c 3 t)
    | ⟨5, _⟩ => bout0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare := by
  unfold Dat.share; dsimp only [dat0]; split <;> rfl

theorem owed0 (c : Dev nD) (t : Fin (cfg0.N + 1)) : (dat0 V c).owed t = 0 := by
  dsimp only [dat0]

theorem hin0 (c : Dev nD) : Pipeline.ΦA spec0 c ⊢ (dat0 V c).Φ 0 := by
  dsimp only [dat0]; exact Entails.refl _

theorem hout0 (c : Dev nD) : (dat0 V c).Φ (Fin.last cfg0.N) ⊢ Pipeline.ΦA spec0 c := by
  dsimp only [dat0]; exact Entails.refl _

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = bout0_4 (iblk0 V c 0 t) (iblk0 V c 1 t) (iblk0 V c 2 t) (iblk0 V c 3 t) := by dsimp only [dat0]
theorem after0_5 (c : Dev nD) (t : Fin cfg0.N) : (dat0 V c).after 5 t = bout0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

def out0_4 (a0 : Vec F S1x4096 .f32) (a1 : Vec F S4096x100 .f32) (a2 : Vec F S1x100 .f32) (a3 : Vec F S100x2048 .f32) : Vec F S1x2048 .f32 :=
  k0_pay2 a0 a1 a2 a3

def out0_5 (a0 : Vec F S1x4096 .f32) (a1 : Vec F S4096x100 .f32) (a2 : Vec F S1x100 .f32) (a3 : Vec F S100x2048 .f32) : Vec F S1x100 .f32 :=
  k0_pay1 a0 a1 a2

theorem zero2 : (![0, 0] : Fin 2 → Nat) = fun _ => 0 := by funext a; fin_cases a <;> rfl

theorem bout0_4_eq (x0 : Vec F S1x4096 .f32) (x1 : Vec F S4096x100 .f32) (x2 : Vec F S1x100 .f32) (x3 : Vec F S100x2048 .f32) :
    bout0_4 x0 x1 x2 x3 = k0_pay2 x0 x1 x2 x3 := by
  unfold bout0_4
  rw [View.canon_unit_zero zero2, View.ld_unit_zero zero2 inb_S1x4096_S1x4096_0_0 x0, View.ld_unit_zero zero2 inb_S4096x100_S4096x100_0_0 x1,
    View.ld_unit_zero zero2 inb_S1x100_S1x100_0_0 x2, View.ld_unit_zero zero2 inb_S100x2048_S100x2048_0_0 x3]

theorem bout0_5_eq (x0 : Vec F S1x4096 .f32) (x1 : Vec F S4096x100 .f32) (x2 : Vec F S1x100 .f32) :
    bout0_5 x0 x1 x2 = k0_pay1 x0 x1 x2 := by
  unfold bout0_5
  rw [View.canon_unit_zero zero2, View.ld_unit_zero zero2 inb_S1x4096_S1x4096_0_0 x0, View.ld_unit_zero zero2 inb_S4096x100_S4096x100_0_0 x1,
    View.ld_unit_zero zero2 inb_S1x100_S1x100_0_0 x2]

theorem idx0_0 : ∀ (t : Fin cfg0.N) (a : Fin 2), (cfg0.win 0).index t a = 0 :=
  (by decide +kernel : ∀ (t : Fin grid0.N) (a : Fin 2), win0_0.index t a = 0)
theorem idx0_1 : ∀ (t : Fin cfg0.N) (a : Fin 2), (cfg0.win 1).index t a = 0 :=
  (by decide +kernel : ∀ (t : Fin grid0.N) (a : Fin 2), win0_1.index t a = 0)
theorem idx0_2 : ∀ (t : Fin cfg0.N) (a : Fin 2), (cfg0.win 2).index t a = 0 :=
  (by decide +kernel : ∀ (t : Fin grid0.N) (a : Fin 2), win0_2.index t a = 0)
theorem idx0_3 : ∀ (t : Fin cfg0.N) (a : Fin 2), (cfg0.win 3).index t a = 0 :=
  (by decide +kernel : ∀ (t : Fin grid0.N) (a : Fin 2), win0_3.index t a = 0)
theorem idx0_4 : ∀ (t : Fin cfg0.N) (a : Fin 2), (cfg0.win 4).index t a = 0 :=
  (by decide +kernel : ∀ (t : Fin grid0.N) (a : Fin 2), win0_4.index t a = 0)
theorem idx0_5 : ∀ (t : Fin cfg0.N) (a : Fin 2), (cfg0.win 5).index t a = 0 :=
  (by decide +kernel : ∀ (t : Fin grid0.N) (a : Fin 2), win0_5.index t a = 0)

theorem emb0_0 (t : Fin cfg0.N) (y : ((cfg0.win 0).xblock (cfg0.grid.coords t)).Idx) :
    ((cfg0.win 0).blk t).view.emb y = y := by
  funext a; apply Fin.ext
  exact Window.rect_emb_val_of_index_zero (cfg0.win 0) t a (idx0_0 t a) y

theorem emb0_1 (t : Fin cfg0.N) (y : ((cfg0.win 1).xblock (cfg0.grid.coords t)).Idx) :
    ((cfg0.win 1).blk t).view.emb y = y := by
  funext a; apply Fin.ext
  exact Window.rect_emb_val_of_index_zero (cfg0.win 1) t a (idx0_1 t a) y

theorem emb0_2 (t : Fin cfg0.N) (y : ((cfg0.win 2).xblock (cfg0.grid.coords t)).Idx) :
    ((cfg0.win 2).blk t).view.emb y = y := by
  funext a; apply Fin.ext
  exact Window.rect_emb_val_of_index_zero (cfg0.win 2) t a (idx0_2 t a) y

theorem emb0_3 (t : Fin cfg0.N) (y : ((cfg0.win 3).xblock (cfg0.grid.coords t)).Idx) :
    ((cfg0.win 3).blk t).view.emb y = y := by
  funext a; apply Fin.ext
  exact Window.rect_emb_val_of_index_zero (cfg0.win 3) t a (idx0_3 t a) y

theorem emb0_4 (t : Fin cfg0.N) (y : ((cfg0.win 4).xblock (cfg0.grid.coords t)).Idx) :
    ((cfg0.win 4).blk t).view.emb y = y := by
  funext a; apply Fin.ext
  exact Window.rect_emb_val_of_index_zero (cfg0.win 4) t a (idx0_4 t a) y

theorem emb0_5 (t : Fin cfg0.N) (y : ((cfg0.win 5).xblock (cfg0.grid.coords t)).Idx) :
    ((cfg0.win 5).blk t).view.emb y = y := by
  funext a; apply Fin.ext
  exact Window.rect_emb_val_of_index_zero (cfg0.win 5) t a (idx0_5 t a) y

theorem iblk0_0_eq (c : Dev nD) (t : Fin cfg0.N) : iblk0 V c 0 t = V c main_v9 := by
  funext y; unfold iblk0; rw [View.read_apply, emb0_0]; rfl

theorem iblk0_1_eq (c : Dev nD) (t : Fin cfg0.N) : iblk0 V c 1 t = V c main_arg4 := by
  funext y; unfold iblk0; rw [View.read_apply, emb0_1]; rfl

theorem iblk0_2_eq (c : Dev nD) (t : Fin cfg0.N) : iblk0 V c 2 t = V c main_v8 := by
  funext y; unfold iblk0; rw [View.read_apply, emb0_2]; rfl

theorem iblk0_3_eq (c : Dev nD) (t : Fin cfg0.N) : iblk0 V c 3 t = V c main_arg2 := by
  funext y; unfold iblk0; rw [View.read_apply, emb0_3]; rfl

theorem one_point (t t' : Fin cfg0.N) : t = t' := (fin_N0 t).trans (fin_N0 t').symm

theorem arr0_4 (c : Dev nD) : (dat0 V c).arrAt 4 cfg0.N = out0_4 (V c main_v9) (V c main_arg4) (V c main_v8) (V c main_arg2) := by
  funext j
  have h := (dat0 V c).arrAt_emb_eq_flushed 4 (fun t t' _ _ hne => absurd (one_point t t') hne) t0_0 (flush0_4 t0_0) j
  rw [emb0_4] at h
  rw [h]
  show (dat0 V c).after 4 t0_0 j = _
  rw [after0_4, bout0_4_eq, iblk0_0_eq, iblk0_1_eq, iblk0_2_eq, iblk0_3_eq]
  rfl

theorem arr0_5 (c : Dev nD) : (dat0 V c).arrAt 5 cfg0.N = out0_5 (V c main_v9) (V c main_arg4) (V c main_v8) (V c main_arg2) := by
  funext j
  have h := (dat0 V c).arrAt_emb_eq_flushed 5 (fun t t' _ _ hne => absurd (one_point t t') hne) t0_0 (flush0_5 t0_0) j
  rw [emb0_5] at h
  rw [h]
  show (dat0 V c).after 5 t0_0 j = _
  rw [after0_5, bout0_5_eq, iblk0_0_eq, iblk0_1_eq, iblk0_2_eq]
  rfl

theorem recorded0 (c : Dev nD) (t : Fin (cfg0.N + 1)) : (dat0 V c).recorded t = Set.univ := by dsimp only [dat0]

end Cert.KernelIdeal.Hand

end
-- ==== Proof.KI.Reg1.lean ====
/- Region 1: a row times a matrix plus bias, accumulated over eight blocks of the contracted axis. -/
import proofs.«148525_j50087908606299_1_alg».proof.Proof.Gen.KernelIdeal.Launch
import proofs.«148525_j50087908606299_1_alg».proof.Proof.Gen.KernelIdeal.Skeleton
import proofs.«148525_j50087908606299_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def xblk1 (a0 : Vec F S1x4096 .f32) (t : Fin cfg1.N) : Vec F S1x512 .f32 := (win1_0.blk t).view.read (Elt F) a0
def wblk1 (a1 : Vec F S4096x2048 .f32) (t : Fin cfg1.N) : Vec F S512x2048 .f32 := (win1_1.blk t).view.read (Elt F) a1
def bblk1 (a2 : Vec F S1x2048 .f32) (t : Fin cfg1.N) : Vec F S1x2048 .f32 := (win1_2.blk t).view.read (Elt F) a2

def acc1 (a0 : Vec F S1x4096 .f32) (a1 : Vec F S4096x2048 .f32) (a2 : Vec F S1x2048 .f32) : (n : ℕ) → n < cfg1.N → Vec F S1x2048 .f32
  | 0, h => k1_pay2 (xblk1 a0 ⟨0, h⟩) (wblk1 a1 ⟨0, h⟩) (k1_pay1 (bblk1 a2 ⟨0, h⟩))
  | n + 1, h => k1_pay2 (xblk1 a0 ⟨n + 1, h⟩) (wblk1 a1 ⟨n + 1, h⟩) (acc1 a0 a1 a2 n (Nat.lt_of_succ_lt h))

theorem lt7 : 7 < cfg1.N := by rw [show cfg1.N = 8 from N_1]; decide

def out1 (a0 : Vec F S1x4096 .f32) (a1 : Vec F S4096x2048 .f32) (a2 : Vec F S1x2048 .f32) : Vec F S1x2048 .f32 :=
  acc1 a0 a1 a2 7 lt7

theorem acc1_zero (a0 : Vec F S1x4096 .f32) (a1 : Vec F S4096x2048 .f32) (a2 : Vec F S1x2048 .f32) (h : 0 < cfg1.N) :
    acc1 a0 a1 a2 0 h = k1_pay2 (xblk1 a0 ⟨0, h⟩) (wblk1 a1 ⟨0, h⟩) (k1_pay1 (bblk1 a2 ⟨0, h⟩)) := rfl
theorem acc1_succ (a0 : Vec F S1x4096 .f32) (a1 : Vec F S4096x2048 .f32) (a2 : Vec F S1x2048 .f32) (n : ℕ) (h : n + 1 < cfg1.N) :
    acc1 a0 a1 a2 (n + 1) h = k1_pay2 (xblk1 a0 ⟨n + 1, h⟩) (wblk1 a1 ⟨n + 1, h⟩) (acc1 a0 a1 a2 n (Nat.lt_of_succ_lt h)) := rfl

theorem acc1_pos (a0 : Vec F S1x4096 .f32) (a1 : Vec F S4096x2048 .f32) (a2 : Vec F S1x2048 .f32) (t : Fin cfg1.N) (ht : t.val ≠ 0) :
    acc1 a0 a1 a2 t.val t.isLt = k1_pay2 (xblk1 a0 t) (wblk1 a1 t) (acc1 a0 a1 a2 (t.val - 1) (Nat.lt_of_le_of_lt (Nat.sub_le _ _) t.isLt)) := by
  obtain ⟨n, hn⟩ := t
  cases n with
  | zero => exact absurd rfl ht
  | succ n => rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev accV (c : Dev nD) (n : ℕ) (h : n < cfg1.N) : Vec F S1x2048 .f32 := acc1 (V c main_v12) (V c main_arg6) (V c main_v11) n h

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 7 :=
  (by decide +kernel : ∀ t : Fin grid1.N, cond1_1 (grid1.coords t) ↔ t.val = 7)

theorem hz1 : (![0, 0] : Fin 2 → Nat) = fun _ => 0 := funext fun a => by fin_cases a <;> rfl

set_option maxHeartbeats 1000000 in
theorem sound_kernel1_A (c : Dev nD) (E : Set ℕ) (i : grid1.Coords)
    (arg1 : Memref sig .tc .vmem S1x512 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (hc0 : cond1_0 i) (hc1 : ¬cond1_1 i)
    (x : Vec F S1x512 .f32) (w : Vec F S512x2048 .f32) (b : Vec F S1x2048 .f32) (o : Vec F S1x2048 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare o ∗ (∃ d, owns (c : Thread nD τ) arg5 fullShare d)
        ∗ (iprop(owns (c : Thread nD τ) arg1 fullShare x ∗ owns (c : Thread nD τ) arg2 fullShare w ∗ owns (c : Thread nD τ) arg3 fullShare b
            ∗ owns (c : Thread nD τ) arg4 fullShare o ∗ owns (c : Thread nD τ) arg5 fullShare (k1_pay2 x w (k1_pay1 b))) -∗ K ⟨⟩))
      ⊢ wp frame (wpE (defs₀ (F := F)) Variants.none c none) E (cc1__comb_kernel i arg1 harg1 arg2 harg2 arg3 harg3 arg4 harg4 arg5 harg5) K := by
  simp only [cc1__comb_kernel_eq_skeleton]; unfold cc1__comb_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hz1 inb_S1x2048_S1x2048_0_0 y⟩)]
  rw [View.canon_cons_unit_zero (S := S1x2048) hz1, View.readCov_unit_zero (S := S1x2048) _ hz1]
  simp only [View.readAt_eq_ld, View.ld_unit_zero (S := S1x512) hz1, View.ld_unit_zero (S := S512x2048) hz1, View.ld_unit_zero (S := S1x2048) hz1]

set_option maxHeartbeats 1000000 in
theorem sound_kernel1_B (c : Dev nD) (E : Set ℕ) (i : grid1.Coords)
    (arg1 : Memref sig .tc .vmem S1x512 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (hc0 : ¬cond1_0 i) (hc1 : ¬cond1_1 i)
    (x : Vec F S1x512 .f32) (w : Vec F S512x2048 .f32) (b : Vec F S1x2048 .f32) (o : Vec F S1x2048 .f32) (a : Vec F S1x2048 .f32) (K : PUnit → sProp 𝕄) :
    iprop(owns (c : Thread nD τ) arg1 fullShare x ∗ owns (c : Thread nD τ) arg2 fullShare w ∗ owns (c : Thread nD τ) arg3 fullShare b
        ∗ owns (c : Thread nD τ) arg4 fullShare o ∗ owns (c : Thread nD τ) arg5 fullShare a
        ∗ (iprop(owns (c : Thread nD τ) arg1 fullShare x ∗ owns (c : Thread nD τ) arg2 fullShare w ∗ owns (c : Thread nD τ) arg3 fullShare b
            ∗ owns (c : Thread nD τ) arg4 fullShare o ∗ owns (c : Thread nD τ) arg5 fullShare (k1_pay2 x w a)) -∗ K ⟨⟩))
      ⊢ wp frame (wpE (defs₀ (F := F)) Variants.none c none) E (cc1__comb_kernel i arg1 harg1 arg2 harg2 arg3 harg3 arg4 harg4 arg5 harg5) K := by
  simp only [cc1__comb_kernel_eq_skeleton]; unfold cc1__comb_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [View.read_writes_eq_canon _ _ _ (fun y => ⟨_, List.mem_cons_self, View.mem_set_unit_zero hz1 inb_S1x2048_S1x2048_0_0 y⟩)]
  rw [View.canon_cons_unit_zero (S := S1x2048) hz1]
  simp only [View.readAt_eq_ld, View.ld_unit_zero (S := S1x512) hz1, View.ld_unit_zero (S := S512x2048) hz1, View.ld_unit_zero (S := S1x2048) hz1]

set_option maxHeartbeats 1000000 in
theorem sound_kernel1_C (c : Dev nD) (E : Set ℕ) (i : grid1.Coords)
    (arg1 : Memref sig .tc .vmem S1x512 .f32) (harg1 : arg1.IsWhole) (arg2 : Memref sig .tc .vmem S512x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (hc0 : ¬cond1_0 i) (hc1 : cond1_1 i)
    (x : Vec F S1x512 .f32) (w : Vec F S512x2048 .f32) (b : Vec F S1x2048 .f32) (a : Vec F S1x2048 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ owns (c : Thread nD τ) arg5 fullShare a
        ∗ (iprop(owns (c : Thread nD τ) arg1 fullShare x ∗ owns (c : Thread nD τ) arg2 fullShare w ∗ owns (c : Thread nD τ) arg3 fullShare b
            ∗ owns (c : Thread nD τ) arg4 fullShare (k1_pay2 x w a) ∗ owns (c : Thread nD τ) arg5 fullShare (k1_pay2 x w a)) -∗ K ⟨⟩))
      ⊢ wp frame (wpE (defs₀ (F := F)) Variants.none c none) E (cc1__comb_kernel i arg1 harg1 arg2 harg2 arg3 harg3 arg4 harg4 arg5 harg5) K := by
  simp only [cc1__comb_kernel_eq_skeleton]; unfold cc1__comb_kernel_skel
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hz1 inb_S1x2048_S1x2048_0_0 y⟩)]
    rw [View.canon_cons_unit_zero (S := S1x2048) hz1, View.readCov_unit_zero (S := S1x2048) _ hz1]
    simp only [View.readAt_eq_ld, View.ld_unit_zero (S := S1x512) hz1, View.ld_unit_zero (S := S512x2048) hz1, View.ld_unit_zero (S := S1x2048) hz1]
  iexists _; isplitr
  swap; · iexact H5
  ipureintro
  sl_unfold_run_names
  rw [View.read_writes_eq_canon _ _ _ (fun y => ⟨_, List.mem_cons_self, View.mem_set_unit_zero hz1 inb_S1x2048_S1x2048_0_0 y⟩)]
  rw [View.canon_cons_unit_zero (S := S1x2048) hz1]
  simp only [View.readAt_eq_ld, View.ld_unit_zero (S := S1x512) hz1, View.ld_unit_zero (S := S512x2048) hz1, View.ld_unit_zero (S := S1x2048) hz1]

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev scM1 : Memref sig .tc .vmem S1x2048 .f32 := Memref.whole cc1_scratch0

theorem PhiA1_eq (c : Dev nD) :
    (Pipeline.ΦA spec1 c : sProp 𝕄)
      = iprop(iprop(iprop((∃ d, owns (c : Thread nD τ) scM1 fullShare d)) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => iprop(iprop(owns (c : Thread nD τ) scM1 fullShare (accV V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accV V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accV V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accV V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t : Fin (cfg1.N + 1)) : (dat1 V c).owed t = 0 := rfl
theorem recorded1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accV V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem accV_first (c : Dev nD) (t : Fin cfg1.N) (h0 : t.val = 0) :
    accV V c t.val t.isLt = k1_pay2 (iblk1 V c 0 t) (iblk1 V c 1 t) (k1_pay1 (iblk1 V c 2 t)) := by
  obtain ⟨n, hn⟩ := t
  obtain rfl : n = 0 := h0
  rfl
theorem accV_pos (c : Dev nD) (t : Fin cfg1.N) (h0 : t.val ≠ 0) :
    accV V c t.val t.isLt = k1_pay2 (iblk1 V c 0 t) (iblk1 V c 1 t) (accV V c (t.val - 1) (Nat.lt_of_le_of_lt (Nat.sub_le _ _) t.isLt)) :=
  acc1_pos _ _ _ t h0

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val = 0
  · have h1 : ¬t.val = 7 := by omega
    rw [Dat.leavesExact_idle (dat1 V c) 3 t (idleAt1_3 t (fun h => h1 ((hcond1_1 t).mp h))) (noFlush1_3 t (fun h => h1 ((hcond1_1 t).mp h)))]
    rw [PhiS1_castSucc V c t, PhiS1_zero V c _ _ h0, PhiA1_eq, accV_first V c t h0]
    iintro ⟨⟨⟨HS, HR⟩, Hg⟩, Ho, ⟨%d0, H0⟩, ⟨%d1, H1⟩, ⟨%d2, H2⟩, ⟨%d3, H3⟩⟩
    iapply (sound_kernel1_A c Set.univ (grid1.coords t) _ _ _ _ _ _ _ _ _ _ ((hcond1_0 t).mpr h0) (fun h => h1 ((hcond1_1 t).mp h))
      (iblk1 V c 0 t) (iblk1 V c 1 t) (iblk1 V c 2 t) _ _)
    · isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · by_cases h1 : t.val = 7
    · rw [show (dat1 V c).leavesExact 3 t = owns (c : Thread nD τ) (st1_3 t) fullShare ((dat1 V c).after 3 t) from by
        unfold Dat.leavesExact; rw [liveAt1_3 t ((hcond1_1 t).mpr h1)], after1_3]
      rw [PhiS1_castSucc V c t, PhiS1_pos V c _ _ h0, accV_pos V c t h0]
      iintro ⟨⟨⟨HS, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1)
        (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [PhiS1_castSucc V c t, PhiS1_pos V c _ _ h0, accV_pos V c t h0]
      iintro ⟨⟨⟨HS, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h))
        (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

theorem flushed1_3 (c : Dev nD) (t : Fin cfg1.N) (hf : (cfg1.win 3).flush t = true) :
    (dat1 V c).flushed 3 t = ((cfg1.win 3).blk t).view.read (Elt F) (out1 (V c main_v12) (V c main_arg6) (V c main_v11)) := by
  have hN : cfg1.N = 8 := N_1
  have h7 : t.val = 7 := by have := (flush1_3 t).mp hf; have := t.isLt; omega
  obtain rfl : t = t1_7 := Fin.ext h7
  show (cfg1.win 3).cut (grid1.coords t1_7) ((dat1 V c).after 3 t1_7) = _
  rw [after1_3]
  have hz' : (fun a => win1_3.index t1_7 a * main_v13.ty.shape.size a) = fun _ => 0 := funext fun a => by fin_cases a <;> decide
  exact (Memref.read_access_unit_zero (Elt F) main_v13 hz' (fun a => by rw [congrFun hz' a]; simp) _).symm

theorem arr1_3 (c : Dev nD) : (dat1 V c).arrAt 3 cfg1.N = out1 (V c main_v12) (V c main_arg6) (V c main_v11) :=
  (dat1 V c).arrAt_eq_of_cover 3 _ (flushed1_3 V c) fun i =>
    ⟨t1_7, (flush1_3 t1_7).mpr rfl, by
      show i ∈ ((View.whole main_v13).slice (win1_3.rect t1_7)).set
      rw [View.set_slice_whole, Rect.mem_set_unit]
      intro a
      have h0 : (i 0 : Nat) < 1 := (i 0).isLt
      have h1 : (i 1 : Nat) < 2048 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 2048 from by decide +kernel]; omega⟩

end Cert.KernelIdeal.Hand

end
-- ==== Proof.KI.Reg2.lean ====
/- Region 2: the row times the transposed weight block plus the bias block, per block of 1024 output columns. -/
import proofs.«148525_j50087908606299_1_alg».proof.Proof.Gen.KernelIdeal.Launch
import proofs.«148525_j50087908606299_1_alg».proof.Proof.Gen.KernelIdeal.Skeleton
import proofs.«148525_j50087908606299_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x2048 := Rect.unit (s := S1x2048) ![0, 0] S1x2048.size inb_S1x2048_S1x2048_0_0
abbrev r2_1 : Rect S1024x2048 := Rect.unit (s := S1024x2048) ![0, 0] S1024x2048.size inb_S1024x2048_S1024x2048_0_0
abbrev r2_2 : Rect S1x1024 := Rect.unit (s := S1x1024) ![0, 0] S1x1024.size inb_S1x1024_S1x1024_0_0

def blk2_3 (x0 : Vec F S1x2048 .f32) (x1 : Vec F S1024x2048 .f32) (x2 : Vec F S1x1024 .f32) : Vec F S1x1024 .f32 :=
  View.canon [⟨r2_2, k2_pay1 (View.ld x0 r2_0) (View.ld x1 r2_1) (View.ld x2 r2_2)⟩]

theorem cover2_3 (p0 : Vec F S1x1024 .f32) (y : S1x1024.Idx) :
    ∃ pc ∈ ([⟨r2_2, p0⟩] : List (View.Piece (Elt F) S1x1024 .f32)), y ∈ pc.1.set :=
  View.cover_of_tiled [⟨r2_2, p0⟩] S1x1024.size (by rfl) y

set_option maxHeartbeats 1000000 in
theorem sound_kernel2 (c : Dev nD) (E : Set ℕ) (i : grid2.Coords)
    (arg1 : Memref sig .tc .vmem S1x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blk2_3 x0 x1 x2)) -∗ K ⟨⟩))
      ⊢ wp frame (wpE (defs₀ (F := F)) Variants.none c none) E (cc2__linear_nk_kernel i arg1 harg1 arg2 harg2 arg3 harg3 arg4 harg4) K := by
  simp only [cc2__linear_nk_kernel_eq_skeleton]; unfold cc2__linear_nk_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def rows2 (a1 : Vec F S6144x2048 .f32) (q : ℕ) (hq : q < 6) : Vec F S1024x2048 .f32 :=
  fun y => a1 (ValueIdx.ix2 (⟨q * 1024 + (y 0).val, by have := ValueIdx.idx2_lt0 y; omega⟩ : Fin 6144) (⟨(y 1).val, ValueIdx.idx2_lt1 y⟩ : Fin 2048))

def cols2 (a2 : Vec F S1x6144 .f32) (q : ℕ) (hq : q < 6) : Vec F S1x1024 .f32 :=
  fun y => a2 (ValueIdx.ix2 (0 : Fin 1) (⟨q * 1024 + (y 1).val, by have := ValueIdx.idx2_lt1 y; omega⟩ : Fin 6144))

theorem rows2_congr (a1 : Vec F S6144x2048 .f32) {q q' : ℕ} (e : q = q') (hq : q < 6) (hq' : q' < 6) : rows2 a1 q hq = rows2 a1 q' hq' := by
  subst e; rfl
theorem cols2_congr (a2 : Vec F S1x6144 .f32) {q q' : ℕ} (e : q = q') (hq : q < 6) (hq' : q' < 6) : cols2 a2 q hq = cols2 a2 q' hq' := by
  subst e; rfl

def out2 (a0 : Vec F S1x2048 .f32) (a1 : Vec F S6144x2048 .f32) (a2 : Vec F S1x6144 .f32) : Vec F S1x6144 .f32 :=
  fun i => k2_pay1 a0 (rows2 a1 ((i 1).val / 1024) (by have := ValueIdx.idx2_lt1 i; omega))
    (cols2 a2 ((i 1).val / 1024) (by have := ValueIdx.idx2_lt1 i; omega))
    (ValueIdx.ix2 (0 : Fin 1) (⟨(i 1).val % 1024, Nat.mod_lt _ (by decide)⟩ : Fin 1024))

theorem out2_apply (a0 : Vec F S1x2048 .f32) (a1 : Vec F S6144x2048 .f32) (a2 : Vec F S1x6144 .f32) (t : Fin 6) (j : Fin 1024) :
    out2 a0 a1 a2 (ValueIdx.ix2 (0 : Fin 1) (⟨t.val * 1024 + j.val, by omega⟩ : Fin 6144))
      = k2_pay1 a0
          (fun y => a1 (ValueIdx.ix2 (⟨t.val * 1024 + (y 0).val, by have := ValueIdx.idx2_lt0 y; omega⟩ : Fin 6144) (⟨(y 1).val, ValueIdx.idx2_lt1 y⟩ : Fin 2048)))
          (fun y => a2 (ValueIdx.ix2 (0 : Fin 1) (⟨t.val * 1024 + (y 1).val, by have := ValueIdx.idx2_lt1 y; omega⟩ : Fin 6144)))
          (ValueIdx.ix2 (0 : Fin 1) j) := by
  have hq : (t.val * 1024 + j.val) / 1024 = t.val := by omega
  have hr : (t.val * 1024 + j.val) % 1024 = j.val := by omega
  show k2_pay1 a0 (rows2 a1 ((t.val * 1024 + j.val) / 1024) _) (cols2 a2 ((t.val * 1024 + j.val) / 1024) _)
      (ValueIdx.ix2 (0 : Fin 1) (⟨(t.val * 1024 + j.val) % 1024, _⟩ : Fin 1024))
    = k2_pay1 a0 (rows2 a1 t.val t.isLt) (cols2 a2 t.val t.isLt) (ValueIdx.ix2 (0 : Fin 1) j)
  rw [rows2_congr a1 hq _ t.isLt, cols2_congr a2 hq _ t.isLt]
  congr 1
  exact congrArg (ValueIdx.ix2 (0 : Fin 1)) (Fin.ext hr)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => blk2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem share2 (c : Dev nD) (w : Fin cfg2.W) : (dat2 V c).share w = fullShare :=
  (dat2 V c).share_full (fun _ => rfl) w
theorem owed2 (c : Dev nD) (t : Fin (cfg2.N + 1)) : (dat2 V c).owed t = 0 := by
  dsimp only [dat2]
theorem hin2 (c : Dev nD) : Pipeline.ΦA spec2 c ⊢ (dat2 V c).Φ 0 := by
  rw [show (dat2 V c).Φ 0 = Pipeline.ΦA spec2 c from rfl]
theorem hout2 (c : Dev nD) : (dat2 V c).Φ (Fin.last cfg2.N) ⊢ Pipeline.ΦA spec2 c := by
  rw [show (dat2 V c).Φ (Fin.last cfg2.N) = Pipeline.ΦA spec2 c from rfl]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = blk2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

theorem hz2 : (![0, 0] : Fin 2 → Nat) = fun _ => 0 := funext fun a => by fin_cases a <;> rfl

theorem lt_N2 (t : Fin cfg2.N) : t.val < 6 := Nat.lt_of_lt_of_eq t.isLt (show cfg2.N = 6 from N_2)

theorem idx_facts2 : ∀ t : Fin cfg2.N, win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

theorem iblk2_0_eq (c : Dev nD) (t : Fin cfg2.N) : (iblk2 V c 0 t : Vec F S1x2048 .f32) = V c main_v13 := by
  obtain ⟨e0, e1, -⟩ := idx_facts2 t
  funext x
  unfold iblk2
  rw [View.read_apply]
  show V c main_v13 _ = V c main_v13 x
  congr 1
  funext a
  apply Fin.ext
  match a with
  | ⟨0, _⟩ => show win2_0.index t (0 : Fin 2) * 1 + 1 * (x 0).val = (x 0).val; rw [e0]; omega
  | ⟨1, _⟩ => show win2_0.index t (1 : Fin 2) * 2048 + 1 * (x 1).val = (x 1).val; rw [e1]; omega

theorem iblk2_1_eq (c : Dev nD) (t : Fin cfg2.N) :
    (iblk2 V c 1 t : Vec F S1024x2048 .f32) = rows2 (V c main_arg8) t.val (lt_N2 t) := by
  obtain ⟨-, -, e2, e3, -⟩ := idx_facts2 t
  funext x
  unfold iblk2 rows2
  rw [View.read_apply]
  show V c main_arg8 _ = V c main_arg8 _
  congr 1
  funext a
  apply Fin.ext
  match a with
  | ⟨0, _⟩ => show win2_1.index t (0 : Fin 2) * 1024 + 1 * (x 0).val = t.val * 1024 + (x 0).val; rw [e2]; omega
  | ⟨1, _⟩ => show win2_1.index t (1 : Fin 2) * 2048 + 1 * (x 1).val = (x 1).val; rw [e3]; omega

theorem iblk2_2_eq (c : Dev nD) (t : Fin cfg2.N) :
    (iblk2 V c 2 t : Vec F S1x1024 .f32) = cols2 (V c main_v14) t.val (lt_N2 t) := by
  obtain ⟨-, -, -, -, e4, e5, -⟩ := idx_facts2 t
  have hx0 : ∀ x : S1x1024.Idx, (x 0).val = 0 := fun x => by have := ValueIdx.idx2_lt0 x; omega
  funext x
  unfold iblk2 cols2
  rw [View.read_apply]
  show V c main_v14 _ = V c main_v14 _
  congr 1
  funext a
  apply Fin.ext
  match a with
  | ⟨0, _⟩ => show win2_2.index t (0 : Fin 2) * 1 + 1 * (x 0).val = 0; rw [e4, hx0 x]
  | ⟨1, _⟩ => show win2_2.index t (1 : Fin 2) * 1024 + 1 * (x 1).val = t.val * 1024 + (x 1).val; rw [e5]; omega

theorem emb2_3 (t : Fin cfg2.N) (j : S1x1024.Idx) :
    ((cfg2.win 3).blk t).view.emb j
      = ValueIdx.ix2 (0 : Fin 1) (⟨t.val * 1024 + (j 1).val, by have := lt_N2 t; have := ValueIdx.idx2_lt1 j; omega⟩ : Fin 6144) := by
  obtain ⟨-, -, -, -, -, -, e6, e7⟩ := idx_facts2 t
  have hj0 : (j 0).val = 0 := by have := ValueIdx.idx2_lt0 j; omega
  funext a
  apply Fin.ext
  match a with
  | ⟨0, _⟩ => show win2_3.index t (0 : Fin 2) * 1 + 1 * (j 0).val = 0; rw [e6, hj0]
  | ⟨1, _⟩ => show win2_3.index t (1 : Fin 2) * 1024 + 1 * (j 1).val = t.val * 1024 + (j 1).val; rw [e7]; omega

theorem flushed2_3_eq (c : Dev nD) (t : Fin cfg2.N) :
    (dat2 V c).flushed 3 t = ((cfg2.win 3).blk t).view.read (Elt F) (out2 (V c main_v13) (V c main_arg8) (V c main_v14)) := by
  show (cfg2.win 3).cut (grid2.coords t) ((dat2 V c).after 3 t) = _
  rw [after2_3]
  unfold blk2_3
  rw [View.canon_unit_zero hz2]
  simp only [View.ld_unit_zero (S := S1x2048) hz2, View.ld_unit_zero (S := S1024x2048) hz2, View.ld_unit_zero (S := S1x1024) hz2]
  rw [iblk2_0_eq, iblk2_1_eq, iblk2_2_eq]
  refine funext fun (j : S1x1024.Idx) => ?_
  show k2_pay1 (V c main_v13) (rows2 (V c main_arg8) t.val (lt_N2 t)) (cols2 (V c main_v14) t.val (lt_N2 t)) j
    = out2 (V c main_v13) (V c main_arg8) (V c main_v14) (((cfg2.win 3).blk t).view.emb j)
  rw [emb2_3 t j, out2_apply _ _ _ ⟨t.val, lt_N2 t⟩ ⟨(j 1).val, ValueIdx.idx2_lt1 j⟩]
  show k2_pay1 (V c main_v13) (rows2 (V c main_arg8) t.val (lt_N2 t)) (cols2 (V c main_v14) t.val (lt_N2 t)) j
    = k2_pay1 (V c main_v13) (rows2 (V c main_arg8) t.val (lt_N2 t)) (cols2 (V c main_v14) t.val (lt_N2 t))
        (ValueIdx.ix2 (0 : Fin 1) (⟨(j 1).val, ValueIdx.idx2_lt1 j⟩ : Fin 1024))
  congr 1
  funext a
  apply Fin.ext
  match a with
  | ⟨0, _⟩ => show (j 0).val = 0; have := ValueIdx.idx2_lt0 j; omega
  | ⟨1, _⟩ => rfl

theorem cover2_arr (i : S1x6144.Idx) : ∃ t : Fin cfg2.N, (cfg2.win 3).flush t = true ∧ i ∈ ((cfg2.win 3).blk t).view.set := by
  have h0 := ValueIdx.idx2_lt0 i
  have h1 := ValueIdx.idx2_lt1 i
  have hN : (i 1).val / 1024 < cfg2.N := by rw [show cfg2.N = 6 from N_2]; omega
  refine ⟨⟨(i 1).val / 1024, hN⟩, flush2_3 _, ?_⟩
  obtain ⟨-, -, -, -, -, -, e6, e7⟩ := idx_facts2 ⟨(i 1).val / 1024, hN⟩
  show i ∈ ((View.whole main_v16).slice (win2_3.rect ⟨(i 1).val / 1024, hN⟩)).set
  rw [View.set_slice_whole, Rect.mem_set_unit]
  intro a
  match a with
  | ⟨0, _⟩ =>
    show win2_3.index ⟨(i 1).val / 1024, hN⟩ (0 : Fin 2) * 1 ≤ (i 0).val ∧ (i 0).val < win2_3.index ⟨(i 1).val / 1024, hN⟩ (0 : Fin 2) * 1 + 1
    rw [e6]; omega
  | ⟨1, _⟩ =>
    show win2_3.index ⟨(i 1).val / 1024, hN⟩ (1 : Fin 2) * 1024 ≤ (i 1).val ∧ (i 1).val < win2_3.index ⟨(i 1).val / 1024, hN⟩ (1 : Fin 2) * 1024 + 1024
    rw [e7]; show (i 1).val / 1024 * 1024 ≤ (i 1).val ∧ (i 1).val < (i 1).val / 1024 * 1024 + 1024; omega

theorem arr2_3 (c : Dev nD) : (dat2 V c).arrAt 3 cfg2.N = out2 (V c main_v13) (V c main_arg8) (V c main_v14) :=
  (dat2 V c).arrAt_eq_of_cover 3 _ (fun t _ => flushed2_3_eq V c t) cover2_arr

theorem recorded2 (c : Dev nD) (t : Fin (cfg2.N + 1)) : (dat2 V c).recorded t = Set.univ := by dsimp only [dat2]

end Cert.KernelIdeal.Hand

end
-- ==== Proof.KI.Reg3.lean ====
/- Region 3: the row times the transposed weight block plus the bias block, per block of 1024 output columns. -/
import proofs.«148525_j50087908606299_1_alg».proof.Proof.Gen.KernelIdeal.Launch
import proofs.«148525_j50087908606299_1_alg».proof.Proof.Gen.KernelIdeal.Skeleton
import proofs.«148525_j50087908606299_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x2048 := Rect.unit (s := S1x2048) ![0, 0] S1x2048.size inb_S1x2048_S1x2048_0_0
abbrev r3_1 : Rect S1024x2048 := Rect.unit (s := S1024x2048) ![0, 0] S1024x2048.size inb_S1024x2048_S1024x2048_0_0
abbrev r3_2 : Rect S1x1024 := Rect.unit (s := S1x1024) ![0, 0] S1x1024.size inb_S1x1024_S1x1024_0_0

def blk3_3 (x0 : Vec F S1x2048 .f32) (x1 : Vec F S1024x2048 .f32) (x2 : Vec F S1x1024 .f32) : Vec F S1x1024 .f32 :=
  View.canon [⟨r3_2, k3_pay1 (View.ld x0 r3_0) (View.ld x1 r3_1) (View.ld x2 r3_2)⟩]

theorem cover3_3 (p0 : Vec F S1x1024 .f32) (y : S1x1024.Idx) :
    ∃ pc ∈ ([⟨r3_2, p0⟩] : List (View.Piece (Elt F) S1x1024 .f32)), y ∈ pc.1.set :=
  View.cover_of_tiled [⟨r3_2, p0⟩] S1x1024.size (by rfl) y

set_option maxHeartbeats 1000000 in
theorem sound_kernel3 (c : Dev nD) (E : Set ℕ) (i : grid3.Coords)
    (arg1 : Memref sig .tc .vmem S1x2048 .f32) (harg1 : arg1.IsWhole) (arg2 : Memref sig .tc .vmem S1024x2048 .f32) (harg2 : arg2.IsWhole)
    (arg3 : Memref sig .tc .vmem S1x1024 .f32) (harg3 : arg3.IsWhole) (arg4 : Memref sig .tc .vmem S1x1024 .f32) (harg4 : arg4.IsWhole)
    (x0 : Vec F S1x2048 .f32) (x1 : Vec F S1024x2048 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blk3_3 x0 x1 x2)) -∗ K ⟨⟩))
      ⊢ wp frame (wpE (defs₀ (F := F)) Variants.none c none) E (cc3__linear_nk_kernel i arg1 harg1 arg2 harg2 arg3 harg3 arg4 harg4) K := by
  simp only [cc3__linear_nk_kernel_eq_skeleton]; unfold cc3__linear_nk_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def rows3 (a1 : Vec F S6144x2048 .f32) (q : ℕ) (hq : q < 6) : Vec F S1024x2048 .f32 :=
  fun y => a1 (ValueIdx.ix2 (⟨q * 1024 + (y 0).val, by have := ValueIdx.idx2_lt0 y; omega⟩ : Fin 6144) (⟨(y 1).val, ValueIdx.idx2_lt1 y⟩ : Fin 2048))

def cols3 (a2 : Vec F S1x6144 .f32) (q : ℕ) (hq : q < 6) : Vec F S1x1024 .f32 :=
  fun y => a2 (ValueIdx.ix2 (0 : Fin 1) (⟨q * 1024 + (y 1).val, by have := ValueIdx.idx2_lt1 y; omega⟩ : Fin 6144))

theorem rows3_congr (a1 : Vec F S6144x2048 .f32) {q q' : ℕ} (e : q = q') (hq : q < 6) (hq' : q' < 6) : rows3 a1 q hq = rows3 a1 q' hq' := by
  subst e; rfl
theorem cols3_congr (a2 : Vec F S1x6144 .f32) {q q' : ℕ} (e : q = q') (hq : q < 6) (hq' : q' < 6) : cols3 a2 q hq = cols3 a2 q' hq' := by
  subst e; rfl

def out3 (a0 : Vec F S1x2048 .f32) (a1 : Vec F S6144x2048 .f32) (a2 : Vec F S1x6144 .f32) : Vec F S1x6144 .f32 :=
  fun i => k3_pay1 a0 (rows3 a1 ((i 1).val / 1024) (by have := ValueIdx.idx2_lt1 i; omega))
    (cols3 a2 ((i 1).val / 1024) (by have := ValueIdx.idx2_lt1 i; omega))
    (ValueIdx.ix2 (0 : Fin 1) (⟨(i 1).val % 1024, Nat.mod_lt _ (by decide)⟩ : Fin 1024))

theorem out3_apply (a0 : Vec F S1x2048 .f32) (a1 : Vec F S6144x2048 .f32) (a2 : Vec F S1x6144 .f32) (t : Fin 6) (j : Fin 1024) :
    out3 a0 a1 a2 (ValueIdx.ix2 (0 : Fin 1) (⟨t.val * 1024 + j.val, by omega⟩ : Fin 6144))
      = k3_pay1 a0
          (fun y => a1 (ValueIdx.ix2 (⟨t.val * 1024 + (y 0).val, by have := ValueIdx.idx2_lt0 y; omega⟩ : Fin 6144) (⟨(y 1).val, ValueIdx.idx2_lt1 y⟩ : Fin 2048)))
          (fun y => a2 (ValueIdx.ix2 (0 : Fin 1) (⟨t.val * 1024 + (y 1).val, by have := ValueIdx.idx2_lt1 y; omega⟩ : Fin 6144)))
          (ValueIdx.ix2 (0 : Fin 1) j) := by
  have hq : (t.val * 1024 + j.val) / 1024 = t.val := by omega
  have hr : (t.val * 1024 + j.val) % 1024 = j.val := by omega
  show k3_pay1 a0 (rows3 a1 ((t.val * 1024 + j.val) / 1024) _) (cols3 a2 ((t.val * 1024 + j.val) / 1024) _)
      (ValueIdx.ix2 (0 : Fin 1) (⟨(t.val * 1024 + j.val) % 1024, _⟩ : Fin 1024))
    = k3_pay1 a0 (rows3 a1 t.val t.isLt) (cols3 a2 t.val t.isLt) (ValueIdx.ix2 (0 : Fin 1) j)
  rw [rows3_congr a1 hq _ t.isLt, cols3_congr a2 hq _ t.isLt]
  congr 1
  exact congrArg (ValueIdx.ix2 (0 : Fin 1)) (Fin.ext hr)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => blk3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem share3 (c : Dev nD) (w : Fin cfg3.W) : (dat3 V c).share w = fullShare :=
  (dat3 V c).share_full (fun _ => rfl) w
theorem owed3 (c : Dev nD) (t : Fin (cfg3.N + 1)) : (dat3 V c).owed t = 0 := by
  dsimp only [dat3]
theorem hin3 (c : Dev nD) : Pipeline.ΦA spec3 c ⊢ (dat3 V c).Φ 0 := by
  rw [show (dat3 V c).Φ 0 = Pipeline.ΦA spec3 c from rfl]
theorem hout3 (c : Dev nD) : (dat3 V c).Φ (Fin.last cfg3.N) ⊢ Pipeline.ΦA spec3 c := by
  rw [show (dat3 V c).Φ (Fin.last cfg3.N) = Pipeline.ΦA spec3 c from rfl]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = blk3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

theorem hz3 : (![0, 0] : Fin 2 → Nat) = fun _ => 0 := funext fun a => by fin_cases a <;> rfl

theorem lt_N3 (t : Fin cfg3.N) : t.val < 6 := Nat.lt_of_lt_of_eq t.isLt (show cfg3.N = 6 from N_3)

theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

theorem iblk3_0_eq (c : Dev nD) (t : Fin cfg3.N) : (iblk3 V c 0 t : Vec F S1x2048 .f32) = V c main_v7 := by
  obtain ⟨e0, e1, -⟩ := idx_facts3 t
  funext x
  unfold iblk3
  rw [View.read_apply]
  show V c main_v7 _ = V c main_v7 x
  congr 1
  funext a
  apply Fin.ext
  match a with
  | ⟨0, _⟩ => show win3_0.index t (0 : Fin 2) * 1 + 1 * (x 0).val = (x 0).val; rw [e0]; omega
  | ⟨1, _⟩ => show win3_0.index t (1 : Fin 2) * 2048 + 1 * (x 1).val = (x 1).val; rw [e1]; omega

theorem iblk3_1_eq (c : Dev nD) (t : Fin cfg3.N) :
    (iblk3 V c 1 t : Vec F S1024x2048 .f32) = rows3 (V c main_arg10) t.val (lt_N3 t) := by
  obtain ⟨-, -, e2, e3, -⟩ := idx_facts3 t
  funext x
  unfold iblk3 rows3
  rw [View.read_apply]
  show V c main_arg10 _ = V c main_arg10 _
  congr 1
  funext a
  apply Fin.ext
  match a with
  | ⟨0, _⟩ => show win3_1.index t (0 : Fin 2) * 1024 + 1 * (x 0).val = t.val * 1024 + (x 0).val; rw [e2]; omega
  | ⟨1, _⟩ => show win3_1.index t (1 : Fin 2) * 2048 + 1 * (x 1).val = (x 1).val; rw [e3]; omega

theorem iblk3_2_eq (c : Dev nD) (t : Fin cfg3.N) :
    (iblk3 V c 2 t : Vec F S1x1024 .f32) = cols3 (V c main_v15) t.val (lt_N3 t) := by
  obtain ⟨-, -, -, -, e4, e5, -⟩ := idx_facts3 t
  have hx0 : ∀ x : S1x1024.Idx, (x 0).val = 0 := fun x => by have := ValueIdx.idx2_lt0 x; omega
  funext x
  unfold iblk3 cols3
  rw [View.read_apply]
  show V c main_v15 _ = V c main_v15 _
  congr 1
  funext a
  apply Fin.ext
  match a with
  | ⟨0, _⟩ => show win3_2.index t (0 : Fin 2) * 1 + 1 * (x 0).val = 0; rw [e4, hx0 x]
  | ⟨1, _⟩ => show win3_2.index t (1 : Fin 2) * 1024 + 1 * (x 1).val = t.val * 1024 + (x 1).val; rw [e5]; omega

theorem emb3_3 (t : Fin cfg3.N) (j : S1x1024.Idx) :
    ((cfg3.win 3).blk t).view.emb j
      = ValueIdx.ix2 (0 : Fin 1) (⟨t.val * 1024 + (j 1).val, by have := lt_N3 t; have := ValueIdx.idx2_lt1 j; omega⟩ : Fin 6144) := by
  obtain ⟨-, -, -, -, -, -, e6, e7⟩ := idx_facts3 t
  have hj0 : (j 0).val = 0 := by have := ValueIdx.idx2_lt0 j; omega
  funext a
  apply Fin.ext
  match a with
  | ⟨0, _⟩ => show win3_3.index t (0 : Fin 2) * 1 + 1 * (j 0).val = 0; rw [e6, hj0]
  | ⟨1, _⟩ => show win3_3.index t (1 : Fin 2) * 1024 + 1 * (j 1).val = t.val * 1024 + (j 1).val; rw [e7]; omega

theorem flushed3_3_eq (c : Dev nD) (t : Fin cfg3.N) :
    (dat3 V c).flushed 3 t = ((cfg3.win 3).blk t).view.read (Elt F) (out3 (V c main_v7) (V c main_arg10) (V c main_v15)) := by
  show (cfg3.win 3).cut (grid3.coords t) ((dat3 V c).after 3 t) = _
  rw [after3_3]
  unfold blk3_3
  rw [View.canon_unit_zero hz3]
  simp only [View.ld_unit_zero (S := S1x2048) hz3, View.ld_unit_zero (S := S1024x2048) hz3, View.ld_unit_zero (S := S1x1024) hz3]
  rw [iblk3_0_eq, iblk3_1_eq, iblk3_2_eq]
  refine funext fun (j : S1x1024.Idx) => ?_
  show k3_pay1 (V c main_v7) (rows3 (V c main_arg10) t.val (lt_N3 t)) (cols3 (V c main_v15) t.val (lt_N3 t)) j
    = out3 (V c main_v7) (V c main_arg10) (V c main_v15) (((cfg3.win 3).blk t).view.emb j)
  rw [emb3_3 t j, out3_apply _ _ _ ⟨t.val, lt_N3 t⟩ ⟨(j 1).val, ValueIdx.idx2_lt1 j⟩]
  show k3_pay1 (V c main_v7) (rows3 (V c main_arg10) t.val (lt_N3 t)) (cols3 (V c main_v15) t.val (lt_N3 t)) j
    = k3_pay1 (V c main_v7) (rows3 (V c main_arg10) t.val (lt_N3 t)) (cols3 (V c main_v15) t.val (lt_N3 t))
        (ValueIdx.ix2 (0 : Fin 1) (⟨(j 1).val, ValueIdx.idx2_lt1 j⟩ : Fin 1024))
  congr 1
  funext a
  apply Fin.ext
  match a with
  | ⟨0, _⟩ => show (j 0).val = 0; have := ValueIdx.idx2_lt0 j; omega
  | ⟨1, _⟩ => rfl

theorem cover3_arr (i : S1x6144.Idx) : ∃ t : Fin cfg3.N, (cfg3.win 3).flush t = true ∧ i ∈ ((cfg3.win 3).blk t).view.set := by
  have h0 := ValueIdx.idx2_lt0 i
  have h1 := ValueIdx.idx2_lt1 i
  have hN : (i 1).val / 1024 < cfg3.N := by rw [show cfg3.N = 6 from N_3]; omega
  refine ⟨⟨(i 1).val / 1024, hN⟩, flush3_3 _, ?_⟩
  obtain ⟨-, -, -, -, -, -, e6, e7⟩ := idx_facts3 ⟨(i 1).val / 1024, hN⟩
  show i ∈ ((View.whole main_v17).slice (win3_3.rect ⟨(i 1).val / 1024, hN⟩)).set
  rw [View.set_slice_whole, Rect.mem_set_unit]
  intro a
  match a with
  | ⟨0, _⟩ =>
    show win3_3.index ⟨(i 1).val / 1024, hN⟩ (0 : Fin 2) * 1 ≤ (i 0).val ∧ (i 0).val < win3_3.index ⟨(i 1).val / 1024, hN⟩ (0 : Fin 2) * 1 + 1
    rw [e6]; omega
  | ⟨1, _⟩ =>
    show win3_3.index ⟨(i 1).val / 1024, hN⟩ (1 : Fin 2) * 1024 ≤ (i 1).val ∧ (i 1).val < win3_3.index ⟨(i 1).val / 1024, hN⟩ (1 : Fin 2) * 1024 + 1024
    rw [e7]; show (i 1).val / 1024 * 1024 ≤ (i 1).val ∧ (i 1).val < (i 1).val / 1024 * 1024 + 1024; omega

theorem arr3_3 (c : Dev nD) : (dat3 V c).arrAt 3 cfg3.N = out3 (V c main_v7) (V c main_arg10) (V c main_v15) :=
  (dat3 V c).arrAt_eq_of_cover 3 _ (fun t _ => flushed3_3_eq V c t) cover3_arr

theorem recorded3 (c : Dev nD) (t : Fin (cfg3.N + 1)) : (dat3 V c).recorded t = Set.univ := by dsimp only [dat3]

end Cert.KernelIdeal.Hand

end
-- ==== Proof.Spec.RefTerms.lean ====
/- The five stages that the kernel regions compute, as the reference spells them. -/
import proofs.«148525_j50087908606299_1_alg».proof.Proof.Gen.ReferenceIdeal

noncomputable section

namespace Cert.RefTerms

open Cert.ReferenceIdeal Cert.ReferenceIdeal.Gen Idealize.ShloMosaic Idealize.ShloMosaic.TcCoe Idealize.ShloMosaic.StableHlo

variable {F : FTy → Type} [FloatOps F]

def logits (x : FVec F S1x4096 .f32) (w : FVec F S4096x100 .f32) (b : FVec F S1x100 .f32) : FVec F S1x100 .f32 :=
  addf (Host.dotGeneral dot_S1x4096_S4096x100_S1x100_1_0_0_1_n_n none x w) b

def softmaxRow (l : FVec F S1x100 .f32) : FVec F S1x100 .f32 :=
  let mx : FVec F S1 .f32 := maximumf (broadcastInDim S1 ![] bcast_S_S1 (constant S_ .f32 0xFF800000#32))
    (Host.reduce FloatOps.maximumf l (constant S_ .f32 0xFF800000#32) reducesTo_S1x100_S1_d1 h_S_)
  let e : FVec F S1x100 .f32 := Host.exp (subf l (broadcastInDim S1x100 ![0, 1] bcast_S1x1_S1x100_0_1 (broadcastInDim S1x1 ![0] bcast_S1_S1x1_0 mx)))
  Host.divf e (broadcastInDim S1x100 ![0, 1] bcast_S1x1_S1x100_0_1 (broadcastInDim S1x1 ![0] bcast_S1_S1x1_0
    (Host.reduceAdd e (constant S_ .f32 0x00000000#32) reducesTo_S1x100_S1_d1 h_S_)))

def attnWeights (x : FVec F S1x4096 .f32) (w : FVec F S4096x100 .f32) (b : FVec F S1x100 .f32) : FVec F S1x100 .f32 :=
  softmaxRow (logits x w b)

def context (aw : FVec F S1x100 .f32) (enc : FVec F S100x2048 .f32) : FVec F S1x2048 .f32 :=
  Host.dotGeneral dot_S1x100_S100x2048_S1x2048_1_0_0_1_n_n none aw enc

def combine (x : FVec F S1x4096 .f32) (w : FVec F S4096x2048 .f32) (b : FVec F S1x2048 .f32) : FVec F S1x2048 .f32 :=
  addf (Host.dotGeneral dot_S1x4096_S4096x2048_S1x2048_1_0_0_1_n_n none x w) b

def gates (x : FVec F S1x2048 .f32) (w : FVec F S6144x2048 .f32) (b : FVec F S1x6144 .f32) : FVec F S1x6144 .f32 :=
  addf (Host.dotGeneral dot_S1x2048_S2048x6144_S1x6144_1_0_0_1_n_n none x (transpose S2048x6144 [1, 0] w transposes_S6144x2048_S2048x6144_1_0)) b

def outProj (x : FVec F S1x2048 .f32) (w : FVec F S2048x50257 .f32) (b : FVec F S1x50257 .f32) : FVec F S1x50257 .f32 :=
  addf (Host.dotGeneral dot_S1x2048_S2048x50257_S1x50257_1_0_0_1_n_n none x w) b

end Cert.RefTerms

end
-- ==== Proof.LibTileSums.lean ====
/- A sum over A·B indices is the sum of its A block sums. -/
import Idealize.ShloMosaic.PureOps.Ideal
import Mathlib.Logic.Equiv.Fin.Basic
import Mathlib.Data.Fintype.BigOperators
import Mathlib.Algebra.BigOperators.Fin

namespace Cert.LibTileSums

open scoped BigOperators

theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

end Cert.LibTileSums
-- ==== Proof.LibKeepdims.lean ====
/- A plain m×k by k×n product read at an index as the sum over the contracted index, on both sides. -/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.KI.Val14.lean ====
/- One accumulation step and the reference's dense layers, read at a column. -/
import proofs.«148525_j50087908606299_1_alg».proof.Proof.Gen.KernelIdeal.Skeleton
import proofs.«148525_j50087908606299_1_alg».proof.Proof.Spec.RefTerms
import proofs.«148525_j50087908606299_1_alg».proof.Proof.LibTileSums
import proofs.«148525_j50087908606299_1_alg».proof.Proof.LibKeepdims
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx

theorem k1_pay1_eq (v : Vec Ideal S1x2048 .f32) : k1_pay1 (F := Ideal) v = v := by
  unfold k1_pay1
  exact (shapeCast_self _ _).trans (shapeCast_self v _)

theorem k1_pay2_apply (x : Vec Ideal S1x512 .f32) (wb : Vec Ideal S512x2048 .f32) (acc : Vec Ideal S1x2048 .f32) (j : Fin 2048) :
    k1_pay2 (F := Ideal) x wb acc (ix2 (0 : Fin 1) j) = acc (ix2 (0 : Fin 1) j) + ∑ k : Fin 512, x (ix2 (0 : Fin 1) k) * wb (ix2 k j) := by
  unfold k1_pay2
  rw [shapeCast_self, shapeCast_self, addf_apply,
    Cert.LibKeepdims.matmul_plain_apply dot_S1x512_S512x2048_S1x2048_1_0_0_1_n_n rfl]
  rfl

theorem combine_apply (x : Vec Ideal S1x4096 .f32) (w : Vec Ideal S4096x2048 .f32) (b : Vec Ideal S1x2048 .f32) (j : Fin 2048) :
    Cert.RefTerms.combine (F := Ideal) x w b (ix2 (0 : Fin 1) j) = (∑ k : Fin 4096, x (ix2 (0 : Fin 1) k) * w (ix2 k j)) + b (ix2 (0 : Fin 1) j) := by
  unfold Cert.RefTerms.combine
  rw [addf_apply, Cert.LibKeepdims.dotGeneral_plain_apply Cert.ReferenceIdeal.dot_S1x4096_S4096x2048_S1x2048_1_0_0_1_n_n rfl]

theorem k4_pay1_eq (v : Vec Ideal S1x8192 .f32) : k4_pay1 (F := Ideal) v = v := by
  unfold k4_pay1
  exact (shapeCast_self _ _).trans (shapeCast_self v _)

theorem k4_pay2_apply (x : Vec Ideal S1x512 .f32) (wb : Vec Ideal S512x8192 .f32) (acc : Vec Ideal S1x8192 .f32) (j : Fin 8192) :
    k4_pay2 (F := Ideal) x wb acc (ix2 (0 : Fin 1) j) = acc (ix2 (0 : Fin 1) j) + ∑ k : Fin 512, x (ix2 (0 : Fin 1) k) * wb (ix2 k j) := by
  unfold k4_pay2
  rw [shapeCast_self, shapeCast_self, addf_apply,
    Cert.LibKeepdims.matmul_plain_apply dot_S1x512_S512x8192_S1x8192_1_0_0_1_n_n rfl]
  rfl

theorem outProj_apply (x : Vec Ideal S1x2048 .f32) (w : Vec Ideal S2048x50257 .f32) (b : Vec Ideal S1x50257 .f32) (j : Fin 50257) :
    Cert.RefTerms.outProj (F := Ideal) x w b (ix2 (0 : Fin 1) j) = (∑ k : Fin 2048, x (ix2 (0 : Fin 1) k) * w (ix2 k j)) + b (ix2 (0 : Fin 1) j) := by
  unfold Cert.RefTerms.outProj
  rw [addf_apply, Cert.LibKeepdims.dotGeneral_plain_apply Cert.ReferenceIdeal.dot_S1x2048_S2048x50257_S1x50257_1_0_0_1_n_n rfl]

section Law

open scoped BigOperators
open Cert.LibTileSums

theorem biasFold_eq (s acc : ℕ → EReal) (b : EReal) (m : ℕ) (h0 : acc 0 = b + s 0)
    (hs : ∀ j, j + 1 < m → acc (j + 1) = acc j + s (j + 1)) :
    ∀ j, j < m → acc j = b + ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val), add_assoc]
    rfl

theorem accTiles {A B n : ℕ} (h : (A + 1) * B = n) (f : Fin n → EReal) (b : EReal) (T acc : ℕ → EReal)
    (hT : ∀ t : Fin (A + 1), T t.val = ∑ r : Fin B, f ⟨t.val * B + r.val, tile_lt h t r⟩)
    (h0 : acc 0 = b + T 0)
    (hs : ∀ t, t + 1 < A + 1 → acc (t + 1) = acc t + T (t + 1)) :
    acc A = (∑ k : Fin n, f k) + b := by
  rw [biasFold_eq T acc b (A + 1) h0 hs A (Nat.lt_succ_self A), add_comm,
    sum_tiles_of h f (fun t : Fin (A + 1) => T t.val) hT]

theorem acc8x512 (f : Fin 4096 → EReal) (b : EReal) (T acc : ℕ → EReal)
    (hT : ∀ (t : ℕ) (ht : t < 8), T t = ∑ r : Fin 512, f ⟨t * 512 + r.val, by have := r.isLt; omega⟩)
    (h0 : acc 0 = b + T 0)
    (hs : ∀ t, t + 1 < 8 → acc (t + 1) = acc t + T (t + 1)) :
    acc 7 = (∑ k : Fin 4096, f k) + b :=
  accTiles (A := 7) (B := 512) (n := 4096) rfl f b T acc (fun t => hT t.val t.isLt) h0 hs

theorem acc4x512 (f : Fin 2048 → EReal) (b : EReal) (T acc : ℕ → EReal)
    (hT : ∀ (t : ℕ) (ht : t < 4), T t = ∑ r : Fin 512, f ⟨t * 512 + r.val, by have := r.isLt; omega⟩)
    (h0 : acc 0 = b + T 0)
    (hs : ∀ t, t + 1 < 4 → acc (t + 1) = acc t + T (t + 1)) :
    acc 3 = (∑ k : Fin 2048, f k) + b :=
  accTiles (A := 3) (B := 512) (n := 2048) rfl f b T acc (fun t => hT t.val t.isLt) h0 hs

def biasAccum (b : EReal) (T : ℕ → EReal) : ℕ → EReal
  | 0 => b + T 0
  | n + 1 => biasAccum b T n + T (n + 1)

theorem nested4x512 (f : Fin 2048 → EReal) (b : EReal) (T : ℕ → EReal)
    (hT : ∀ (t : ℕ) (ht : t < 4), T t = ∑ r : Fin 512, f ⟨t * 512 + r.val, by have := r.isLt; omega⟩) :
    (((b + T 0) + T 1) + T 2) + T 3 = (∑ k : Fin 2048, f k) + b :=
  acc4x512 f b T (biasAccum b T) hT rfl (fun _ _ => rfl)

end Law

theorem comb_acc_apply (x : Vec Ideal S1x4096 .f32) (w : Vec Ideal S4096x2048 .f32) (b : Vec Ideal S1x2048 .f32)
    (xs : ℕ → Vec Ideal S1x512 .f32) (ws : ℕ → Vec Ideal S512x2048 .f32) (acc : ℕ → Vec Ideal S1x2048 .f32)
    (j : Fin 2048)
    (hx : ∀ (t : ℕ) (ht : t < 8) (r : Fin 512),
      xs t (ix2 (0 : Fin 1) r) = x (ix2 (0 : Fin 1) (⟨t * 512 + r.val, by have := r.isLt; omega⟩ : Fin 4096)))
    (hw : ∀ (t : ℕ) (ht : t < 8) (r : Fin 512),
      ws t (ix2 r j) = w (ix2 (⟨t * 512 + r.val, by have := r.isLt; omega⟩ : Fin 4096) j))
    (h0 : acc 0 = k1_pay2 (F := Ideal) (xs 0) (ws 0) (k1_pay1 (F := Ideal) b))
    (hs : ∀ t, t + 1 < 8 → acc (t + 1) = k1_pay2 (F := Ideal) (xs (t + 1)) (ws (t + 1)) (acc t)) :
    acc 7 (ix2 (0 : Fin 1) j) = Cert.RefTerms.combine (F := Ideal) x w b (ix2 (0 : Fin 1) j) := by
  rw [combine_apply]
  refine acc8x512 (fun k : Fin 4096 => x (ix2 (0 : Fin 1) k) * w (ix2 k j)) (b (ix2 (0 : Fin 1) j))
    (fun t => ∑ r : Fin 512, xs t (ix2 (0 : Fin 1) r) * ws t (ix2 r j)) (fun t => acc t (ix2 (0 : Fin 1) j)) ?_ ?_ ?_
  · intro t ht
    exact Finset.sum_congr rfl fun r _ => by rw [hx t ht r, hw t ht r]
  · show acc 0 (ix2 (0 : Fin 1) j) = _
    rw [h0, k1_pay2_apply, k1_pay1_eq]
  · intro t ht
    show acc (t + 1) (ix2 (0 : Fin 1) j) = _
    rw [hs t ht, k1_pay2_apply]

theorem comb_acc_eq (x : Vec Ideal S1x4096 .f32) (w : Vec Ideal S4096x2048 .f32) (b : Vec Ideal S1x2048 .f32)
    (xs : ℕ → Vec Ideal S1x512 .f32) (ws : ℕ → Vec Ideal S512x2048 .f32) (acc : ℕ → Vec Ideal S1x2048 .f32)
    (hx : ∀ (t : ℕ) (ht : t < 8) (r : Fin 512),
      xs t (ix2 (0 : Fin 1) r) = x (ix2 (0 : Fin 1) (⟨t * 512 + r.val, by have := r.isLt; omega⟩ : Fin 4096)))
    (hw : ∀ (t : ℕ) (ht : t < 8) (r : Fin 512) (j : Fin 2048),
      ws t (ix2 r j) = w (ix2 (⟨t * 512 + r.val, by have := r.isLt; omega⟩ : Fin 4096) j))
    (h0 : acc 0 = k1_pay2 (F := Ideal) (xs 0) (ws 0) (k1_pay1 (F := Ideal) b))
    (hs : ∀ t, t + 1 < 8 → acc (t + 1) = k1_pay2 (F := Ideal) (xs (t + 1)) (ws (t + 1)) (acc t)) :
    acc 7 = Cert.RefTerms.combine (F := Ideal) x w b := by
  funext i
  obtain ⟨p, q, rfl⟩ : ∃ (p : Fin 1) (q : Fin 2048), i = ix2 p q := ⟨i 0, i 1, eq_ix2 i⟩
  have hp : p = 0 := Subsingleton.elim _ _
  subst hp
  exact comb_acc_apply x w b xs ws acc q hx (fun t ht r => hw t ht r q) h0 hs

theorem comb_acc_eq_bdd (x : Vec Ideal S1x4096 .f32) (w : Vec Ideal S4096x2048 .f32) (b : Vec Ideal S1x2048 .f32)
    (xs : (n : ℕ) → n < 8 → Vec Ideal S1x512 .f32) (ws : (n : ℕ) → n < 8 → Vec Ideal S512x2048 .f32)
    (acc : (n : ℕ) → n < 8 → Vec Ideal S1x2048 .f32)
    (hx : ∀ (t : ℕ) (ht : t < 8) (r : Fin 512),
      xs t ht (ix2 (0 : Fin 1) r) = x (ix2 (0 : Fin 1) (⟨t * 512 + r.val, by have := r.isLt; omega⟩ : Fin 4096)))
    (hw : ∀ (t : ℕ) (ht : t < 8) (r : Fin 512) (j : Fin 2048),
      ws t ht (ix2 r j) = w (ix2 (⟨t * 512 + r.val, by have := r.isLt; omega⟩ : Fin 4096) j))
    (h0 : acc 0 (by decide) = k1_pay2 (F := Ideal) (xs 0 (by decide)) (ws 0 (by decide)) (k1_pay1 (F := Ideal) b))
    (hs : ∀ t (ht : t + 1 < 8), acc (t + 1) ht = k1_pay2 (F := Ideal) (xs (t + 1) ht) (ws (t + 1) ht) (acc t (Nat.lt_of_succ_lt ht))) :
    acc 7 (by decide) = Cert.RefTerms.combine (F := Ideal) x w b := by
  have h := comb_acc_eq x w b (fun n => if hn : n < 8 then xs n hn else fun _ => 0)
    (fun n => if hn : n < 8 then ws n hn else fun _ => 0) (fun n => if hn : n < 8 then acc n hn else b)
    (fun t ht r => by rw [dif_pos ht]; exact hx t ht r)
    (fun t ht r j => by rw [dif_pos ht]; exact hw t ht r j)
    (by rw [dif_pos (by decide : 0 < 8), dif_pos (by decide : 0 < 8), dif_pos (by decide : 0 < 8)]; exact h0)
    (fun t ht => by rw [dif_pos ht, dif_pos ht, dif_pos ht, dif_pos (Nat.lt_of_succ_lt ht)]; exact hs t ht)
  rw [dif_pos (by decide : 7 < 8)] at h
  exact h

end Cert.KernelIdeal.Hand

end
-- ==== Proof.KI.Reg4Val.lean ====
/- The output projection column by column: the bias plus four block sums; the written blocks cover the array. -/
import proofs.«148525_j50087908606299_1_alg».proof.Proof.Gen.KernelIdeal.Launch
import proofs.«148525_j50087908606299_1_alg».proof.Proof.Gen.KernelIdeal.Skeleton
import proofs.«148525_j50087908606299_1_alg».proof.Proof.Gen.KernelIdeal.Points
import proofs.«148525_j50087908606299_1_alg».proof.Proof.KI.Val14
import Idealize.ShloMosaic.Lib.Pipeline.FrameBody
import Idealize.ShloMosaic.Lib.Pipeline.Value
import Idealize.ShloMosaic.Lib.ValueIdx
import Idealize.ShloMosaic.Lib.Tactic
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

def bs4 (a0 : Vec Ideal S1x2048 .f32) (a1 : Vec Ideal S2048x50257 .f32) (k : ℕ) (J : Fin 50257) : Elt Ideal .f32 :=
  ∑ kk : Fin 512, if h : 512 * k + kk.val < 2048 then a0 (ix2 0 ⟨512 * k + kk.val, h⟩) * a1 (ix2 ⟨512 * k + kk.val, h⟩ J) else 0

def part4 (a0 : Vec Ideal S1x2048 .f32) (a1 : Vec Ideal S2048x50257 .f32) (a2 : Vec Ideal S1x50257 .f32) (J : Fin 50257) : ℕ → Elt Ideal .f32
  | 0 => a2 (ix2 0 J) + bs4 a0 a1 0 J
  | k + 1 => part4 a0 a1 a2 J k + bs4 a0 a1 (k + 1) J

def out4 (a0 : Vec Ideal S1x2048 .f32) (a1 : Vec Ideal S2048x50257 .f32) (a2 : Vec Ideal S1x50257 .f32) : Vec Ideal S1x50257 .f32 :=
  fun i => part4 a0 a1 a2 ⟨(i 1).val, idx2_lt1 i⟩ 3

theorem term4_congr (a0 : Vec Ideal S1x2048 .f32) (a1 : Vec Ideal S2048x50257 .f32) (J : Fin 50257) {m n : ℕ}
    (hm : m < 2048) (hn : n < 2048) (h : m = n) :
    a0 (ix2 0 ⟨m, hm⟩) * a1 (ix2 ⟨m, hm⟩ J) = a0 (ix2 0 ⟨n, hn⟩) * a1 (ix2 ⟨n, hn⟩ J) := by
  subst h; rfl

theorem mem_blk4_3 (t : Fin cfg4.N) (i : S1x50257.Idx) :
    i ∈ ((cfg4.win 3).blk t).view.set ↔
      ∀ a, win4_3.index t a * win4_3.size a ≤ (i a : ℕ)
        ∧ (i a : ℕ) < win4_3.index t a * win4_3.size a + win4_3.xsize (grid4.coords t) a := by
  show i ∈ ((View.whole main_v47).slice (win4_3.rect t)).set ↔ _
  rw [View.set_slice_whole, Rect.mem_set_unit]

theorem blk4_3_bounds : ∀ t : Fin grid4.N,
    (win4_3.index t 0 * win4_3.size 0 = 0 ∧ win4_3.xsize (grid4.coords t) 0 = 1) ∧
    (win4_3.index t 1 * win4_3.size 1 = 8192 * (t.val / 4) ∧
      win4_3.index t 1 * win4_3.size 1 + win4_3.xsize (grid4.coords t) 1 = min (8192 * (t.val / 4) + 8192) 50257) := by
  decide +kernel

theorem cover4_3 (i : S1x50257.Idx) : ∃ t : Fin cfg4.N, (cfg4.win 3).flush t = true ∧ i ∈ ((cfg4.win 3).blk t).view.set := by
  have h0 : (i 0 : ℕ) < 1 := idx2_lt0 i
  have h1 : (i 1 : ℕ) < 50257 := idx2_lt1 i
  have hN : cfg4.N = 28 := N_4
  obtain ⟨t, htv⟩ : ∃ t : Fin cfg4.N, t.val = 4 * ((i 1 : ℕ) / 8192) + 3 := ⟨⟨_, by omega⟩, rfl⟩
  refine ⟨t, (flush4_3 t).2 (by omega), ?_⟩
  obtain ⟨⟨e0, x0⟩, e1, x1⟩ := blk4_3_bounds t
  rw [mem_blk4_3]
  intro a
  match a with
  | ⟨0, _⟩ =>
    change win4_3.index t 0 * win4_3.size 0 ≤ (i 0 : ℕ)
      ∧ (i 0 : ℕ) < win4_3.index t 0 * win4_3.size 0 + win4_3.xsize (grid4.coords t) 0
    rw [e0, x0]; omega
  | ⟨1, _⟩ =>
    change win4_3.index t 1 * win4_3.size 1 ≤ (i 1 : ℕ)
      ∧ (i 1 : ℕ) < win4_3.index t 1 * win4_3.size 1 + win4_3.xsize (grid4.coords t) 1
    rw [x1, e1]; omega

theorem bs4_tile (a0 : Vec Ideal S1x2048 .f32) (a1 : Vec Ideal S2048x50257 .f32) (t : ℕ) (ht : t < 4) (J : Fin 50257) :
    bs4 a0 a1 t J = ∑ r : Fin 512, (fun k : Fin 2048 => a0 (ix2 0 k) * a1 (ix2 k J)) ⟨t * 512 + r.val, by have := r.isLt; omega⟩ := by
  unfold bs4
  refine Finset.sum_congr rfl fun r _ => ?_
  rw [dif_pos (by have := r.isLt; omega)]
  exact term4_congr a0 a1 J _ _ (by omega)

theorem out4_eq (a0 : Vec Ideal S1x2048 .f32) (a1 : Vec Ideal S2048x50257 .f32) (a2 : Vec Ideal S1x50257 .f32) :
    out4 a0 a1 a2 = Cert.RefTerms.outProj (F := Ideal) a0 a1 a2 := by
  funext i
  obtain ⟨p, j, rfl⟩ : ∃ (p : Fin 1) (j : Fin 50257), i = ix2 p j := ⟨i 0, i 1, eq_ix2 i⟩
  obtain rfl : p = 0 := Fin.eq_zero p
  rw [outProj_apply]
  exact nested4x512 (fun k : Fin 2048 => a0 (ix2 0 k) * a1 (ix2 k j)) (a2 (ix2 0 j)) (fun t => bs4 a0 a1 t j)
    (fun t ht => bs4_tile a0 a1 t ht j)

end Cert.KernelIdeal.Hand

end
-- ==== Proof.KI.Reg4.lean ====
/- Region 4 at the exact reals: four accumulation steps per block of 8192 output columns; a column of the result depends only on that column of the operands. -/
import proofs.«148525_j50087908606299_1_alg».proof.Proof.Gen.KernelIdeal.Launch
import proofs.«148525_j50087908606299_1_alg».proof.Proof.Gen.KernelIdeal.Skeleton
import proofs.«148525_j50087908606299_1_alg».proof.Proof.Gen.KernelIdeal.Points
import proofs.«148525_j50087908606299_1_alg».proof.Proof.KI.Reg4Val
import proofs.«148525_j50087908606299_1_alg».proof.Proof.KI.Val14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.Lib.Tactic
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

local notation "𝕄" => MT nD τ sig Unit (Elt Ideal) ℕ (UR sig nD τ) ℕ

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

abbrev r4s : Rect S1x8192 := Rect.unit (s := S1x8192) ![0, 0] S1x8192.size inb_S1x8192_S1x8192_0_0

theorem hz4 : (![0, 0] : Fin 2 → Nat) = fun _ => 0 := funext fun a => by fin_cases a <;> rfl

theorem cover4_s (p0 : Vec Ideal S1x8192 .f32) (y : S1x8192.Idx) :
    ∃ pc ∈ ([⟨r4s, p0⟩] : List (View.Piece (Elt Ideal) S1x8192 .f32)), y ∈ pc.1.set :=
  View.cover_of_tiled [⟨r4s, p0⟩] S1x8192.size (by rfl) y
theorem cover4_s2 (p0 p1 : Vec Ideal S1x8192 .f32) (y : S1x8192.Idx) :
    ∃ pc ∈ ([⟨r4s, p0⟩, ⟨r4s, p1⟩] : List (View.Piece (Elt Ideal) S1x8192 .f32)), y ∈ pc.1.set :=
  ⟨⟨r4s, p0⟩, List.mem_cons_self, View.mem_set_unit_zero (S := S1x8192) hz4 inb_S1x8192_S1x8192_0_0 y⟩

set_option maxHeartbeats 1000000 in
theorem sound_kernel4_B (c : Dev nD) (E : Set ℕ) (i : grid4.Coords)
    (arg2 : Memref sig .tc .vmem S1x512 .f32) (harg2 : arg2.IsWhole) (arg3 : Memref sig .tc .vmem S512x8192 .f32) (harg3 : arg3.IsWhole)
    (arg4 : Memref sig .tc .vmem S1x8192 .f32) (harg4 : arg4.IsWhole) (arg5 : Memref sig .tc .vmem S1x8192 .f32) (harg5 : arg5.IsWhole)
    (arg6 : Memref sig .tc .vmem S1x8192 .f32) (harg6 : arg6.IsWhole) (hc0 : ¬cond4_0 i) (hc1 : ¬cond4_1 i)
    (x : Vec Ideal S1x512 .f32) (w : Vec Ideal S512x8192 .f32) (s : Vec Ideal S1x8192 .f32) (K : PUnit → sProp 𝕄) :
    iprop(owns (c : Thread nD τ) arg2 fullShare x ∗ owns (c : Thread nD τ) arg3 fullShare w ∗ owns (c : Thread nD τ) arg6 fullShare s
        ∗ (iprop(owns (c : Thread nD τ) arg2 fullShare x ∗ owns (c : Thread nD τ) arg3 fullShare w
              ∗ owns (c : Thread nD τ) arg6 fullShare (k4_pay2 (F := Ideal) x w s)) -∗ K ⟨⟩))
      ⊢ wp frame (wpE (defs₀ (F := Ideal)) Variants.none c none) E (cc4__out_proj_kernel (F := Ideal) i arg2 harg2 arg3 harg3 arg4 harg4 arg5 harg5 arg6 harg6) K := by
  simp only [cc4__out_proj_kernel_eq_skeleton]; unfold cc4__out_proj_kernel_skel
  unfold owns
  iintro ⟨⟨%f2, %hf2, H2⟩, ⟨%f3, %hf3, H3⟩, ⟨%f6, %hf6, H6⟩, Hk⟩
  subst hf2; subst hf3; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_run_names
  rw [View.read_writes_eq_canon _ _ _ (cover4_s _), View.canon_unit_zero hz4]
  simp only [View.readAt_eq_ld]
  rw [View.ld_unit_zero (S := S1x512) hz4, View.ld_unit_zero (S := S512x8192) hz4, View.ld_unit_zero (S := S1x8192) hz4]

set_option maxHeartbeats 1000000 in
theorem sound_kernel4_A (c : Dev nD) (E : Set ℕ) (i : grid4.Coords)
    (arg2 : Memref sig .tc .vmem S1x512 .f32) (harg2 : arg2.IsWhole) (arg3 : Memref sig .tc .vmem S512x8192 .f32) (harg3 : arg3.IsWhole)
    (arg4 : Memref sig .tc .vmem S1x8192 .f32) (harg4 : arg4.IsWhole) (arg5 : Memref sig .tc .vmem S1x8192 .f32) (harg5 : arg5.IsWhole)
    (arg6 : Memref sig .tc .vmem S1x8192 .f32) (harg6 : arg6.IsWhole) (hc0 : cond4_0 i) (hc1 : ¬cond4_1 i)
    (x : Vec Ideal S1x512 .f32) (w : Vec Ideal S512x8192 .f32) (b : Vec Ideal S1x8192 .f32) (K : PUnit → sProp 𝕄) :
    iprop(owns (c : Thread nD τ) arg2 fullShare x ∗ owns (c : Thread nD τ) arg3 fullShare w ∗ owns (c : Thread nD τ) arg4 fullShare b
        ∗ (∃ d, owns (c : Thread nD τ) arg6 fullShare d)
        ∗ (iprop(owns (c : Thread nD τ) arg2 fullShare x ∗ owns (c : Thread nD τ) arg3 fullShare w ∗ owns (c : Thread nD τ) arg4 fullShare b
              ∗ owns (c : Thread nD τ) arg6 fullShare (k4_pay2 (F := Ideal) x w (k4_pay1 (F := Ideal) b))) -∗ K ⟨⟩))
      ⊢ wp frame (wpE (defs₀ (F := Ideal)) Variants.none c none) E (cc4__out_proj_kernel (F := Ideal) i arg2 harg2 arg3 harg3 arg4 harg4 arg5 harg5 arg6 harg6) K := by
  simp only [cc4__out_proj_kernel_eq_skeleton]; unfold cc4__out_proj_kernel_skel
  unfold owns
  iintro ⟨⟨%f2, %hf2, H2⟩, ⟨%f3, %hf3, H3⟩, ⟨%f4, %hf4, H4⟩, ⟨%d6, %f6, -, H6⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H6
  ipureintro
  sl_unfold_run_names
  rw [View.read_writes_eq_canon _ _ _ (cover4_s2 _ _), View.canon_cons_unit_zero hz4, View.readCov_cons_toLoadRect]
  simp only [View.readAt_eq_ld]
  rw [View.ld_unit_zero (S := S1x512) hz4, View.ld_unit_zero (S := S512x8192) hz4, View.ld_unit_zero (S := S1x8192) hz4]

set_option maxHeartbeats 1000000 in
theorem sound_kernel4_C (c : Dev nD) (E : Set ℕ) (i : grid4.Coords)
    (arg2 : Memref sig .tc .vmem S1x512 .f32) (harg2 : arg2.IsWhole) (arg3 : Memref sig .tc .vmem S512x8192 .f32) (harg3 : arg3.IsWhole)
    (arg4 : Memref sig .tc .vmem S1x8192 .f32) (harg4 : arg4.IsWhole) (arg5 : Memref sig .tc .vmem S1x8192 .f32) (harg5 : arg5.IsWhole)
    (arg6 : Memref sig .tc .vmem S1x8192 .f32) (harg6 : arg6.IsWhole) (hc0 : ¬cond4_0 i) (hc1 : cond4_1 i)
    (x : Vec Ideal S1x512 .f32) (w : Vec Ideal S512x8192 .f32) (s : Vec Ideal S1x8192 .f32) (K : PUnit → sProp 𝕄) :
    iprop(owns (c : Thread nD τ) arg2 fullShare x ∗ owns (c : Thread nD τ) arg3 fullShare w
        ∗ (∃ d, owns (c : Thread nD τ) arg5 fullShare d) ∗ owns (c : Thread nD τ) arg6 fullShare s
        ∗ (iprop(owns (c : Thread nD τ) arg2 fullShare x ∗ owns (c : Thread nD τ) arg3 fullShare w
              ∗ owns (c : Thread nD τ) arg5 fullShare (k4_pay2 (F := Ideal) x w s) ∗ owns (c : Thread nD τ) arg6 fullShare (k4_pay2 (F := Ideal) x w s)) -∗ K ⟨⟩))
      ⊢ wp frame (wpE (defs₀ (F := Ideal)) Variants.none c none) E (cc4__out_proj_kernel (F := Ideal) i arg2 harg2 arg3 harg3 arg4 harg4 arg5 harg5 arg6 harg6) K := by
  simp only [cc4__out_proj_kernel_eq_skeleton]; unfold cc4__out_proj_kernel_skel
  unfold owns
  iintro ⟨⟨%f2, %hf2, H2⟩, ⟨%f3, %hf3, H3⟩, ⟨%d5, %f5, -, H5⟩, ⟨%f6, %hf6, H6⟩, Hk⟩
  subst hf2; subst hf3; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_run_names
    rw [View.read_writes_eq_canon _ _ _ (cover4_s _), View.canon_unit_zero hz4, View.readCov_cons_toLoadRect]
    simp only [View.readAt_eq_ld]
    rw [View.ld_unit_zero (S := S1x512) hz4, View.ld_unit_zero (S := S512x8192) hz4, View.ld_unit_zero (S := S1x8192) hz4]
  iexists _; isplitr
  swap; · iexact H6
  ipureintro
  sl_unfold_run_names
  rw [View.read_writes_eq_canon _ _ _ (cover4_s _), View.canon_unit_zero hz4]
  simp only [View.readAt_eq_ld]
  rw [View.ld_unit_zero (S := S1x512) hz4, View.ld_unit_zero (S := S512x8192) hz4, View.ld_unit_zero (S := S1x8192) hz4]

variable (V : (c : Dev nD) → (b : Ref sig .tc) → Buf (Elt Ideal) ((c : Thread nD τ).loc b))

theorem fetch4_3 : ∀ t : Fin cfg4.N, (cfg4.win 3).fetch t = false :=
  (by decide +kernel : ∀ t : Fin grid4.N, win4_3.fetch t = false)
theorem idleAt4_3 : ∀ t : Fin cfg4.N, ¬t.val % 4 = 3 → cfg4.idle 3 (grid4.coords t) = true :=
  (by decide +kernel : ∀ t : Fin grid4.N, ¬t.val % 4 = 3 → idle4 3 (grid4.coords t) = true)
theorem liveAt4_3 : ∀ t : Fin cfg4.N, t.val % 4 = 3 → cfg4.idle 3 (grid4.coords t) = false :=
  (by decide +kernel : ∀ t : Fin grid4.N, t.val % 4 = 3 → idle4 3 (grid4.coords t) = false)
theorem noFlush4_3 (t : Fin cfg4.N) (h : ¬t.val % 4 = 3) : (cfg4.win 3).flush t = false := by
  cases hf : (cfg4.win 3).flush t
  · rfl
  · exact absurd ((flush4_3 t).mp hf) h

def iblk4 (c : Dev nD) (w : Fin cfg4.W) (t : Fin cfg4.N) : ((cfg4.win w).xblock (cfg4.grid.coords t)).Idx → Elt Ideal (cfg4.win w).elt :=
  ((cfg4.win w).blk t).view.read (Elt Ideal) (V c (Pipeline.arrRef spec4 w))

theorem before4_0_of {c : Dev nD} (dat : Dat τ (Elt Ideal) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem hclip4_1 (t t' : Fin cfg4.N) (h : (cfg4.win 1).index t = (cfg4.win 1).index t') :
    (cfg4.win 1).clip (cfg4.grid.coords t) = (cfg4.win 1).clip (cfg4.grid.coords t') := by
  show (fun a => Pipeline.Clip.of ((cfg4.win 1).index t a) _ _) = (fun a => Pipeline.Clip.of ((cfg4.win 1).index t' a) _ _)
  rw [h]
theorem hclip4_2 (t t' : Fin cfg4.N) (h : (cfg4.win 2).index t = (cfg4.win 2).index t') :
    (cfg4.win 2).clip (cfg4.grid.coords t) = (cfg4.win 2).clip (cfg4.grid.coords t') := by
  show (fun a => Pipeline.Clip.of ((cfg4.win 2).index t a) _ _) = (fun a => Pipeline.Clip.of ((cfg4.win 2).index t' a) _ _)
  rw [h]

theorem before4_1_of {c : Dev nD} (dat : Dat τ (Elt Ideal) Unit ℕ (UR sig nD τ) ℕ cfg4 c) (hA : dat.A 1 = V c (Pipeline.arrRef spec4 1))
    (hafter : ∀ t, (cfg4.win 1).cut (cfg4.grid.coords t) (dat.after 1 t) = iblk4 V c 1 t) (t : Fin cfg4.N) (d) :
    dat.before 1 t d = (cfg4.win 1).fill (cfg4.grid.coords t) d (iblk4 V c 1 t) :=
  (dat.before_in_eq_fetched 1 rfl (fun _ => rfl) hclip4_1 (fun t => by rw [hafter]; unfold Dat.blockOf iblk4; rw [hA]) t d).trans
    (by unfold Dat.fetched Dat.blockOf iblk4; rw [hA])
theorem before4_2_of {c : Dev nD} (dat : Dat τ (Elt Ideal) Unit ℕ (UR sig nD τ) ℕ cfg4 c) (hA : dat.A 2 = V c (Pipeline.arrRef spec4 2))
    (hafter : ∀ t, (cfg4.win 2).cut (cfg4.grid.coords t) (dat.after 2 t) = iblk4 V c 2 t) (t : Fin cfg4.N) (d) :
    dat.before 2 t d = (cfg4.win 2).fill (cfg4.grid.coords t) d (iblk4 V c 2 t) :=
  (dat.before_in_eq_fetched 2 rfl (fun _ => rfl) hclip4_2 (fun t => by rw [hafter]; unfold Dat.blockOf iblk4; rw [hA]) t d).trans
    (by unfold Dat.fetched Dat.blockOf iblk4; rw [hA])

theorem before4_3_of {c : Dev nD} (dat : Dat τ (Elt Ideal) Unit ℕ (UR sig nD τ) ℕ cfg4 c) :
    ∀ (n : ℕ) (hn : n < cfg4.N) (d), dat.before 3 ⟨n, hn⟩ d = d := by
  intro n
  induction n with
  | zero =>
    intro hn d
    unfold Dat.before
    rw [if_neg (by rw [fetch4_3]; exact Bool.false_ne_true), if_pos rfl]
  | succ n ih =>
    intro hn d
    rw [dat.before_of_pos 3 ⟨n + 1, hn⟩ (Nat.succ_ne_zero n) (fetch4_3 _) d]
    have hn' : n < cfg4.N := Nat.lt_of_succ_lt hn
    show (if (cfg4.win 3).flush ⟨n, hn'⟩ = true then d else dat.left 3 ⟨n, hn'⟩ d) = d
    by_cases hf : (cfg4.win 3).flush ⟨n, hn'⟩ = true
    · rw [if_pos hf]
    · rw [if_neg hf]
      have h3 : ¬(⟨n, hn'⟩ : Fin cfg4.N).val % 4 = 3 := fun h => hf ((flush4_3 _).mpr h)
      unfold Dat.left
      rw [idleAt4_3 _ h3]
      exact ih hn' d

abbrev scM4 : Memref sig .tc .vmem S1x8192 .f32 := Memref.whole cc4_scratch0

def Kept4 (c : Dev nD) (n : ℕ) (s : Vec Ideal S1x8192 .f32) : Prop :=
  ∀ (j : Fin 8192) (h : 8192 * (n / 4) + j.val < 50257),
    s (ix2 0 j) = part4 (V c main_v45) (V c main_arg12) (V c main_v46) ⟨8192 * (n / 4) + j.val, h⟩ (n % 4)

def Phi4 (c : Dev nD) : (n : ℕ) → n ≤ cfg4.N → sProp 𝕄
  | 0, _ => Pipeline.ΦA spec4 c
  | n + 1, _ => iprop((iprop(∃ s : Vec Ideal S1x8192 .f32, ⌜Kept4 V c n s⌝ ∗ owns (c : Thread nD τ) scM4 fullShare s)
      ∗ Pipeline.scopedRestBut (Ix := Unit) (Name := ℕ) (U := UR sig nD τ) (Lvl := ℕ) (Val := Elt Ideal) spec4 c [cc4_scratch0])
      ∗ (∃ r, prngReg c r))

theorem Phi4_zero (c : Dev nD) (n : ℕ) (h : n ≤ cfg4.N) (hz : n = 0) : Phi4 V c n h = Pipeline.ΦA spec4 c := by
  subst hz; rfl
theorem Phi4_succ (c : Dev nD) (n : ℕ) (hn : n + 1 ≤ cfg4.N) :
    Phi4 V c (n + 1) hn = iprop((iprop(∃ s : Vec Ideal S1x8192 .f32, ⌜Kept4 V c n s⌝ ∗ owns (c : Thread nD τ) scM4 fullShare s)
      ∗ Pipeline.scopedRestBut (Ix := Unit) (Name := ℕ) (U := UR sig nD τ) (Lvl := ℕ) (Val := Elt Ideal) spec4 c [cc4_scratch0])
      ∗ (∃ r, prngReg c r)) := rfl
theorem Phi4_pos (c : Dev nD) (n : ℕ) (h : n ≤ cfg4.N) (hz : n ≠ 0) :
    Phi4 V c n h = iprop((iprop(∃ s : Vec Ideal S1x8192 .f32, ⌜Kept4 V c (n - 1) s⌝ ∗ owns (c : Thread nD τ) scM4 fullShare s)
      ∗ Pipeline.scopedRestBut (Ix := Unit) (Name := ℕ) (U := UR sig nD τ) (Lvl := ℕ) (Val := Elt Ideal) spec4 c [cc4_scratch0])
      ∗ (∃ r, prngReg c r)) := by
  cases n with
  | zero => exact absurd rfl hz
  | succ n => rfl

theorem PhiA4_eq (c : Dev nD) :
    (Pipeline.ΦA spec4 c : sProp 𝕄)
      = iprop((iprop(∃ d, owns (c : Thread nD τ) scM4 fullShare d)
          ∗ Pipeline.scopedRestBut (Ix := Unit) (Name := ℕ) (U := UR sig nD τ) (Lvl := ℕ) (Val := Elt Ideal) spec4 c [cc4_scratch0])
          ∗ (∃ r, prngReg c r)) := by
  unfold Pipeline.ΦA; rw [scopedRest4_split]; simp only [scM4, owns_whole]; try rfl

def dat4 (c : Dev nD) : Dat τ (Elt Ideal) Unit ℕ (UR sig nD τ) ℕ cfg4 c where
  A w := V c (Pipeline.arrRef spec4 w)
  after w t := match w with
    | ⟨0, _⟩ => iblk4 V c 0 t
    | ⟨1, _⟩ => (cfg4.win 1).fill (cfg4.grid.coords t) (fun _ => (0 : Elt Ideal .f32)) (iblk4 V c 1 t)
    | ⟨2, _⟩ => (cfg4.win 2).fill (cfg4.grid.coords t) (fun _ => (0 : Elt Ideal .f32)) (iblk4 V c 2 t)
    | ⟨3, _⟩ => (cfg4.win 3).fill (cfg4.grid.coords t) (fun _ => (0 : Elt Ideal .f32))
        (((cfg4.win 3).blk t).view.read (Elt Ideal) (out4 (V c main_v45) (V c main_arg12) (V c main_v46)))
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem share4 (c : Dev nD) (w : Fin cfg4.W) : (dat4 V c).share w = fullShare :=
  (dat4 V c).share_full (fun _ => rfl) w
theorem owed4 (c : Dev nD) (t : Fin (cfg4.N + 1)) : (dat4 V c).owed t = 0 := by dsimp only [dat4]
theorem recorded4 (c : Dev nD) (t : Fin (cfg4.N + 1)) : (dat4 V c).recorded t = Set.univ := by dsimp only [dat4]

theorem after4_0 (c : Dev nD) (t : Fin cfg4.N) : (dat4 V c).after 0 t = iblk4 V c 0 t := by dsimp only [dat4]
theorem after4_1 (c : Dev nD) (t : Fin cfg4.N) :
    (dat4 V c).after 1 t = (cfg4.win 1).fill (cfg4.grid.coords t) (fun _ => (0 : Elt Ideal .f32)) (iblk4 V c 1 t) := by dsimp only [dat4]
theorem after4_2 (c : Dev nD) (t : Fin cfg4.N) :
    (dat4 V c).after 2 t = (cfg4.win 2).fill (cfg4.grid.coords t) (fun _ => (0 : Elt Ideal .f32)) (iblk4 V c 2 t) := by dsimp only [dat4]
theorem after4_3 (c : Dev nD) (t : Fin cfg4.N) :
    (dat4 V c).after 3 t = (cfg4.win 3).fill (cfg4.grid.coords t) (fun _ => (0 : Elt Ideal .f32))
      (((cfg4.win 3).blk t).view.read (Elt Ideal) (out4 (V c main_v45) (V c main_arg12) (V c main_v46))) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) :
    (dat4 V c).before 1 t d = (cfg4.win 1).fill (cfg4.grid.coords t) d (iblk4 V c 1 t) :=
  before4_1_of V (dat4 V c) (A_eq4 V c 1) (fun t => by rw [after4_1]; exact (cfg4.win 1).cut_fill _ _ _) t d
theorem before4_2 (c : Dev nD) (t : Fin cfg4.N) (d) :
    (dat4 V c).before 2 t d = (cfg4.win 2).fill (cfg4.grid.coords t) d (iblk4 V c 2 t) :=
  before4_2_of V (dat4 V c) (A_eq4 V c 2) (fun t => by rw [after4_2]; exact (cfg4.win 2).cut_fill _ _ _) t d
theorem before4_3 (c : Dev nD) (t : Fin cfg4.N) (d) : (dat4 V c).before 3 t d = d :=
  before4_3_of (dat4 V c) t.val t.isLt d

theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨⟨%s, -, HS⟩, HR⟩, Hg⟩
  isplitl [HS HR]
  · isplitl [HS]
    · iexists s; iexact HS
    iexact HR
  iexact Hg
theorem hout4 (c : Dev nD) : (dat4 V c).Φ (Fin.last cfg4.N) ⊢ Pipeline.ΦA spec4 c :=
  Phi4_out V c _ (by rw [Fin.val_last]; have : cfg4.N = 28 := N_4; omega)

theorem arr4_3 (c : Dev nD) : (dat4 V c).arrAt 3 cfg4.N = out4 (V c main_v45) (V c main_arg12) (V c main_v46) :=
  (dat4 V c).arrAt_eq_of_cover 3 _ (fun t _ => by
    show (cfg4.win 3).cut (cfg4.grid.coords t) ((dat4 V c).after 3 t) = _
    rw [after4_3]; exact (cfg4.win 3).cut_fill _ _ _) cover4_3

theorem idx4 : ∀ t : Fin cfg4.N,
    win4_0.index t 0 = 0 ∧ win4_0.index t 1 = t.val % 4 ∧ win4_1.index t 0 = t.val % 4 ∧ win4_1.index t 1 = t.val / 4
      ∧ win4_2.index t 0 = 0 ∧ win4_2.index t 1 = t.val / 4 ∧ win4_3.index t 0 = 0 ∧ win4_3.index t 1 = t.val / 4 :=
  (by decide +kernel : ∀ t : Fin grid4.N,
    win4_0.index t 0 = 0 ∧ win4_0.index t 1 = t.val % 4 ∧ win4_1.index t 0 = t.val % 4 ∧ win4_1.index t 1 = t.val / 4
      ∧ win4_2.index t 0 = 0 ∧ win4_2.index t 1 = t.val / 4 ∧ win4_3.index t 0 = 0 ∧ win4_3.index t 1 = t.val / 4)

theorem xsz4 : ∀ t : Fin cfg4.N,
    win4_1.xsize (grid4.coords t) 0 = 512 ∧ win4_1.xsize (grid4.coords t) 1 = min 8192 (50257 - 8192 * (t.val / 4))
      ∧ win4_2.xsize (grid4.coords t) 0 = 1 ∧ win4_2.xsize (grid4.coords t) 1 = min 8192 (50257 - 8192 * (t.val / 4))
      ∧ win4_3.xsize (grid4.coords t) 0 = 1 ∧ win4_3.xsize (grid4.coords t) 1 = min 8192 (50257 - 8192 * (t.val / 4)) :=
  (by decide +kernel : ∀ t : Fin grid4.N,
    win4_1.xsize (grid4.coords t) 0 = 512 ∧ win4_1.xsize (grid4.coords t) 1 = min 8192 (50257 - 8192 * (t.val / 4))
      ∧ win4_2.xsize (grid4.coords t) 0 = 1 ∧ win4_2.xsize (grid4.coords t) 1 = min 8192 (50257 - 8192 * (t.val / 4))
      ∧ win4_3.xsize (grid4.coords t) 0 = 1 ∧ win4_3.xsize (grid4.coords t) 1 = min 8192 (50257 - 8192 * (t.val / 4)))

theorem read_blk4_0 (G : Vec Ideal S1x2048 .f32) (t : Fin cfg4.N) (y : (win4_0.xblock (grid4.coords t)).Idx) (i1 : Fin 2048)
    (h1 : i1.val = 512 * (t.val % 4) + (y 1).val) : (win4_0.blk t).view.read (Elt Ideal) G y = G (ix2 0 i1) := by
  show G ((win4_0.rect t).emb y) = _
  refine congrArg G (Shape.idx_ext₂ ?_ ?_)
  · rw [win4_0.rect_emb_val t y 0, (idx4 t).1]; have hy : (y 0).val < 1 := (y 0).isLt; show 0 * 1 + (y 0).val = 0; omega
  · rw [win4_0.rect_emb_val t y 1, (idx4 t).2.1, h1]; show t.val % 4 * 512 + _ = _; omega

theorem read_blk4_1 (G : Vec Ideal S2048x50257 .f32) (t : Fin cfg4.N) (y : (win4_1.xblock (grid4.coords t)).Idx) (i0 : Fin 2048) (i1 : Fin 50257)
    (h0 : i0.val = 512 * (t.val % 4) + (y 0).val) (h1 : i1.val = 8192 * (t.val / 4) + (y 1).val) :
    (win4_1.blk t).view.read (Elt Ideal) G y = G (ix2 i0 i1) := by
  show G ((win4_1.rect t).emb y) = _
  refine congrArg G (Shape.idx_ext₂ ?_ ?_)
  · rw [win4_1.rect_emb_val t y 0, (idx4 t).2.2.1, h0]; show t.val % 4 * 512 + _ = _; omega
  · rw [win4_1.rect_emb_val t y 1, (idx4 t).2.2.2.1, h1]; show t.val / 4 * 8192 + _ = _; omega

theorem read_blk4_2 (G : Vec Ideal S1x50257 .f32) (t : Fin cfg4.N) (y : (win4_2.xblock (grid4.coords t)).Idx) (i1 : Fin 50257)
    (h1 : i1.val = 8192 * (t.val / 4) + (y 1).val) : (win4_2.blk t).view.read (Elt Ideal) G y = G (ix2 0 i1) := by
  show G ((win4_2.rect t).emb y) = _
  refine congrArg G (Shape.idx_ext₂ ?_ ?_)
  · rw [win4_2.rect_emb_val t y 0, (idx4 t).2.2.2.2.1]
    have hy : (y 0).val < win4_2.xsize (grid4.coords t) 0 := (y 0).isLt
    rw [(xsz4 t).2.2.1] at hy; show 0 * 1 + (y 0).val = 0; omega
  · rw [win4_2.rect_emb_val t y 1, (idx4 t).2.2.2.2.2.1, h1]; show t.val / 4 * 8192 + _ = _; omega
theorem read_blk4_3 (G : Vec Ideal S1x50257 .f32) (t : Fin cfg4.N) (y : (win4_3.xblock (grid4.coords t)).Idx) (i1 : Fin 50257)
    (h1 : i1.val = 8192 * (t.val / 4) + (y 1).val) : (win4_3.blk t).view.read (Elt Ideal) G y = G (ix2 0 i1) := by
  show G ((win4_3.rect t).emb y) = _
  refine congrArg G (Shape.idx_ext₂ ?_ ?_)
  · rw [win4_3.rect_emb_val t y 0, (idx4 t).2.2.2.2.2.2.1]
    have hy : (y 0).val < win4_3.xsize (grid4.coords t) 0 := (y 0).isLt
    rw [(xsz4 t).2.2.2.2.1] at hy; show 0 * 1 + (y 0).val = 0; omega
  · rw [win4_3.rect_emb_val t y 1, (idx4 t).2.2.2.2.2.2.2, h1]; show t.val / 4 * 8192 + _ = _; omega

theorem moved4_1 (t : Fin cfg4.N) (kk : Fin 512) (j : Fin 8192) (h : 8192 * (t.val / 4) + j.val < 50257) :
    win4_1.moved (grid4.coords t) (ix2 kk j) = true :=
  (win4_1.moved_iff _ _).mpr fun a => match a with
    | ⟨0, _⟩ => by show kk.val < win4_1.xsize (grid4.coords t) 0; rw [(xsz4 t).1]; exact kk.isLt
    | ⟨1, _⟩ => by show j.val < win4_1.xsize (grid4.coords t) 1; rw [(xsz4 t).2.1]; have := j.isLt; omega
theorem moved4_2 (t : Fin cfg4.N) (j : Fin 8192) (h : 8192 * (t.val / 4) + j.val < 50257) :
    win4_2.moved (grid4.coords t) (ix2 0 j) = true :=
  (win4_2.moved_iff _ _).mpr fun a => match a with
    | ⟨0, _⟩ => by show (0 : Fin 1).val < win4_2.xsize (grid4.coords t) 0; rw [(xsz4 t).2.2.1]; exact Nat.zero_lt_one
    | ⟨1, _⟩ => by show j.val < win4_2.xsize (grid4.coords t) 1; rw [(xsz4 t).2.2.2.1]; have := j.isLt; omega

theorem col4 (c : Dev nD) (t : Fin cfg4.N) (d1 : win4_1.block.Idx → Elt Ideal .f32) (s : Vec Ideal S1x8192 .f32) (j : Fin 8192)
    (h : 8192 * (t.val / 4) + j.val < 50257) :
    k4_pay2 (F := Ideal) (iblk4 V c 0 t) (win4_1.fill (grid4.coords t) d1 (iblk4 V c 1 t)) s (ix2 0 j)
      = s (ix2 0 j) + bs4 (V c main_v45) (V c main_arg12) (t.val % 4) ⟨8192 * (t.val / 4) + j.val, h⟩ := by
  rw [k4_pay2_apply]
  congr 1
  unfold bs4
  refine Finset.sum_congr rfl fun kk _ => ?_
  have hk : 512 * (t.val % 4) + kk.val < 2048 := by have := kk.isLt; omega
  rw [dif_pos hk]
  congr 1
  · exact read_blk4_0 _ t _ _ rfl
  · unfold Window.fill; rw [dif_pos (moved4_1 t kk j h)]; exact read_blk4_1 _ t _ _ _ rfl rfl

theorem bias4 (c : Dev nD) (t : Fin cfg4.N) (d2 : win4_2.block.Idx → Elt Ideal .f32) (j : Fin 8192)
    (h : 8192 * (t.val / 4) + j.val < 50257) :
    win4_2.fill (grid4.coords t) d2 (iblk4 V c 2 t) (ix2 0 j) = V c main_v46 (ix2 0 ⟨8192 * (t.val / 4) + j.val, h⟩) := by
  unfold Window.fill; rw [dif_pos (moved4_2 t j h)]; exact read_blk4_2 _ t _ _ rfl

theorem kept4_reset (c : Dev nD) (t : Fin cfg4.N) (ht : t.val % 4 = 0) (d1 : win4_1.block.Idx → Elt Ideal .f32) (d2 : win4_2.block.Idx → Elt Ideal .f32) :
    Kept4 V c t.val (k4_pay2 (F := Ideal) (iblk4 V c 0 t) (win4_1.fill (grid4.coords t) d1 (iblk4 V c 1 t))
      (k4_pay1 (F := Ideal) (win4_2.fill (grid4.coords t) d2 (iblk4 V c 2 t)))) := by
  intro j h
  rw [col4 V c t d1 _ j h, k4_pay1_eq, bias4 V c t d2 j h, ht]
  rfl

theorem kept4_step (c : Dev nD) (t : Fin cfg4.N) (ht : ¬t.val % 4 = 0) (d1 : win4_1.block.Idx → Elt Ideal .f32) (s : Vec Ideal S1x8192 .f32)
    (hs : Kept4 V c (t.val - 1) s) :
    Kept4 V c t.val (k4_pay2 (F := Ideal) (iblk4 V c 0 t) (win4_1.fill (grid4.coords t) d1 (iblk4 V c 1 t)) s) := by
  intro j h
  rw [col4 V c t d1 s j h]
  have hq : (t.val - 1) / 4 = t.val / 4 := by omega
  have h' : 8192 * ((t.val - 1) / 4) + j.val < 50257 := by rw [hq]; exact h
  have e := hs j h'
  have eJ : (⟨8192 * ((t.val - 1) / 4) + j.val, h'⟩ : Fin 50257) = ⟨8192 * (t.val / 4) + j.val, h⟩ := Fin.ext (by show 8192 * ((t.val - 1) / 4) + j.val = 8192 * (t.val / 4) + j.val; omega)
  rw [eJ] at e
  rw [e]
  obtain ⟨k, hk⟩ : ∃ k, t.val % 4 = k + 1 := ⟨t.val % 4 - 1, by omega⟩
  have hk' : (t.val - 1) % 4 = k := by omega
  rw [hk, hk']
  rfl

theorem cut4_3 (c : Dev nD) (t : Fin cfg4.N) (ht : t.val % 4 = 3) (s : Vec Ideal S1x8192 .f32) (hs : Kept4 V c t.val s) :
    win4_3.cut (grid4.coords t) s = (win4_3.blk t).view.read (Elt Ideal) (out4 (V c main_v45) (V c main_arg12) (V c main_v46)) := by
  funext y
  have hy1 : (y 1).val < win4_3.xsize (grid4.coords t) 1 := (y 1).isLt
  rw [(xsz4 t).2.2.2.2.2] at hy1
  have hy0 : (y 0).val < win4_3.xsize (grid4.coords t) 0 := (y 0).isLt
  rw [(xsz4 t).2.2.2.2.1] at hy0
  have hJ : 8192 * (t.val / 4) + (y 1).val < 50257 := by omega
  have hj : (y 1).val < 8192 := by omega
  rw [read_blk4_3 _ t y ⟨_, hJ⟩ rfl]
  have e := hs ⟨(y 1).val, hj⟩ hJ
  rw [ht] at e
  have ex : win4_3.xinj (grid4.coords t) y = ix2 0 ⟨(y 1).val, hj⟩ := Shape.idx_ext₂ (by show (y 0).val = 0; omega) rfl
  show s (win4_3.xinj (grid4.coords t) y) = _
  rw [ex, e]
  rfl

theorem Phi4_toA (c : Dev nD) (t : Fin (cfg4.N + 1)) : (dat4 V c).Φ t ⊢ Pipeline.ΦA spec4 c := by
  by_cases ht : t.val = 0
  · rw [show (dat4 V c).Φ t = Phi4 V c t.val (Nat.le_of_lt_succ t.isLt) from rfl, Phi4_zero V c _ _ ht]
    try exact Idealize.SL.BI.Entails.refl _
  · exact Phi4_out V c t ht

theorem Phi4_castSucc (c : Dev nD) (t : Fin cfg4.N) :
    (dat4 V c).Φ t.castSucc = Phi4 V c t.val (Nat.le_of_lt t.isLt) := by
  dsimp only [dat4]; simp only [Fin.coe_castSucc]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leaves 0 t ∗ (dat4 V c).leaves 1 t ∗ (dat4 V c).leaves 2 t ∗ (dat4 V c).leaves 3 t)

set_option maxHeartbeats 4000000 in
theorem sound_body4 (c : Dev nD) (t : Fin cfg4.N) :
    bodyPre4 V c t ⊢ wp frame (wpE (defs₀ (F := Ideal)) Variants.none c none) Set.univ (bodyAt4 (F := Ideal) t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) t.isLt from rfl, Phi4_succ]
  rw [show (dat4 V c).leaves 0 t = owns (c : Thread nD τ) (st4_0 t) fullShare ((dat4 V c).after 0 t) from rfl, after4_0]
  rw [show (dat4 V c).leaves 1 t = iprop(∃ d, owns (c : Thread nD τ) (st4_1 t) fullShare
      ((cfg4.win 1).fill (cfg4.grid.coords t) d ((cfg4.win 1).cut (cfg4.grid.coords t) ((dat4 V c).after 1 t)))) from rfl,
    after4_1, (cfg4.win 1).cut_fill]
  rw [show (dat4 V c).leaves 2 t = iprop(∃ d, owns (c : Thread nD τ) (st4_2 t) fullShare
      ((cfg4.win 2).fill (cfg4.grid.coords t) d ((cfg4.win 2).cut (cfg4.grid.coords t) ((dat4 V c).after 2 t)))) from rfl,
    after4_2, (cfg4.win 2).cut_fill]
  by_cases h0 : t.val % 4 = 0
  ·
    have h3 : ¬t.val % 4 = 3 := by omega
    rw [Dat.leaves_idle (dat4 V c) 3 t (idleAt4_3 t h3) (noFlush4_3 t h3)]
    simp only [before4_3]
    refine (sep_mono (Phi4_toA V c t.castSucc) .rfl).trans ?_
    rw [PhiA4_eq]
    iintro ⟨⟨⟨⟨%s0, HS⟩, HR⟩, Hg⟩, Ho, ⟨%d0, H0⟩, ⟨%d1, H1⟩, ⟨%d2, H2⟩, ⟨%d3, H3⟩⟩
    iapply (sound_kernel4_A c Set.univ (grid4.coords t) _ _ _ _ _ _ _ _ _ _ ((hcond4_0 t).mpr h0) (fun h => h3 ((hcond4_1 t).mp h))
      (iblk4 V c 0 t) ((cfg4.win 1).fill (cfg4.grid.coords t) d1 (iblk4 V c 1 t)) ((cfg4.win 2).fill (cfg4.grid.coords t) d2 (iblk4 V c 2 t)) _)
    isplitl [H0]; · iexact H0
    isplitl [H1]; · iexact H1
    isplitl [H2]; · iexact H2
    isplitl [HS]; · iexists _; iexact HS
    iintro ⟨H0, H1, H2, HS⟩
    isplitl [HS HR Hg]
    · isplitl [HS HR]
      · isplitl [HS]
        · iexists _; isplitr; · ipureintro; exact kept4_reset V c t h0 d1 d2
          iexact HS
        iexact HR
      iexact Hg
    isplitl [Ho]; · iexact Ho
    isplitl [H0]; · iexact H0
    isplitl [H1]; · iexists d1; iexact H1
    isplitl [H2]; · iexists d2; iexact H2
    iexists d3; iexact H3
  · have hz : t.val ≠ 0 := fun e => h0 (by rw [e])
    rw [Phi4_castSucc V c t, Phi4_pos V c _ _ hz]
    by_cases h3 : t.val % 4 = 3
    ·
      rw [show (dat4 V c).leaves 3 t = iprop(∃ d, owns (c : Thread nD τ) (st4_3 t) fullShare
          ((cfg4.win 3).fill (cfg4.grid.coords t) d ((cfg4.win 3).cut (cfg4.grid.coords t) ((dat4 V c).after 3 t)))) from by
        unfold Dat.leaves; rw [liveAt4_3 t h3], after4_3, (cfg4.win 3).cut_fill]
      iintro ⟨⟨⟨⟨%s, %hs, HS⟩, HR⟩, Hg⟩, Ho, ⟨%d0, H0⟩, ⟨%d1, H1⟩, ⟨%d2, H2⟩, ⟨%d3, H3⟩⟩
      have hk := kept4_step V c t h0 d1 s hs
      have e : (cfg4.win 3).fill (cfg4.grid.coords t)
          (k4_pay2 (F := Ideal) (iblk4 V c 0 t) ((cfg4.win 1).fill (cfg4.grid.coords t) d1 (iblk4 V c 1 t)) s)
          (((cfg4.win 3).blk t).view.read (Elt Ideal) (out4 (V c main_v45) (V c main_arg12) (V c main_v46)))
          = k4_pay2 (F := Ideal) (iblk4 V c 0 t) ((cfg4.win 1).fill (cfg4.grid.coords t) d1 (iblk4 V c 1 t)) s := by
        rw [← cut4_3 V c t h3 _ hk]; exact (cfg4.win 3).fill_cut _ _
      iapply (sound_kernel4_C c Set.univ (grid4.coords t) _ _ _ _ _ _ _ _ _ _ (fun h => h0 ((hcond4_0 t).mp h)) ((hcond4_1 t).mpr h3)
        (iblk4 V c 0 t) ((cfg4.win 1).fill (cfg4.grid.coords t) d1 (iblk4 V c 1 t)) s _)
      isplitl [H0]; · iexact H0
      isplitl [H1]; · iexact H1
      isplitl [H3]; · iexists _; iexact H3
      isplitl [HS]; · iexact HS
      iintro ⟨H0, H1, H3, HS⟩
      isplitl [HS HR Hg]
      · isplitl [HS HR]
        · isplitl [HS]
          · iexists _; isplitr; · ipureintro; exact hk
            iexact HS
          iexact HR
        iexact Hg
      isplitl [Ho]; · iexact Ho
      isplitl [H0]; · iexact H0
      isplitl [H1]; · iexists d1; iexact H1
      isplitl [H2]; · iexists d2; iexact H2
      iexists _; rw [e]; iexact H3
    ·
      rw [Dat.leaves_idle (dat4 V c) 3 t (idleAt4_3 t h3) (noFlush4_3 t h3)]
      simp only [before4_3]
      iintro ⟨⟨⟨⟨%s, %hs, HS⟩, HR⟩, Hg⟩, Ho, ⟨%d0, H0⟩, ⟨%d1, H1⟩, ⟨%d2, H2⟩, ⟨%d3, H3⟩⟩
      iapply (sound_kernel4_B c Set.univ (grid4.coords t) _ _ _ _ _ _ _ _ _ _ (fun h => h0 ((hcond4_0 t).mp h)) (fun h => h3 ((hcond4_1 t).mp h))
        (iblk4 V c 0 t) ((cfg4.win 1).fill (cfg4.grid.coords t) d1 (iblk4 V c 1 t)) s _)
      isplitl [H0]; · iexact H0
      isplitl [H1]; · iexact H1
      isplitl [HS]; · iexact HS
      iintro ⟨H0, H1, HS⟩
      isplitl [HS HR Hg]
      · isplitl [HS HR]
        · isplitl [HS]
          · iexists _; isplitr; · ipureintro; exact kept4_step V c t h0 d1 s hs
            iexact HS
          iexact HR
        iexact Hg
      isplitl [Ho]; · iexact Ho
      isplitl [H0]; · iexact H0
      isplitl [H1]; · iexists d1; iexact H1
      isplitl [H2]; · iexists d2; iexact H2
      iexists d3; iexact H3

theorem body_obligation4 (c : Dev nD) : Pipeline.BodyObligationLoose (dat4 V c) (defs₀ (F := Ideal)) Variants.none () Set.univ := fun t => by
  rw [bigSep_W4, bigSep_W4]
  exact sound_body4 V c t

end Cert.KernelIdeal.Hand

end
-- ==== Proof.KI.Fold.lean ====
/- The contents of every buffer between the items of @main, from the launch memory on. -/
import proofs.«148525_j50087908606299_1_alg».proof.Proof.KI.Reg0
import proofs.«148525_j50087908606299_1_alg».proof.Proof.KI.Reg1
import proofs.«148525_j50087908606299_1_alg».proof.Proof.KI.Reg2
import proofs.«148525_j50087908606299_1_alg».proof.Proof.KI.Reg3
import proofs.«148525_j50087908606299_1_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

abbrev W0 : Dev nD → Valuation τ sig (Elt Ideal) := fun c b => m (c, b)
abbrev W1 : Dev nD → Valuation τ sig (Elt Ideal) := fun c => StableHlo.after hostOps0 (W0 m c)
abbrev V1 : (c : Dev nD) → (b : Ref sig .tc) → Buf (Elt Ideal) ((c : Thread nD τ).loc b) := fun c b => W1 m c b
def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt Ideal) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
abbrev W3 : Dev nD → Valuation τ sig (Elt Ideal) := fun c => StableHlo.after hostOps1 (W2 m c)
abbrev V3 : (c : Dev nD) → (b : Ref sig .tc) → Buf (Elt Ideal) ((c : Thread nD τ).loc b) := fun c b => W3 m c b
def W4 (c : Dev nD) : Valuation τ sig (Elt Ideal) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt Ideal) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
abbrev W5 : Dev nD → Valuation τ sig (Elt Ideal) := fun c => StableHlo.after hostOps2 (W4 m c)
abbrev V5 : (c : Dev nD) → (b : Ref sig .tc) → Buf (Elt Ideal) ((c : Thread nD τ).loc b) := fun c b => W5 m c b
def W6 (c : Dev nD) : Valuation τ sig (Elt Ideal) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt Ideal) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
def W7 (c : Dev nD) : Valuation τ sig (Elt Ideal) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt Ideal) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)
abbrev W8 : Dev nD → Valuation τ sig (Elt Ideal) := fun c => StableHlo.after hostOps4 (W7 m c)
abbrev V8 : (c : Dev nD) → (b : Ref sig .tc) → Buf (Elt Ideal) ((c : Thread nD τ).loc b) := fun c b => W8 m c b
def W9 (c : Dev nD) : Valuation τ sig (Elt Ideal) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
abbrev V9 : (c : Dev nD) → (b : Ref sig .tc) → Buf (Elt Ideal) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)
abbrev W10 : Dev nD → Valuation τ sig (Elt Ideal) := fun c => StableHlo.after hostOps5 (W9 m c)
abbrev W11 : Dev nD → Valuation τ sig (Elt Ideal) := fun c => StableHlo.after hostOps5_1 (W10 m c)

abbrev adm : (p : Fin 5) → (pcfgs (F := Ideal) p).Adm := fun p => (cfgs p).toPCfg_adm

def pdats : (p : Fin 5) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V3 m) c
  | ⟨2, _⟩ => fun c => dat2 (V5 m) c
  | ⟨3, _⟩ => fun c => dat3 (V6 m) c
  | ⟨4, _⟩ => fun c => dat4 (V8 m) c

end Cert.KernelIdeal.Hand

end
-- ==== Proof.KI.Run.lean ====
/- The idealized program's run: host stretches and five regions in order. -/
import proofs.«148525_j50087908606299_1_alg».proof.Proof.KI.Fold
import proofs.«148525_j50087908606299_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

abbrev noVar : Variants := Variants.none
abbrev noLev : GSem nD τ sig → Finset Unit := fun _ => ∅
abbrev levZero : GSem nD τ sig → Unit → ℕ := fun _ _ => 0
abbrev rideR (c : Dev nD) : sProp 𝕄 := iprop((∃ r, prngReg c r) ∗ ∃ W, owes (c : Thread nD τ) (0 : CellTallies nD τ sig Unit) W)
abbrev hostSeg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ noVar noLev levZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rideR

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev lastT (c : Dev nD) : sProp 𝕄 := iprop(StableHlo.held (c : Thread nD τ) (Pipeline.ucRefs τ sig) (W11 m c) ∗ ∃ r, prngReg c r)

theorem last_link (c : Dev nD) :
    (iprop(StableHlo.held (c : Thread nD τ) (Pipeline.ucRefs τ sig) (W11 m c) ∗ rideR c) : sProp 𝕄)
      ⊢ iprop(lastT m c ∗ ∃ W, owes (c : Thread nD τ) (0 : CellTallies nD τ sig Unit) W) := by
  iintro ⟨Hh, Hp, HO⟩
  isplitr [HO]
  · isplitl [Hh] <;> iassumption
  iexact HO

set_option backward.isDefEq.respectTransparency.types false in
def reg0 : Pipeline.RegionSeg (pcfgs (F := Ideal)) adm (pdats m) () defs₀ noVar noLev levZero 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noLev levZero 0 fun c t => owed0 (V1 m) c t
  pre c := iprop(StableHlo.held (c : Thread nD τ) (Pipeline.ucRefs τ sig) (W1 m c) ∗ rideR c)
  post c := iprop(StableHlo.held (c : Thread nD τ) (Pipeline.ucRefs τ sig) (W2 m c) ∗ rideR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      (share0 (V1 m) c) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0 (V1 m) c 0]
      icases HO with ⟨%W, HO⟩; iexists W; isplitr
      · ipureintro; exact fun x _ => Or.inl (by
          rw [show (pdats m 0 c).recorded 0 = Set.univ from recorded0 (V1 m) c 0]; exact Set.mem_univ x)
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) (share0 (V1 m) c)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last (Pipeline.pin (pcfgs (F := Ideal)) adm 0).N) = 0 from owed0 (V1 m) c (Fin.last _)]
    icases HO with ⟨%W, -, HO⟩; iexists W; iexact HO

set_option backward.isDefEq.respectTransparency.types false in
def reg1 : Pipeline.RegionSeg (pcfgs (F := Ideal)) adm (pdats m) () defs₀ noVar noLev levZero 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noLev levZero 1 fun c t => owed1 (V3 m) c t
  pre c := iprop(StableHlo.held (c : Thread nD τ) (Pipeline.ucRefs τ sig) (W3 m c) ∗ rideR c)
  post c := iprop(StableHlo.held (c : Thread nD τ) (Pipeline.ucRefs τ sig) (W4 m c) ∗ rideR c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := Ideal)) adm (pdats m) launch1.win launch1.arr_whole c
      (share1 (V3 m) c) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (V3 m) c 0]
      icases HO with ⟨%W, HO⟩; iexists W; isplitr
      · ipureintro; exact fun x _ => Or.inl (by
          rw [show (pdats m 1 c).recorded 0 = Set.univ from recorded1 (V3 m) c 0]; exact Set.mem_univ x)
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) (share1 (V3 m) c)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last (Pipeline.pin (pcfgs (F := Ideal)) adm 1).N) = 0 from owed1 (V3 m) c (Fin.last _)]
    icases HO with ⟨%W, -, HO⟩; iexists W; iexact HO

set_option backward.isDefEq.respectTransparency.types false in
def reg2 : Pipeline.RegionSeg (pcfgs (F := Ideal)) adm (pdats m) () defs₀ noVar noLev levZero 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ noLev levZero 2 fun c t => owed2 (V5 m) c t
  pre c := iprop(StableHlo.held (c : Thread nD τ) (Pipeline.ucRefs τ sig) (W5 m c) ∗ rideR c)
  post c := iprop(StableHlo.held (c : Thread nD τ) (Pipeline.ucRefs τ sig) (W6 m c) ∗ rideR c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := Ideal)) adm (pdats m) launch2.win launch2.arr_whole c
      (share2 (V5 m) c) (V5 m c) (A_eq2 (V5 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed2 (V5 m) c 0]
      icases HO with ⟨%W, HO⟩; iexists W; isplitr
      · ipureintro; exact fun x _ => Or.inl (by
          rw [show (pdats m 2 c).recorded 0 = Set.univ from recorded2 (V5 m) c 0]; exact Set.mem_univ x)
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) (share2 (V5 m) c)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last (Pipeline.pin (pcfgs (F := Ideal)) adm 2).N) = 0 from owed2 (V5 m) c (Fin.last _)]
    icases HO with ⟨%W, -, HO⟩; iexists W; iexact HO

set_option backward.isDefEq.respectTransparency.types false in
def reg3 : Pipeline.RegionSeg (pcfgs (F := Ideal)) adm (pdats m) () defs₀ noVar noLev levZero 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ noLev levZero 3 fun c t => owed3 (V6 m) c t
  pre c := iprop(StableHlo.held (c : Thread nD τ) (Pipeline.ucRefs τ sig) (W6 m c) ∗ rideR c)
  post c := iprop(StableHlo.held (c : Thread nD τ) (Pipeline.ucRefs τ sig) (W7 m c) ∗ rideR c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := Ideal)) adm (pdats m) launch3.win launch3.arr_whole c
      (share3 (V6 m) c) (V6 m c) (A_eq3 (V6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed3 (V6 m) c 0]
      icases HO with ⟨%W, HO⟩; iexists W; isplitr
      · ipureintro; exact fun x _ => Or.inl (by
          rw [show (pdats m 3 c).recorded 0 = Set.univ from recorded3 (V6 m) c 0]; exact Set.mem_univ x)
      iexact HO
    isplitl [Hp]; · iexact Hp
    iexact Hrest
  hin c := by
    refine BIBase.Entails.trans ?_ (hin3 (V6 m) c)
    unfold Pipeline.ΦA
    iintro ⟨Hp, -, Hr⟩
    isplitl [Hr]; · iexact Hr
    iexact Hp
  hout c := by
    rw [Pipeline.ownSems0_none]
    refine BIBase.Entails.trans (hout3 (V6 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdats m) (share3 (V6 m) c)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last (Pipeline.pin (pcfgs (F := Ideal)) adm 3).N) = 0 from owed3 (V6 m) c (Fin.last _)]
    icases HO with ⟨%W, -, HO⟩; iexists W; iexact HO

set_option backward.isDefEq.respectTransparency.types false in
def reg4 : Pipeline.RegionSeg (pcfgs (F := Ideal)) adm (pdats m) () defs₀ noVar noLev levZero 4 where
  win := launch4.win.to₀
  block_pos := launch4.block_pos
  stage_whole := launch4.stage_whole
  K := PEmpty
  osem k := k.elim
  ho := Pipeline.OwnSemFacts.none _
  hbody c := body_obligation4 (V8 m) c
  hwaits := Pipeline.hwaits_of_owed_zero _ _ _ _ noLev levZero 4 fun c t => owed4 (V8 m) c t
  pre c := iprop(StableHlo.held (c : Thread nD τ) (Pipeline.ucRefs τ sig) (W8 m c) ∗ rideR c)
  post c := iprop(StableHlo.held (c : Thread nD τ) (Pipeline.ucRefs τ sig) (W9 m c) ∗ rideR c)
  X c := iprop(∃ r, prngReg c r)
  Y c := iprop(∃ r, prngReg c r)
  Z c := Pipeline.unscopedRest (Ix := Unit) (Name := ℕ) (U := UR sig nD τ) (Lvl := ℕ) spec4 c (V8 m c)
  hentry c := by
    rw [Pipeline.ownSems0_none]
    have hsplit := Pipeline.arrays_of_unscopedBufs (p := 4) (pcfgs (F := Ideal)) adm (pdats m) launch4.win launch4.arr_whole c
      (share4 (V8 m) c) (V8 m c) (A_eq4 (V8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 4 c).owed 0 = 0 from owed4 (V8 m) c 0]
      icases HO with ⟨%W, HO⟩; iexists W; isplitr
      · ipureintro; exact fun x _ => Or.inl (by
          rw [show (pdats m 4 c).recorded 0 = Set.univ from recorded4 (V8 m) c 0]; exact Set.mem_univ x)
      iexact HO
    isplitl [Hp]; · iexact Hp
    iexact Hrest
  hin c := by
    refine BIBase.Entails.trans ?_ (hin4 (V8 m) c)
    unfold Pipeline.ΦA
    iintro ⟨Hp, -, Hr⟩
    isplitl [Hr]; · iexact Hr
    iexact Hp
  hout c := by
    rw [Pipeline.ownSems0_none]
    refine BIBase.Entails.trans (hout4 (V8 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := Ideal)) adm (Ix := Unit) (Name := ℕ) (U := UR sig nD τ) (Lvl := ℕ)
      launch4.win launch4.arr_whole c (pdats m) (share4 (V8 m) c)
      (V8 m c) (V9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 4 c).owed (Fin.last (Pipeline.pin (pcfgs (F := Ideal)) adm 4).N) = 0 from owed4 (V8 m) c (Fin.last _)]
    icases HO with ⟨%W, -, HO⟩; iexists W; iexact HO

abbrev segs : List (Pipeline.Seg (pcfgs (F := Ideal)) adm (pdats m) () defs₀ noVar noLev levZero) :=
  [ .host (hostSeg hostOps0 hostOps0_sub hostOps0_fresh (W0 m)),
    .region (reg0 m),
    .host (hostSeg hostOps1 hostOps1_sub hostOps1_fresh (W2 m)),
    .region (reg1 m),
    .host (hostSeg hostOps2 hostOps2_sub hostOps2_fresh (W4 m)),
    .region (reg2 m),
    .region (reg3 m),
    .host (hostSeg hostOps4 hostOps4_sub hostOps4_fresh (W7 m)),
    .region (reg4 m),
    .host (hostSeg hostOps5 hostOps5_sub hostOps5_fresh (W9 m)),
    .host (hostSeg hostOps5_1 hostOps5_1_sub hostOps5_1_fresh (W10 m)) ]

theorem main_run (c : Dev nD) : main (F := Ideal) c = Pipeline.Seg.run (segs m) := (main_chain c).trans (by chain_rfl)

set_option backward.isDefEq.respectTransparency.types false in
theorem run_all : θ_run (defs (F := Ideal)) (onTc (τ := τ) (main (F := Ideal))) ⟨m, fun _ => 0, ρ⟩
    (fun r => ∀ c : Dev nD, ∀ b ∈ Pipeline.ucRefs τ sig, r.2.mem ((c : Thread nD τ).1, b) = W11 m c b) :=
  Pipeline.θ_run_regions_kit (pcfgs (F := Ideal)) adm (pdats m) () cellOf_inj emb₁ defs₀ noVar noLev levZero m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rideR c)) (Tₙ := lastT m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => last_link m c⟩)
    (hinit := by
      refine Pipeline.initEach noLev levZero fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Hand

end
-- ==== Proof.KI.Keep.lean ====
/- An item of @main leaves unchanged every buffer it does not write. -/
import proofs.«148525_j50087908606299_1_alg».proof.Proof.KI.Fold
import proofs.«148525_j50087908606299_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)
theorem W1_keep (c : Dev nD) (r : Ref sig .tc) (h : r ∉ hostOps0_W) : W1 m c (Proc.devRef .tc r) = W0 m c (Proc.devRef .tc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h
theorem W5_keep (c : Dev nD) (r : Ref sig .tc) (h : r ∉ hostOps2_W) : W5 m c (Proc.devRef .tc r) = W4 m c (Proc.devRef .tc r) :=
  StableHlo.after_of_writes_sub hostOps2 _ hostOps2_writes h
theorem W8_keep (c : Dev nD) (r : Ref sig .tc) (h : r ∉ hostOps4_W) : W8 m c (Proc.devRef .tc r) = W7 m c (Proc.devRef .tc r) :=
  StableHlo.after_of_writes_sub hostOps4 _ hostOps4_writes h
theorem W10_keep (c : Dev nD) (r : Ref sig .tc) (h : r ∉ hostOps5_W) : W10 m c (Proc.devRef .tc r) = W9 m c (Proc.devRef .tc r) :=
  StableHlo.after_of_writes_sub hostOps5 _ hostOps5_writes h
theorem W11_keep (c : Dev nD) (r : Ref sig .tc) (h : r ∉ hostOps5_1_W) : W11 m c (Proc.devRef .tc r) = W10 m c (Proc.devRef .tc r) :=
  StableHlo.after_of_writes_sub hostOps5_1 _ hostOps5_1_writes h

theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))
theorem W2_keep (c : Dev nD) (r : Ref sig .tc) (h : ∀ w, Pipeline.arrRef spec0 w = r → (cfg0.win w).isOut = false) :
    W2 m c (Proc.devRef .tc r) = W1 m c (Proc.devRef .tc r) := by
  by_cases hb : ∃ w, Pipeline.arrRef spec0 w = r
  · obtain ⟨w, rfl⟩ := hb; exact W2_in m c w (h w rfl)
  · exact W2_of_ne m c r fun w e => hb ⟨w, e⟩
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))
theorem W4_keep (c : Dev nD) (r : Ref sig .tc) (h : ∀ w, Pipeline.arrRef spec1 w = r → (cfg1.win w).isOut = false) :
    W4 m c (Proc.devRef .tc r) = W3 m c (Proc.devRef .tc r) := by
  by_cases hb : ∃ w, Pipeline.arrRef spec1 w = r
  · obtain ⟨w, rfl⟩ := hb; exact W4_in m c w (h w rfl)
  · exact W4_of_ne m c r fun w e => hb ⟨w, e⟩
theorem W6_in (c : Dev nD) (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))
theorem W6_keep (c : Dev nD) (r : Ref sig .tc) (h : ∀ w, Pipeline.arrRef spec2 w = r → (cfg2.win w).isOut = false) :
    W6 m c (Proc.devRef .tc r) = W5 m c (Proc.devRef .tc r) := by
  by_cases hb : ∃ w, Pipeline.arrRef spec2 w = r
  · obtain ⟨w, rfl⟩ := hb; exact W6_in m c w (h w rfl)
  · exact W6_of_ne m c r fun w e => hb ⟨w, e⟩
theorem W7_in (c : Dev nD) (w : Fin cfg3.W) (hin : (cfg3.win w).isOut = false) :
    W7 m c (Proc.devRef .tc (Pipeline.arrRef spec3 w)) = W6 m c (Proc.devRef .tc (Pipeline.arrRef spec3 w)) :=
  (W7_arr m c w).trans (((dat3 (V6 m) c).arrAt_in w hin _).trans (A_eq3 (V6 m) c w))
theorem W7_keep (c : Dev nD) (r : Ref sig .tc) (h : ∀ w, Pipeline.arrRef spec3 w = r → (cfg3.win w).isOut = false) :
    W7 m c (Proc.devRef .tc r) = W6 m c (Proc.devRef .tc r) := by
  by_cases hb : ∃ w, Pipeline.arrRef spec3 w = r
  · obtain ⟨w, rfl⟩ := hb; exact W7_in m c w (h w rfl)
  · exact W7_of_ne m c r fun w e => hb ⟨w, e⟩
theorem W9_in (c : Dev nD) (w : Fin cfg4.W) (hin : (cfg4.win w).isOut = false) :
    W9 m c (Proc.devRef .tc (Pipeline.arrRef spec4 w)) = W8 m c (Proc.devRef .tc (Pipeline.arrRef spec4 w)) :=
  (W9_arr m c w).trans (((dat4 (V8 m) c).arrAt_in w hin _).trans (A_eq4 (V8 m) c w))
theorem W9_keep (c : Dev nD) (r : Ref sig .tc) (h : ∀ w, Pipeline.arrRef spec4 w = r → (cfg4.win w).isOut = false) :
    W9 m c (Proc.devRef .tc r) = W8 m c (Proc.devRef .tc r) := by
  by_cases hb : ∃ w, Pipeline.arrRef spec4 w = r
  · obtain ⟨w, rfl⟩ := hb; exact W9_in m c w (h w rfl)
  · exact W9_of_ne m c r fun w e => hb ⟨w, e⟩

end Cert.KernelIdeal.Hand

end
-- ==== Proof.KI.Val0.lean ====
/- Region 0 stores the row softmax of (row · matrix + bias) and its product with the encoder rows. -/
import proofs.«148525_j50087908606299_1_alg».proof.Proof.Gen.KernelIdeal.Skeleton
import proofs.«148525_j50087908606299_1_alg».proof.Proof.Spec.RefTerms
import Idealize.ShloMosaic.PureOps.Ideal.Laws
import Idealize.ShloMosaic.Lib.ValueIdx
import Idealize.ShloMosaic.Lib.Pipeline.Value
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx

theorem dotLogits_eq :
    Cert.KernelIdeal.dot_S1x4096_S4096x100_S1x100_1_0_0_1_n_n = Cert.ReferenceIdeal.dot_S1x4096_S4096x100_S1x100_1_0_0_1_n_n := rfl

theorem dotContext_eq :
    Cert.KernelIdeal.dot_S1x100_S100x2048_S1x2048_1_0_0_1_n_n = Cert.ReferenceIdeal.dot_S1x100_S100x2048_S1x2048_1_0_0_1_n_n := rfl

theorem matmul_truncf_zero_eq_dotGeneral {sl sr so : Shape} (d : DotDims sl sr so) (x : FVec Ideal sl .f32) (w : FVec Ideal sr .f32)
    (h : FTy.bf16.bits < FTy.f32.bits) :
    matmul d none (truncf .bf16 x h) (truncf .bf16 w h) (constant so .f32 0x00000000#32) = Host.dotGeneral d none x w := by
  funext j
  show FloatOps.matmul d none (truncf .bf16 x h) (truncf .bf16 w h) (constant so .f32 0x00000000#32) j = FloatOps.dotGeneral d none _ x w j
  rw [Ideal.matmul_constant_zero_apply, Ideal.dotGeneral_apply]
  rfl

theorem k0_logits_eq (x : Vec Ideal S1x4096 .f32) (w : Vec Ideal S4096x100 .f32) (b : Vec Ideal S1x100 .f32) :
    addf (matmul dot_S1x4096_S4096x100_S1x100_1_0_0_1_n_n none (truncf .bf16 (shapeCast S1x4096 x shapeCasts_S1x4096_S1x4096) bitsLt_bf16_f32)
        (truncf .bf16 w bitsLt_bf16_f32) (constant (F := Ideal) S1x100 .f32 0x00000000#32)) (shapeCast S1x100 b shapeCasts_S1x100_S1x100)
      = Cert.RefTerms.logits (F := Ideal) x w b := by
  rw [shapeCast_self, shapeCast_self, matmul_truncf_zero_eq_dotGeneral, dotLogits_eq]
  rfl

section Row
variable {n : Nat}

theorem rowMax_eq (l : FVec Ideal ⟨2, ![1, n]⟩ .f32)
    (hK : (⟨2, ![1, n]⟩ : Shape).Reduces [1] ⟨1, ![1]⟩) (hφ : FKind.Formats .f32)
    (hacc : (0xFF800000#32 : BitVec FTy.f32.bits) = FKind.maximumf.neutral .f32 hφ)
    (hbc : (⟨0, ![]⟩ : Shape).BroadcastsInDim ⟨1, ![1]⟩ ![])
    (hR : (⟨2, ![1, n]⟩ : Shape).ReducesTo [1] ⟨1, ![1]⟩) (hu : 0 < (⟨0, ![]⟩ : Shape).numel) :
    maximumf (broadcast ⟨1, ![1]⟩ (Scalar.ofBits (F := Ideal) .f32 0xFF800000#32))
        (multiReduction .maximumf [1] ⟨1, ![1]⟩ l 0xFF800000#32 hK hφ hacc)
      = maximumf (broadcastInDim ⟨1, ![1]⟩ ![] hbc (constant (F := Ideal) ⟨0, ![]⟩ .f32 0xFF800000#32))
        (Host.reduce FloatOps.maximumf l (constant (F := Ideal) ⟨0, ![]⟩ .f32 0xFF800000#32) hR hu) := by
  rw [broadcastInDim_constant]
  refine congrArg (maximumf _) ?_
  funext j
  rw [Ideal.multiReduction_maximumf_single, Host.reduce_eq_fold_single FloatOps.maximumf l _ hR hK hu]
  rfl

theorem bcastRow_eq {α : Type} (m : (⟨1, ![1]⟩ : Shape).Idx → α)
    (hsc : (⟨1, ![1]⟩ : Shape).ShapeCasts ⟨2, ![1, 1]⟩) (hb : (⟨2, ![1, 1]⟩ : Shape).Broadcasts ⟨2, ![1, n]⟩)
    (hd1 : (⟨1, ![1]⟩ : Shape).BroadcastsInDim ⟨2, ![1, 1]⟩ ![0])
    (hd2 : (⟨2, ![1, 1]⟩ : Shape).BroadcastsInDim ⟨2, ![1, n]⟩ ![0, 1]) :
    broadcastTo ⟨2, ![1, n]⟩ (shapeCast ⟨2, ![1, 1]⟩ m hsc) hb
      = broadcastInDim ⟨2, ![1, n]⟩ ![0, 1] hd2 (broadcastInDim ⟨2, ![1, 1]⟩ ![0] hd1 m) := by
  funext i
  have e1 := broadcastTo_apply (shapeCast ⟨2, ![1, 1]⟩ m hsc) hb i (ix2 (0 : Fin 1) (0 : Fin 1)) (by
    intro a
    match a with
    | ⟨0, _⟩ => rfl
    | ⟨1, _⟩ => rfl)
  have e2 := shapeCast_apply m hsc (ix2 (0 : Fin 1) (0 : Fin 1)) (ix1 (0 : Fin 1)) (by
    rw [Shape.rowMajor_val_two, Shape.rowMajor_val_one]; rfl)
  have e3 := broadcastInDim_apply ![0, 1] hd2 (broadcastInDim ⟨2, ![1, 1]⟩ ![0] hd1 m) i (ix2 (0 : Fin 1) (0 : Fin 1)) (by
    intro a
    match a with
    | ⟨0, _⟩ => rfl
    | ⟨1, _⟩ => rfl)
  have e4 := broadcastInDim_apply ![0] hd1 m (ix2 (0 : Fin 1) (0 : Fin 1)) (ix1 (0 : Fin 1)) (by
    intro a
    match a with
    | ⟨0, _⟩ => rfl)
  exact (e1.trans e2).trans (e3.trans e4).symm

theorem rowSum_eq (e : FVec Ideal ⟨2, ![1, n]⟩ .f32)
    (hK : (⟨2, ![1, n]⟩ : Shape).Reduces [1] ⟨1, ![1]⟩) (hφ : FKind.Formats .f32)
    (hacc : (0x00000000#32 : BitVec FTy.f32.bits) = FKind.add.neutral .f32 hφ)
    (hR : (⟨2, ![1, n]⟩ : Shape).ReducesTo [1] ⟨1, ![1]⟩) (hu : 0 < (⟨0, ![]⟩ : Shape).numel) :
    multiReduction .add [1] ⟨1, ![1]⟩ e 0x00000000#32 hK hφ hacc
      = Host.reduceAdd e (constant (F := Ideal) ⟨0, ![]⟩ .f32 0x00000000#32) hR hu :=
  multiReduction_add_eq_hostReduceAdd e _ hK hφ hacc _ hR hu Ideal.ofBits_zero_f32

end Row

theorem k0_softmax_eq (l : FVec Ideal S1x100 .f32) :
    divf (exp (subf l (broadcastTo S1x100 (shapeCast S1x1 (maximumf (broadcast S1 (Scalar.ofBits (F := Ideal) .f32 0xFF800000#32))
          (multiReduction .maximumf [1] S1 l 0xFF800000#32 reduces_S1x100_S1 (.inl rfl) rfl)) shapeCasts_S1_S1x1) broadcasts_S1x1_S1x100)))
        (broadcastTo S1x100 (shapeCast S1x1 (multiReduction .add [1] S1
          (exp (subf l (broadcastTo S1x100 (shapeCast S1x1 (maximumf (broadcast S1 (Scalar.ofBits (F := Ideal) .f32 0xFF800000#32))
            (multiReduction .maximumf [1] S1 l 0xFF800000#32 reduces_S1x100_S1 (.inl rfl) rfl)) shapeCasts_S1_S1x1) broadcasts_S1x1_S1x100)))
          0x00000000#32 reduces_S1x100_S1 (.inl rfl) rfl) shapeCasts_S1_S1x1) broadcasts_S1x1_S1x100)
      = Cert.RefTerms.softmaxRow (F := Ideal) l := by
  unfold Cert.RefTerms.softmaxRow
  dsimp only
  rw [rowMax_eq l reduces_S1x100_S1 (.inl rfl) rfl Cert.ReferenceIdeal.Gen.bcast_S_S1 Cert.ReferenceIdeal.Gen.reducesTo_S1x100_S1_d1 Cert.ReferenceIdeal.Gen.h_S_,
    bcastRow_eq _ shapeCasts_S1_S1x1 broadcasts_S1x1_S1x100 Cert.ReferenceIdeal.Gen.bcast_S1_S1x1_0 Cert.ReferenceIdeal.Gen.bcast_S1x1_S1x100_0_1,
    rowSum_eq _ reduces_S1x100_S1 (.inl rfl) rfl Cert.ReferenceIdeal.Gen.reducesTo_S1x100_S1_d1 Cert.ReferenceIdeal.Gen.h_S_,
    bcastRow_eq _ shapeCasts_S1_S1x1 broadcasts_S1x1_S1x100 Cert.ReferenceIdeal.Gen.bcast_S1_S1x1_0 Cert.ReferenceIdeal.Gen.bcast_S1x1_S1x100_0_1]
  rfl

theorem k0_pay1_eq (x : Vec Ideal S1x4096 .f32) (w : Vec Ideal S4096x100 .f32) (b : Vec Ideal S1x100 .f32) :
    k0_pay1 (F := Ideal) x w b = Cert.RefTerms.attnWeights (F := Ideal) x w b := by
  unfold k0_pay1
  dsimp only
  rw [k0_logits_eq x w b]
  exact k0_softmax_eq _

theorem k0_pay2_eq (x : Vec Ideal S1x4096 .f32) (w : Vec Ideal S4096x100 .f32) (b : Vec Ideal S1x100 .f32) (enc : Vec Ideal S100x2048 .f32) :
    k0_pay2 (F := Ideal) x w b enc = Cert.RefTerms.context (F := Ideal) (Cert.RefTerms.attnWeights (F := Ideal) x w b) enc := by
  unfold k0_pay2
  dsimp only
  rw [matmul_truncf_zero_eq_dotGeneral, k0_pay1_eq, dotContext_eq]
  rfl

end Cert.KernelIdeal.Hand

end
-- ==== Proof.KI.Val1.lean ====
/- Region 1's row is row · matrix + bias: eight block sums over the contracted index regroup to one sum. -/
import proofs.«148525_j50087908606299_1_alg».proof.Proof.KI.Reg1
import proofs.«148525_j50087908606299_1_alg».proof.Proof.KI.Val14
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]

theorem lt_N1 {n : ℕ} (h : n < 8) : n < cfg1.N := lt_of_lt_of_eq h N_1.symm

theorem index1_0 : ∀ t : Fin grid1.N, win1_0.index t 0 = 0 ∧ win1_0.index t 1 = t.val := by decide +kernel
theorem index1_1 : ∀ t : Fin grid1.N, win1_1.index t 0 = t.val ∧ win1_1.index t 1 = 0 := by decide +kernel
theorem index1_2 : ∀ t : Fin grid1.N, win1_2.index t 0 = 0 ∧ win1_2.index t 1 = 0 := by decide +kernel

theorem xblk1_apply (a0 : Vec F S1x4096 .f32) (n : ℕ) (hn : n < 8) (r : Fin 512) :
    xblk1 a0 ⟨n, lt_N1 hn⟩ (ix2 (0 : Fin 1) r) = a0 (ix2 (0 : Fin 1) (⟨n * 512 + r.val, by have := r.isLt; omega⟩ : Fin 4096)) := by
  unfold xblk1
  rw [View.read_apply]
  show a0 _ = a0 _
  congr 1
  funext a
  apply Fin.ext
  match a with
  | ⟨0, _⟩ => show win1_0.index ⟨n, lt_N1 hn⟩ 0 * 1 + 1 * 0 = 0
              rw [(index1_0 _).1]
  | ⟨1, _⟩ => show win1_0.index ⟨n, lt_N1 hn⟩ 1 * 512 + 1 * r.val = n * 512 + r.val
              rw [(index1_0 _).2]; show n * 512 + 1 * r.val = n * 512 + r.val; omega

theorem wblk1_apply (a1 : Vec F S4096x2048 .f32) (n : ℕ) (hn : n < 8) (r : Fin 512) (j : Fin 2048) :
    wblk1 a1 ⟨n, lt_N1 hn⟩ (ix2 r j) = a1 (ix2 (⟨n * 512 + r.val, by have := r.isLt; omega⟩ : Fin 4096) j) := by
  unfold wblk1
  rw [View.read_apply]
  show a1 _ = a1 _
  congr 1
  funext a
  apply Fin.ext
  match a with
  | ⟨0, _⟩ => show win1_1.index ⟨n, lt_N1 hn⟩ 0 * 512 + 1 * r.val = n * 512 + r.val
              rw [(index1_1 _).1]; show n * 512 + 1 * r.val = n * 512 + r.val; omega
  | ⟨1, _⟩ => show win1_1.index ⟨n, lt_N1 hn⟩ 1 * 2048 + 1 * j.val = j.val
              rw [(index1_1 _).2]; omega

theorem bblk1_eq (a2 : Vec F S1x2048 .f32) (t : Fin cfg1.N) : bblk1 a2 t = a2 := by
  unfold bblk1
  have hz' : (fun a => win1_2.index t a * main_v11.ty.shape.size a) = fun _ => 0 := funext fun a => by
    match a with
    | ⟨0, _⟩ => show win1_2.index t 0 * _ = 0; rw [(index1_2 t).1, Nat.zero_mul]
    | ⟨1, _⟩ => show win1_2.index t 1 * _ = 0; rw [(index1_2 t).2, Nat.zero_mul]
  exact Memref.read_access_unit_zero (Elt F) main_v11 hz' (fun a => by rw [congrFun hz' a]; simp) a2

theorem out1_eq (a0 : Vec Ideal S1x4096 .f32) (a1 : Vec Ideal S4096x2048 .f32) (a2 : Vec Ideal S1x2048 .f32) :
    out1 (F := Ideal) a0 a1 a2 = Cert.RefTerms.combine (F := Ideal) a0 a1 a2 :=
  comb_acc_eq_bdd a0 a1 a2 (fun n hn => xblk1 a0 ⟨n, lt_N1 hn⟩) (fun n hn => wblk1 a1 ⟨n, lt_N1 hn⟩)
    (fun n hn => acc1 a0 a1 a2 n (lt_N1 hn))
    (fun t ht r => xblk1_apply a0 t ht r) (fun t ht r j => wblk1_apply a1 t ht r j)
    (by show acc1 a0 a1 a2 0 _ = _; rw [acc1_zero, bblk1_eq])
    (fun t ht => acc1_succ a0 a1 a2 t (lt_N1 ht))

end Cert.KernelIdeal.Hand

end
-- ==== Proof.LibTransposedDot.lean ====
/- A product contracted on the last axis of both operands, A · Bᵀ, read at an index, on both sides. -/
import Idealize.ShloMosaic.PureOps.Ideal.Laws
import Idealize.ShloMosaic.Lib.ValueIdx
import Idealize.ShloMosaic.Lib.Pipeline.Value
import Idealize.ShloMosaic.Lib.KernelVsHost

noncomputable section

namespace Cert.LibTransposedDot

open Idealize.ShloMosaic Idealize.ShloMosaic.ValueIdx

variable {α : Type}

theorem dotGeneral_transposedRhs_apply {m k n : ℕ} {φ₁ φ₂ : FTy} (prec : Option ContractPrecision)
    (A : FVec Ideal ⟨2, ![m, k]⟩ φ₁) (B : FVec Ideal ⟨2, ![n, k]⟩ φ₂) (p : Fin m) (q : Fin n) :
    Host.dotGeneral (DotDims.transposedRhs m k n) prec A B (ix2 p q) = ∑ c : Fin k, A (ix2 p c) * B (ix2 q c) := by
  show FloatOps.dotGeneral _ prec _ A B (ix2 p q) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 p q) ((contrEquiv1 _ k rfl rfl).symm c) = ix2 p c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 p q) ((contrEquiv1 _ k rfl rfl).symm c) = ix2 q c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

theorem matmul_transposedRhs_apply {m k n : ℕ} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (p : Fin m) (q : Fin n) :
    matmul d prec A B (constant ⟨2, ![m, n]⟩ .f32 0x00000000#32) (ix2 p q) = ∑ c : Fin k, A (ix2 p c) * B (ix2 q c) := by
  subst hd
  rw [matmul_zero_eq_dotGeneral]
  exact dotGeneral_transposedRhs_apply prec A B p q

end Cert.LibTransposedDot

end
-- ==== Proof.KI.Val23.lean ====
/- A block of 1024 columns of row · matrixᵀ + bias, read at an index, on both sides. -/
import proofs.«148525_j50087908606299_1_alg».proof.Proof.Gen.KernelIdeal.Skeleton
import proofs.«148525_j50087908606299_1_alg».proof.Proof.Spec.RefTerms
import proofs.«148525_j50087908606299_1_alg».proof.Proof.LibTransposedDot
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.KernelIdeal.Hand

open Cert.KernelIdeal Cert.KernelIdeal.Gen
open Idealize.ShloMosaic Idealize.ShloMosaic.TcCoe Idealize.ShloMosaic.ValueIdx

theorem transpose_nk_kn_apply {α : Type} {n k : ℕ} (v : (⟨2, ![n, k]⟩ : Shape).Idx → α)
    (h : (⟨2, ![n, k]⟩ : Shape).Transposes [1, 0] ⟨2, ![k, n]⟩) (c : Fin k) (q : Fin n) :
    transpose ⟨2, ![k, n]⟩ [1, 0] v h (ix2 c q) = v (ix2 q c) := by
  refine transpose_apply [1, 0] v h (ix2 c q) (ix2 q c) fun b => ?_
  match b with
  | ⟨0, _⟩ => rfl
  | ⟨1, _⟩ => rfl

theorem linear_nk_block_apply (x : FVec Ideal S1x2048 .f32) (wb : FVec Ideal S1024x2048 .f32) (bb : FVec Ideal S1x1024 .f32)
    (h1 : S1x2048.ShapeCasts S1x2048) (h2 : S1x1024.ShapeCasts S1x1024) (hb : FTy.bf16.bits < FTy.f32.bits) (j : Fin 1024) :
    addf (matmul dot_S1x2048_S1024x2048_S1x1024_1_1_0_0_n_n none (truncf .bf16 (shapeCast S1x2048 x h1) hb) (truncf .bf16 wb hb)
        (constant S1x1024 .f32 0x00000000#32)) (shapeCast S1x1024 bb h2) (ix2 (0 : Fin 1) j)
      = (∑ k : Fin 2048, x (ix2 (0 : Fin 1) k) * wb (ix2 j k)) + bb (ix2 (0 : Fin 1) j) := by
  rw [shapeCast_self, shapeCast_self, addf_apply,
    Cert.LibTransposedDot.matmul_transposedRhs_apply (m := 1) (k := 2048) (n := 1024)
      dot_S1x2048_S1024x2048_S1x1024_1_1_0_0_n_n rfl none _ _ (0 : Fin 1) j]
  simp only [truncf_apply]

theorem k2_pay1_apply (x : Vec Ideal S1x2048 .f32) (wb : Vec Ideal S1024x2048 .f32) (bb : Vec Ideal S1x1024 .f32) (j : Fin 1024) :
    k2_pay1 (F := Ideal) x wb bb (ix2 (0 : Fin 1) j) = (∑ k : Fin 2048, x (ix2 (0 : Fin 1) k) * wb (ix2 j k)) + bb (ix2 (0 : Fin 1) j) :=
  linear_nk_block_apply x wb bb _ _ _ j

theorem k3_pay1_apply (x : Vec Ideal S1x2048 .f32) (wb : Vec Ideal S1024x2048 .f32) (bb : Vec Ideal S1x1024 .f32) (j : Fin 1024) :
    k3_pay1 (F := Ideal) x wb bb (ix2 (0 : Fin 1) j) = (∑ k : Fin 2048, x (ix2 (0 : Fin 1) k) * wb (ix2 j k)) + bb (ix2 (0 : Fin 1) j) :=
  linear_nk_block_apply x wb bb _ _ _ j

theorem gates_apply (x : Vec Ideal S1x2048 .f32) (w : Vec Ideal S6144x2048 .f32) (b : Vec Ideal S1x6144 .f32) (n : Fin 6144) :
    Cert.RefTerms.gates (F := Ideal) x w b (ix2 (0 : Fin 1) n) = (∑ k : Fin 2048, x (ix2 (0 : Fin 1) k) * w (ix2 n k)) + b (ix2 (0 : Fin 1) n) := by
  unfold Cert.RefTerms.gates
  rw [addf_apply]
  have hd : Cert.ReferenceIdeal.dot_S1x2048_S2048x6144_S1x6144_1_0_0_1_n_n = DotDims.plain 1 2048 6144 := rfl
  rw [hd, StackMember.dotGeneral_plain_apply]
  congr 1
  refine Finset.sum_congr rfl fun c _ => ?_
  exact congrArg (x (ix2 (0 : Fin 1) c) * ·) (transpose_nk_kn_apply (n := 6144) (k := 2048) w _ c n)

end Cert.KernelIdeal.Hand

end
-- ==== Proof.KI.Val2.lean ====
/- The region's output array is the reference's gate projection. -/
import proofs.«148525_j50087908606299_1_alg».proof.Proof.KI.Reg2
import proofs.«148525_j50087908606299_1_alg».proof.Proof.KI.Val23

noncomputable section

namespace Cert.KernelIdeal.Hand

open Cert.KernelIdeal Cert.KernelIdeal.Gen
open Idealize.ShloMosaic Idealize.ShloMosaic.TcCoe Idealize.ShloMosaic.ValueIdx

theorem out2_eq (a0 : Vec Ideal S1x2048 .f32) (a1 : Vec Ideal S6144x2048 .f32) (a2 : Vec Ideal S1x6144 .f32) :
    out2 (F := Ideal) a0 a1 a2 = Cert.RefTerms.gates (F := Ideal) a0 a1 a2 := by
  funext i
  obtain ⟨p, n, rfl⟩ : ∃ (p : Fin 1) (n : Fin 6144), i = ix2 p n := ⟨i 0, i 1, eq_ix2 i⟩
  obtain rfl : p = 0 := Subsingleton.elim p 0
  obtain ⟨t, j, rfl⟩ : ∃ (t : Fin 6) (j : Fin 1024), n = (⟨t.val * 1024 + j.val, by omega⟩ : Fin 6144) :=
    ⟨⟨n.val / 1024, by omega⟩, ⟨n.val % 1024, Nat.mod_lt _ (by decide)⟩, Fin.ext (by
      show n.val = n.val / 1024 * 1024 + n.val % 1024
      omega)⟩
  rw [out2_apply, k2_pay1_apply, gates_apply]

end Cert.KernelIdeal.Hand

end
-- ==== Proof.KI.Val3.lean ====
/- The region's output array is the reference's gate projection. -/
import proofs.«148525_j50087908606299_1_alg».proof.Proof.KI.Reg3
import proofs.«148525_j50087908606299_1_alg».proof.Proof.KI.Val23

noncomputable section

namespace Cert.KernelIdeal.Hand

open Cert.KernelIdeal Cert.KernelIdeal.Gen
open Idealize.ShloMosaic Idealize.ShloMosaic.TcCoe Idealize.ShloMosaic.ValueIdx

theorem out3_eq (a0 : Vec Ideal S1x2048 .f32) (a1 : Vec Ideal S6144x2048 .f32) (a2 : Vec Ideal S1x6144 .f32) :
    out3 (F := Ideal) a0 a1 a2 = Cert.RefTerms.gates (F := Ideal) a0 a1 a2 := by
  funext i
  obtain ⟨p, n, rfl⟩ : ∃ (p : Fin 1) (n : Fin 6144), i = ix2 p n := ⟨i 0, i 1, eq_ix2 i⟩
  obtain rfl : p = 0 := Subsingleton.elim p 0
  obtain ⟨t, j, rfl⟩ : ∃ (t : Fin 6) (j : Fin 1024), n = (⟨t.val * 1024 + j.val, by omega⟩ : Fin 6144) :=
    ⟨⟨n.val / 1024, by omega⟩, ⟨n.val % 1024, Nat.mod_lt _ (by decide)⟩, Fin.ext (by
      show n.val = n.val / 1024 * 1024 + n.val % 1024
      omega)⟩
  rw [out3_apply, k3_pay1_apply, gates_apply]

end Cert.KernelIdeal.Hand

end
-- ==== Proof.KI.Bridge.lean ====
/- The contents between the items are the reference's stages of the arguments. -/
import proofs.«148525_j50087908606299_1_alg».proof.Proof.KI.Keep
import proofs.«148525_j50087908606299_1_alg».proof.Proof.RefRead
import proofs.«148525_j50087908606299_1_alg».proof.Proof.KI.Val0
import proofs.«148525_j50087908606299_1_alg».proof.Proof.KI.Val1
import proofs.«148525_j50087908606299_1_alg».proof.Proof.KI.Val2
import proofs.«148525_j50087908606299_1_alg».proof.Proof.KI.Val3
import proofs.«148525_j50087908606299_1_alg».proof.Proof.KI.Reg4Val
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.ReadP (val_main_v6 val_main_v7 val_main_v8 val_main_v10 val_main_v22 val_main_v23 val_main_v24 val_main_v26 val_main_v27 val_main_v30 val_main_v31 val_main_v34 val_main_v35 val_main_v63 val_main_v65 val_main_v66 val_main_v67 val_main_v68)

variable (m : (ℓ : Loc nD τ sig) → Buf (Elt Ideal) ℓ)

abbrev argAt (c : Dev nD) (r : Ref sig .tc) : Buf (Elt Ideal) ((c : Thread nD τ).loc r) := m ((c : Thread nD τ).loc r)

theorem B6 (c : Dev nD) : W1 m c (Proc.devRef .tc main_v6) = val_main_v6 (F := Ideal) (argAt m c main_arg0) (argAt m c main_arg3) := by
  dsimp only [W1, hostOps0]; after_results; rfl

theorem B7 (c : Dev nD) : W1 m c (Proc.devRef .tc main_v7) = val_main_v7 (F := Ideal) (argAt m c main_arg1) := by
  dsimp only [W1, hostOps0]; after_results; rfl

theorem B9 (c : Dev nD) : W1 m c (Proc.devRef .tc main_v9) = val_main_v8 (F := Ideal) (argAt m c main_arg0) (argAt m c main_arg1) (argAt m c main_arg3) := by
  dsimp only [W1, hostOps0]; after_results; rfl

theorem shapeCast_row_eq_broadcastInDim {α : Type} {n : Nat} (hn : n ≠ 1) (x : (⟨1, ![n]⟩ : Shape).Idx → α)
    (h1 : (⟨1, ![n]⟩ : Shape).ShapeCasts ⟨2, ![1, n]⟩) (h2 : (⟨1, ![n]⟩ : Shape).BroadcastsInDim ⟨2, ![1, n]⟩ ![1]) :
    shapeCast (⟨2, ![1, n]⟩ : Shape) x h1 = broadcastInDim (⟨2, ![1, n]⟩ : Shape) ![1] h2 x := by
  funext j
  refine (shapeCast_addUnit_apply ![n] x h1 j).trans (broadcastInDim_apply ![1] h2 x j (fun a => j a.succ) ?_).symm
  intro a
  have ha : a = 0 := Subsingleton.elim _ _
  subst ha
  show (j 1).val = if n = 1 then 0 else (j 1).val
  rw [if_neg hn]

theorem B8 (c : Dev nD) : W1 m c (Proc.devRef .tc main_v8) = val_main_v10 (F := Ideal) (argAt m c main_arg5) := by
  dsimp only [W1, hostOps0]; after_results
  funext i
  exact congrFun (shapeCast_row_eq_broadcastInDim (by decide) _ _ _) i

theorem W1_arg (c : Dev nD) (r : Ref sig .tc) (h : r ∉ hostOps0_W) : W1 m c (Proc.devRef .tc r) = argAt m c r :=
  W1_keep m c r h

theorem Baw (c : Dev nD) : W2 m c (Proc.devRef .tc main_v10_1) = val_main_v22 (F := Ideal) (argAt m c main_arg0) (argAt m c main_arg1) (argAt m c main_arg3) (argAt m c main_arg4) (argAt m c main_arg5) := by
  refine ((W2_arr m c 5).trans (arr0_5 (V1 m) c)).trans ?_
  unfold out0_5
  rw [k0_pay1_eq]
  rw [show V1 m c main_v9 = val_main_v8 (F := Ideal) (argAt m c main_arg0) (argAt m c main_arg1) (argAt m c main_arg3) from B9 m c,
    show V1 m c main_arg4 = argAt m c main_arg4 from W1_arg m c main_arg4 (by decide),
    show V1 m c main_v8 = val_main_v10 (F := Ideal) (argAt m c main_arg5) from B8 m c]
  rfl

theorem Bctx (c : Dev nD) : W2 m c (Proc.devRef .tc main_v10_0) = val_main_v23 (F := Ideal) (argAt m c main_arg0) (argAt m c main_arg1) (argAt m c main_arg2) (argAt m c main_arg3) (argAt m c main_arg4) (argAt m c main_arg5) := by
  refine ((W2_arr m c 4).trans (arr0_4 (V1 m) c)).trans ?_
  unfold out0_4
  rw [k0_pay2_eq]
  rw [show V1 m c main_v9 = val_main_v8 (F := Ideal) (argAt m c main_arg0) (argAt m c main_arg1) (argAt m c main_arg3) from B9 m c,
    show V1 m c main_arg4 = argAt m c main_arg4 from W1_arg m c main_arg4 (by decide),
    show V1 m c main_v8 = val_main_v10 (F := Ideal) (argAt m c main_arg5) from B8 m c,
    show V1 m c main_arg2 = argAt m c main_arg2 from W1_arg m c main_arg2 (by decide)]
  rfl

theorem K_v6_W2 (c : Dev nD) : W2 m c (Proc.devRef .tc main_v6) = val_main_v6 (F := Ideal) (argAt m c main_arg0) (argAt m c main_arg3) :=
  (W2_keep m c main_v6 (by decide)).trans (B6 m c)

theorem B12 (c : Dev nD) : W3 m c (Proc.devRef .tc main_v12) = val_main_v24 (F := Ideal) (argAt m c main_arg0) (argAt m c main_arg1) (argAt m c main_arg2) (argAt m c main_arg3) (argAt m c main_arg4) (argAt m c main_arg5) := by
  dsimp only [W3, hostOps1]; after_results
  rw [K_v6_W2 m c, Bctx m c]
  rfl

theorem B11 (c : Dev nD) : W3 m c (Proc.devRef .tc main_v11) = val_main_v26 (F := Ideal) (argAt m c main_arg7) := by
  dsimp only [W3, hostOps1]; after_results
  rw [show W2 m c (Proc.devRef .tc main_arg7) = argAt m c main_arg7 from
    (W2_keep m c main_arg7 (by decide)).trans (W1_arg m c main_arg7 (by decide))]
  funext i
  exact congrFun (shapeCast_row_eq_broadcastInDim (by decide) _ _ _) i

theorem W3_arg (c : Dev nD) (r : Ref sig .tc) (h3 : r ∉ hostOps1_W) (h2 : ∀ w, Pipeline.arrRef spec0 w = r → (cfg0.win w).isOut = false) (h1 : r ∉ hostOps0_W) :
    W3 m c (Proc.devRef .tc r) = argAt m c r :=
  (W3_keep m c r h3).trans ((W2_keep m c r h2).trans (W1_arg m c r h1))

theorem Brnn (c : Dev nD) : W4 m c (Proc.devRef .tc main_v13) = val_main_v27 (F := Ideal) (argAt m c main_arg0) (argAt m c main_arg1) (argAt m c main_arg2) (argAt m c main_arg3) (argAt m c main_arg4) (argAt m c main_arg5) (argAt m c main_arg6) (argAt m c main_arg7) := by
  refine ((W4_arr m c 3).trans (arr1_3 (V3 m) c)).trans ?_
  rw [out1_eq]
  rw [show V3 m c main_v12 = val_main_v24 (F := Ideal) (argAt m c main_arg0) (argAt m c main_arg1) (argAt m c main_arg2) (argAt m c main_arg3) (argAt m c main_arg4) (argAt m c main_arg5) from B12 m c,
    show V3 m c main_arg6 = argAt m c main_arg6 from W3_arg m c main_arg6 (by decide) (by decide) (by decide),
    show V3 m c main_v11 = val_main_v26 (F := Ideal) (argAt m c main_arg7) from B11 m c]
  rfl

theorem W4_arg (c : Dev nD) (r : Ref sig .tc) (h4 : ∀ w, Pipeline.arrRef spec1 w = r → (cfg1.win w).isOut = false) (h3 : r ∉ hostOps1_W) (h2 : ∀ w, Pipeline.arrRef spec0 w = r → (cfg0.win w).isOut = false) (h1 : r ∉ hostOps0_W) :
    W4 m c (Proc.devRef .tc r) = argAt m c r :=
  (W4_keep m c r h4).trans (W3_arg m c r h3 h2 h1)

theorem B14 (c : Dev nD) : W5 m c (Proc.devRef .tc main_v14) = val_main_v30 (F := Ideal) (argAt m c main_arg9) := by
  dsimp only [W5, hostOps2]; after_results
  rw [show W4 m c (Proc.devRef .tc main_arg9) = argAt m c main_arg9 from W4_arg m c main_arg9 (by decide) (by decide) (by decide) (by decide)]
  funext i
  exact congrFun (shapeCast_row_eq_broadcastInDim (by decide) _ _ _) i

theorem B15 (c : Dev nD) : W5 m c (Proc.devRef .tc main_v15) = val_main_v34 (F := Ideal) (argAt m c main_arg11) := by
  dsimp only [W5, hostOps2]; after_results
  rw [show W4 m c (Proc.devRef .tc main_arg11) = argAt m c main_arg11 from W4_arg m c main_arg11 (by decide) (by decide) (by decide) (by decide)]
  funext i
  exact congrFun (shapeCast_row_eq_broadcastInDim (by decide) _ _ _) i

theorem W5_arg (c : Dev nD) (r : Ref sig .tc) (h5 : r ∉ hostOps2_W) (h4 : ∀ w, Pipeline.arrRef spec1 w = r → (cfg1.win w).isOut = false) (h3 : r ∉ hostOps1_W) (h2 : ∀ w, Pipeline.arrRef spec0 w = r → (cfg0.win w).isOut = false) (h1 : r ∉ hostOps0_W) :
    W5 m c (Proc.devRef .tc r) = argAt m c r :=
  (W5_keep m c r h5).trans (W4_arg m c r h4 h3 h2 h1)

theorem Bgi (c : Dev nD) : W6 m c (Proc.devRef .tc main_v16) = val_main_v31 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) := by
  refine ((W6_arr m c 3).trans (arr2_3 (V5 m) c)).trans ?_
  rw [out2_eq]
  rw [show V5 m c main_v13 = val_main_v27 (F := Ideal) (argAt m c main_arg0) (argAt m c main_arg1) (argAt m c main_arg2) (argAt m c main_arg3) (argAt m c main_arg4) (argAt m c main_arg5) (argAt m c main_arg6) (argAt m c main_arg7) from (W5_keep m c main_v13 (by decide)).trans (Brnn m c),
    show V5 m c main_arg8 = argAt m c main_arg8 from W5_arg m c main_arg8 (by decide) (by decide) (by decide) (by decide) (by decide),
    show V5 m c main_v14 = val_main_v30 (F := Ideal) (argAt m c main_arg9) from B14 m c]
  rfl

theorem K_v7_W6 (c : Dev nD) : W6 m c (Proc.devRef .tc main_v7) = val_main_v7 (F := Ideal) (argAt m c main_arg1) :=
  (W6_keep m c main_v7 (by decide)).trans <| (W5_keep m c main_v7 (by decide)).trans <| (W4_keep m c main_v7 (by decide)).trans <|
    (W3_keep m c main_v7 (by decide)).trans <| (W2_keep m c main_v7 (by decide)).trans (B7 m c)

theorem Bgh (c : Dev nD) : W7 m c (Proc.devRef .tc main_v17) = val_main_v35 (F := Ideal) (argAt m c main_arg1) (argAt m c main_arg10) (argAt m c main_arg11) := by
  refine ((W7_arr m c 3).trans (arr3_3 (V6 m) c)).trans ?_
  rw [out3_eq]
  rw [show V6 m c main_v7 = val_main_v7 (F := Ideal) (argAt m c main_arg1) from K_v7_W6 m c,
    show V6 m c main_arg10 = argAt m c main_arg10 from (W6_keep m c main_arg10 (by decide)).trans (W5_arg m c main_arg10 (by decide) (by decide) (by decide) (by decide) (by decide)),
    show V6 m c main_v15 = val_main_v34 (F := Ideal) (argAt m c main_arg11) from (W6_keep m c main_v15 (by decide)).trans (B15 m c)]
  rfl

theorem Bh (c : Dev nD) : W8 m c (Proc.devRef .tc main_v45) = val_main_v63 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) := by
  dsimp only [W8, hostOps4]; after_results_simp
  rw [show W7 m c (Proc.devRef .tc main_v16) = val_main_v31 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) from (W7_keep m c main_v16 (by decide)).trans (Bgi m c),
    Bgh m c,
    show W7 m c (Proc.devRef .tc main_v7) = val_main_v7 (F := Ideal) (argAt m c main_arg1) from (W7_in m c 0 rfl).trans (K_v7_W6 m c)]
  rfl

theorem B46 (c : Dev nD) : W8 m c (Proc.devRef .tc main_v46) = val_main_v65 (F := Ideal) (argAt m c main_arg13) := by
  dsimp only [W8, hostOps4]; after_results_simp
  rw [show W7 m c (Proc.devRef .tc main_arg13) = argAt m c main_arg13 from (W7_keep m c main_arg13 (by decide)).trans <| (W6_keep m c main_arg13 (by decide)).trans (W5_arg m c main_arg13 (by decide) (by decide) (by decide) (by decide) (by decide))]
  funext i
  exact congrFun (shapeCast_row_eq_broadcastInDim (by decide) _ _ _) i

theorem Blog (c : Dev nD) : W9 m c (Proc.devRef .tc main_v47) = val_main_v66 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) := by
  refine ((W9_arr m c 3).trans (arr4_3 (V8 m) c)).trans ?_
  rw [out4_eq]
  rw [show V8 m c main_v45 = val_main_v63 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) from Bh m c,
    show V8 m c main_arg12 = argAt m c main_arg12 from (W8_keep m c main_arg12 (by decide)).trans <| (W7_keep m c main_arg12 (by decide)).trans <| (W6_keep m c main_arg12 (by decide)).trans (W5_arg m c main_arg12 (by decide) (by decide) (by decide) (by decide) (by decide)),
    show V8 m c main_v46 = val_main_v65 (F := Ideal) (argAt m c main_arg13) from B46 m c]
  rfl

theorem Bout1 (c : Dev nD) : W11 m c (Proc.devRef .tc main_v49) = val_main_v68 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) := by
  dsimp only [W11, hostOps5_1]; after_results
  rw [show W9 m c (Proc.devRef .tc main_v45) = val_main_v63 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) from (W9_in m c 0 rfl).trans (Bh m c)]
  rfl

theorem Bout2 (c : Dev nD) : W11 m c (Proc.devRef .tc main_v10_1) = val_main_v22 (F := Ideal) (argAt m c main_arg0) (argAt m c main_arg1) (argAt m c main_arg3) (argAt m c main_arg4) (argAt m c main_arg5) :=
  (W11_keep m c main_v10_1 (by decide)).trans <| (W10_keep m c main_v10_1 (by decide)).trans <| (W9_keep m c main_v10_1 (by decide)).trans <|
    (W8_keep m c main_v10_1 (by decide)).trans <| (W7_keep m c main_v10_1 (by decide)).trans <| (W6_keep m c main_v10_1 (by decide)).trans <|
    (W5_keep m c main_v10_1 (by decide)).trans <| (W4_keep m c main_v10_1 (by decide)).trans <| (W3_keep m c main_v10_1 (by decide)).trans (Baw m c)

theorem W11_arg (c : Dev nD) (r : Ref sig .tc)
    (h : r ∉ hostOps0_W ∧ (∀ w, Pipeline.arrRef spec0 w = r → (cfg0.win w).isOut = false)
      ∧ r ∉ hostOps1_W ∧ (∀ w, Pipeline.arrRef spec1 w = r → (cfg1.win w).isOut = false)
      ∧ r ∉ hostOps2_W ∧ (∀ w, Pipeline.arrRef spec2 w = r → (cfg2.win w).isOut = false)
      ∧ (∀ w, Pipeline.arrRef spec3 w = r → (cfg3.win w).isOut = false)
      ∧ r ∉ hostOps4_W ∧ (∀ w, Pipeline.arrRef spec4 w = r → (cfg4.win w).isOut = false)
      ∧ r ∉ hostOps5_W ∧ r ∉ hostOps5_1_W) :
    W11 m c (Proc.devRef .tc r) = argAt m c r := by
  obtain ⟨h1, h2, h3, h4, h5, h6, h7, h8, h9, h10, h11⟩ := h
  exact (W11_keep m c r h11).trans <| (W10_keep m c r h10).trans <| (W9_keep m c r h9).trans <| (W8_keep m c r h8).trans <|
    (W7_keep m c r h7).trans <| (W6_keep m c r h6).trans <| (W5_keep m c r h5).trans <| (W4_keep m c r h4).trans <|
    (W3_keep m c r h3).trans <| (W2_keep m c r h2).trans (W1_arg m c r h1)

end Cert.KernelIdeal.Hand

end
-- ==== Proof.KI.BridgeOut.lean ====
/- Both programs end with the same log-softmax of the logits row. -/
import proofs.«148525_j50087908606299_1_alg».proof.Proof.KI.Bridge

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Cert.ReferenceIdeal.ReadP (val_main_v66 val_main_v67)

section Generic

variable {F : FTy → Type} [FloatOps F]

def rowMaxAlong (X : FVec F S1x50257 .f32) : FVec F S1x50257 .f32 :=
  broadcastInDim S1x50257 ![0, 1] bcast_S1x1_S1x50257_0_1 (broadcastInDim S1x1 ![0] bcast_S1_S1x1_0
    (maximumf (broadcastInDim S1 ![] bcast_S_S1 (constant S_ .f32 0xFF800000#32))
      (Host.reduce FloatOps.maximumf X (constant S_ .f32 0xFF800000#32) reducesTo_S1x50257_S1_d1 h_S_)))

def logSoftmaxRow (X : FVec F S1x50257 .f32) : FVec F S1x50257 .f32 :=
  subf (subf X (rowMaxAlong X)) (broadcastInDim S1x50257 ![0, 1] bcast_S1x1_S1x50257_0_1 (Host.log (broadcastInDim S1x1 ![0] bcast_S1_S1x1_0
    (Host.reduceAdd (Host.exp (subf X (rowMaxAlong X))) (constant S_ .f32 0x00000000#32) reducesTo_S1x50257_S1_d1 h_S_))))

theorem ref_logSoftmax (x0 : (⟨Cert.ReferenceIdeal.S1, .i32⟩ : BufTy).Contents (Elt F)) (x1 : (⟨Cert.ReferenceIdeal.S1x1x2048, .f32⟩ : BufTy).Contents (Elt F)) (x2 : (⟨Cert.ReferenceIdeal.S100x2048, .f32⟩ : BufTy).Contents (Elt F)) (x3 : (⟨Cert.ReferenceIdeal.S50257x2048, .f32⟩ : BufTy).Contents (Elt F)) (x4 : (⟨Cert.ReferenceIdeal.S4096x100, .f32⟩ : BufTy).Contents (Elt F)) (x5 : (⟨Cert.ReferenceIdeal.S100, .f32⟩ : BufTy).Contents (Elt F)) (x6 : (⟨Cert.ReferenceIdeal.S4096x2048, .f32⟩ : BufTy).Contents (Elt F)) (x7 : (⟨Cert.ReferenceIdeal.S2048, .f32⟩ : BufTy).Contents (Elt F)) (x8 : (⟨Cert.ReferenceIdeal.S6144x2048, .f32⟩ : BufTy).Contents (Elt F)) (x9 : (⟨Cert.ReferenceIdeal.S6144, .f32⟩ : BufTy).Contents (Elt F)) (x10 : (⟨Cert.ReferenceIdeal.S6144x2048, .f32⟩ : BufTy).Contents (Elt F)) (x11 : (⟨Cert.ReferenceIdeal.S6144, .f32⟩ : BufTy).Contents (Elt F)) (x12 : (⟨Cert.ReferenceIdeal.S2048x50257, .f32⟩ : BufTy).Contents (Elt F)) (x13 : (⟨Cert.ReferenceIdeal.S50257, .f32⟩ : BufTy).Contents (Elt F)) :
    val_main_v67 (F := F) x0 x1 x2 x3 x4 x5 x6 x7 x8 x9 x10 x11 x12 x13 = logSoftmaxRow (val_main_v66 (F := F) x0 x1 x2 x3 x4 x5 x6 x7 x8 x9 x10 x11 x12 x13) := by
  unfold Cert.ReferenceIdeal.ReadP.val_main_v67 Cert.ReferenceIdeal.ReadP.val_main_call0_v5 Cert.ReferenceIdeal.ReadP.val_main_call0_v10 Cert.ReferenceIdeal.ReadP.val_main_call0_v9 Cert.ReferenceIdeal.ReadP.val_main_call0_v8 Cert.ReferenceIdeal.ReadP.val_main_call0_v7 Cert.ReferenceIdeal.ReadP.val_main_call0_v6 Cert.ReferenceIdeal.ReadP.val_main_call0_v4 Cert.ReferenceIdeal.ReadP.val_main_call0_v3 Cert.ReferenceIdeal.ReadP.val_main_call0_v2 Cert.ReferenceIdeal.ReadP.val_main_call0_v1 Cert.ReferenceIdeal.ReadP.val_main_call0_v0 Cert.ReferenceIdeal.ReadP.val_main_call0_cst Cert.ReferenceIdeal.ReadP.val_main_call0_cst_0 Cert.ReferenceIdeal.ReadP.val_main_call0_cst_1
  rfl

theorem ofBuf_toBuf {T : BufTy} (x : StableHlo.TRef sig T) (v : T.Contents (Elt F)) : x.ofBuf (x.toBuf v) = v := by
  obtain ⟨r, h, h2, h3⟩ := x
  subst h
  rfl

theorem ofBuf_logits (X : (main_v47 : Ref sig .tc).ty.Contents (Elt F)) :
    (StableHlo.TRef.of main_v47 : StableHlo.TRef sig ⟨S1x50257, .f32⟩).ofBuf X = X := rfl
theorem toBuf_result (X : (⟨S1x50257, .f32⟩ : BufTy).Contents (Elt F)) :
    (StableHlo.TRef.of main_v48 : StableHlo.TRef sig ⟨S1x50257, .f32⟩).toBuf X = X := rfl

theorem after_logSoftmax (V : Valuation τ sig (Elt F)) :
    StableHlo.after hostOps5 V (Proc.devRef .tc main_v48) = logSoftmaxRow (V (Proc.devRef .tc main_v47)) := by
  dsimp only [hostOps5]; after_results_simp
  simp only [ofBuf_toBuf]
  rw [ofBuf_logits, toBuf_result]
  rfl

end Generic

variable (m : (ℓ : Loc nD τ sig) → Buf (Elt Ideal) ℓ)

theorem Bout0 (c : Dev nD) : W11 m c (Proc.devRef .tc main_v48) = val_main_v67 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13) := by
  refine (W11_keep m c main_v48 (by decide)).trans ?_
  refine (after_logSoftmax (W9 m c)).trans ?_
  rw [Blog m c, ref_logSoftmax]

end Cert.KernelIdeal.Hand

end
-- ==== Proof.KI.Final.lean ====
/- The idealized program ends with the reference's three stages of the arguments, the arguments unchanged. -/
import proofs.«148525_j50087908606299_1_alg».proof.Proof.KI.Run
import proofs.«148525_j50087908606299_1_alg».proof.Proof.KI.Bridge
import proofs.«148525_j50087908606299_1_alg».proof.Proof.KI.BridgeOut

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.ReferenceIdeal.ReadP (val_main_v22 val_main_v67 val_main_v68)

variable (m : (ℓ : Loc nD τ sig) → Buf (Elt Ideal) ℓ) (ρ : Dev nD → PrngReg)

abbrev res0 (c : Dev nD) := val_main_v67 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13)
abbrev res1 (c : Dev nD) := val_main_v68 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11)
abbrev res2 (c : Dev nD) := val_main_v22 (F := Ideal) (argAt m c main_arg0) (argAt m c main_arg1) (argAt m c main_arg3) (argAt m c main_arg4) (argAt m c main_arg5)

theorem ki_run : θ_run (defs (F := Ideal)) (onTc (τ := τ) (main (F := Ideal))) ⟨m, fun _ => 0, ρ⟩ (fun r => ∀ c : Dev nD,
      r.2.mem ((c.tc : Thread nD τ).loc main_v48) = res0 m c
      ∧ r.2.mem ((c.tc : Thread nD τ).loc main_v49) = res1 m c
      ∧ r.2.mem ((c.tc : Thread nD τ).loc main_v10_1) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (defs (F := Ideal)) _ _).mono (fun r h c =>
    ⟨(h c _ (mem_uc main_v48 (by decide))).trans (Bout0 m c),
     (h c _ (mem_uc main_v49 (by decide))).trans (Bout1 m c),
     (h c _ (mem_uc main_v10_1 (by decide))).trans (Bout2 m c),
     (h c _ (mem_uc main_arg0 (by decide))).trans (W11_arg m c main_arg0 (by decide)),
     (h c _ (mem_uc main_arg1 (by decide))).trans (W11_arg m c main_arg1 (by decide)),
     (h c _ (mem_uc main_arg2 (by decide))).trans (W11_arg m c main_arg2 (by decide)),
     (h c _ (mem_uc main_arg3 (by decide))).trans (W11_arg m c main_arg3 (by decide)),
     (h c _ (mem_uc main_arg4 (by decide))).trans (W11_arg m c main_arg4 (by decide)),
     (h c _ (mem_uc main_arg5 (by decide))).trans (W11_arg m c main_arg5 (by decide)),
     (h c _ (mem_uc main_arg6 (by decide))).trans (W11_arg m c main_arg6 (by decide)),
     (h c _ (mem_uc main_arg7 (by decide))).trans (W11_arg m c main_arg7 (by decide)),
     (h c _ (mem_uc main_arg8 (by decide))).trans (W11_arg m c main_arg8 (by decide)),
     (h c _ (mem_uc main_arg9 (by decide))).trans (W11_arg m c main_arg9 (by decide)),
     (h c _ (mem_uc main_arg10 (by decide))).trans (W11_arg m c main_arg10 (by decide)),
     (h c _ (mem_uc main_arg11 (by decide))).trans (W11_arg m c main_arg11 (by decide)),
     (h c _ (mem_uc main_arg12 (by decide))).trans (W11_arg m c main_arg12 (by decide)),
     (h c _ (mem_uc main_arg13 (by decide))).trans (W11_arg m c main_arg13 (by decide))⟩) (run_all m ρ)

end Cert.KernelIdeal.Hand

end
-- ==== Proof.lean ====
/- One decoder step with attention: the kernel program and its reference reach the same three results, stage by stage, at the exact reals; sums are regrouped by commutativity and associativity of addition only. -/
import proofs.«148525_j50087908606299_1_alg».proof.Defs
import proofs.«148525_j50087908606299_1_alg».proof.Proof.Gen.Kernel
import proofs.«148525_j50087908606299_1_alg».proof.Proof.Gen.KernelIdeal
import proofs.«148525_j50087908606299_1_alg».proof.Proof.Gen.ReferenceIdeal
import proofs.«148525_j50087908606299_1_alg».proof.Proof.Gen.Pre_finite_inputs
import proofs.«148525_j50087908606299_1_alg».proof.Proof.RefRun
import proofs.«148525_j50087908606299_1_alg».proof.Proof.K.Run
import proofs.«148525_j50087908606299_1_alg».proof.Proof.KI.Final
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Hand.frame (F := Bits) m ρ

theorem frame_kernelIdeal : Cert.frame_KernelIdeal := fun m ρ _ =>
  (θ_run (Cert.KernelIdeal.defs (F := Ideal)) _ _).mono (fun _ h c => (h c).2.2.2) (Cert.KernelIdeal.Hand.ki_run m ρ)

theorem frame_referenceIdeal : Cert.frame_ReferenceIdeal := fun m ρ _ =>
  (θ_run (Cert.ReferenceIdeal.defs (F := Ideal)) _ _).mono (fun _ h c => (h c).2.2.2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.res0 m c, fun c => Cert.KernelIdeal.Hand.res1 m c, fun c => Cert.KernelIdeal.Hand.res2 m c,
    Cert.KernelIdeal.Hand.ki_run m ρ, ?_⟩
  refine (θ_run (Cert.ReferenceIdeal.defs (F := Ideal)) _ _).mono (fun _ h c => ?_) (Cert.ReferenceIdeal.ValueP.run (F := Ideal) m' ρ')
  obtain ⟨e0, e1, e2, e3, e4, e5, e6, e7, e8, e9, e10, e11, e12, e13⟩ := hagree c
  refine ⟨(h c).1.trans ?_, (h c).2.1.trans ?_, (h c).2.2.1.trans ?_, (h c).2.2.2⟩
  · rw [e0, e1, e2, e3, e4, e5, e6, e7, e8, e9, e10, e11, e12, e13]
  · rw [e0, e1, e2, e3, e4, e5, e6, e7, e8, e9, e10, e11]
  · rw [e0, e1, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
